-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S131072 : Shape := ⟨1, ![131072]⟩
abbrev S131072x2 : Shape := ⟨2, ![131072, 2]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S131072 : S_.BroadcastsInDim S131072 (![] : Fin 0 → Fin S131072.rank)
  reducesTo_S131072_S_d0 : S131072.ReducesTo [0] S_
  bcast_S_S131072x2 : S_.BroadcastsInDim S131072x2 (![] : Fin 0 → Fin S131072x2.rank)
  reducesTo_S131072x2_S_d0_1 : S131072x2.ReducesTo [0, 1] S_

variable [Facts]

def fn_part2 {F : FTy → Type} [FloatOps F] (main_arg5 : IVec S131072x2 32) (main_v29 : IVec S_ 1) (main_v31 : IVec S131072x2 1) (main_v32 : IVec S131072x2 32) : IVec S_ 1 :=
  let main_v33 : IVec S131072x2 1 := cmpi .slt main_arg5 main_v32
  let main_v34 : IVec S131072x2 1 := andi main_v31 main_v33
  let main_c_13 : IVec S_ 1 := constantI S_ 1 1#1
  let main_v35 : IVec S_ 1 := (fun x v => Host.reduce IntOp.andi x v reducesTo_S131072x2_S_d0_1 h_S_) main_v34 main_c_13
  let main_v36 : IVec S_ 1 := andi main_v29 main_v35
  main_v36

def fn_part1 {F : FTy → Type} [FloatOps F] (main_arg3 : IVec S131072x2 32) (main_arg4 : IVec S131072x2 32) (main_arg5 : IVec S131072x2 32) (main_v15 : IVec S_ 1) (main_c_5 : IVec S_ 32) : IVec S_ 1 :=
  let main_v16 : IVec S131072x2 32 := broadcastInDim S131072x2 ![] bcast_S_S131072x2 main_c_5
  let main_v17 : IVec S131072x2 1 := cmpi .sge main_arg3 main_v16
  let main_c_6 : IVec S_ 32 := constantI S_ 32 64#32
  let main_v18 : IVec S131072x2 32 := broadcastInDim S131072x2 ![] bcast_S_S131072x2 main_c_6
  let main_v19 : IVec S131072x2 1 := cmpi .slt main_arg3 main_v18
  let main_v20 : IVec S131072x2 1 := andi main_v17 main_v19
  let main_c_7 : IVec S_ 1 := constantI S_ 1 1#1
  let main_v21 : IVec S_ 1 := (fun x v => Host.reduce IntOp.andi x v reducesTo_S131072x2_S_d0_1 h_S_) main_v20 main_c_7
  let main_v22 : IVec S_ 1 := andi main_v15 main_v21
  let main_c_8 : IVec S_ 32 := constantI S_ 32 0#32
  let main_v23 : IVec S131072x2 32 := broadcastInDim S131072x2 ![] bcast_S_S131072x2 main_c_8
  let main_v24 : IVec S131072x2 1 := cmpi .sge main_arg4 main_v23
  let main_c_9 : IVec S_ 32 := constantI S_ 32 64#32
  let main_v25 : IVec S131072x2 32 := broadcastInDim S131072x2 ![] bcast_S_S131072x2 main_c_9
  let main_v26 : IVec S131072x2 1 := cmpi .slt main_arg4 main_v25
  let main_v27 : IVec S131072x2 1 := andi main_v24 main_v26
  let main_c_10 : IVec S_ 1 := constantI S_ 1 1#1
  let main_v28 : IVec S_ 1 := (fun x v => Host.reduce IntOp.andi x v reducesTo_S131072x2_S_d0_1 h_S_) main_v27 main_c_10
  let main_v29 : IVec S_ 1 := andi main_v22 main_v28
  let main_c_11 : IVec S_ 32 := constantI S_ 32 0#32
  let main_v30 : IVec S131072x2 32 := broadcastInDim S131072x2 ![] bcast_S_S131072x2 main_c_11
  let main_v31 : IVec S131072x2 1 := cmpi .sge main_arg5 main_v30
  let main_c_12 : IVec S_ 32 := constantI S_ 32 64#32
  let main_v32 : IVec S131072x2 32 := broadcastInDim S131072x2 ![] bcast_S_S131072x2 main_c_12
  fn_part2 (F := F) main_arg5 main_v29 main_v31 main_v32

def fn {F : FTy → Type} [FloatOps F] (main_arg0 : FVec F S8x256x64x64 .f32) (main_arg1 : FVec F S8x256x64x64 .f32) (main_arg2 : IVec S131072 32) (main_arg3 : IVec S131072x2 32) (main_arg4 : IVec S131072x2 32) (main_arg5 : IVec S131072x2 32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg2 main_v9
  let main_c_3 : IVec S_ 32 := constantI S_ 32 8#32
  let main_v11 : IVec S131072 32 := broadcastInDim S131072 ![] bcast_S_S131072 main_c_3
  let main_v12 : IVec S131072 1 := cmpi .slt main_arg2 main_v11
  let main_v13 : IVec S131072 1 := andi main_v10 main_v12
  let main_c_4 : IVec S_ 1 := constantI S_ 1 1#1
  let main_v14 : IVec S_ 1 := (fun x v => Host.reduce IntOp.andi x v reducesTo_S131072_S_d0 h_S_) main_v13 main_c_4
  let main_v15 : IVec S_ 1 := andi main_v8 main_v14
  let main_c_5 : IVec S_ 32 := constantI S_ 32 0#32
  fn_part1 (F := F) main_arg3 main_arg4 main_arg5 main_v15 main_c_5
-- ==== Kernel.lean ====
abbrev S8x256x64x64 : Shape := ⟨4, ![8, 256, 64, 64]⟩
abbrev S131072 : Shape := ⟨1, ![131072]⟩
abbrev S131072x2 : Shape := ⟨2, ![131072, 2]⟩
abbrev S8x64x64x256 : Shape := ⟨4, ![8, 64, 64, 256]⟩
abbrev S32768x1x256 : Shape := ⟨3, ![32768, 1, 256]⟩
abbrev S_ : Shape := ⟨0, ![]⟩
abbrev S131072x1 : Shape := ⟨2, ![131072, 1]⟩
abbrev S32768 : Shape := ⟨1, ![32768]⟩
abbrev S1x1 : Shape := ⟨2, ![1, 1]⟩
abbrev S1x1x256 : Shape := ⟨3, ![1, 1, 256]⟩
abbrev S1 : Shape := ⟨1, ![1]⟩
abbrev S1x256 : Shape := ⟨2, ![1, 256]⟩

abbrev nBuf : Space → Nat
  | .hbm => 61
  | .vmem => 32
  | .smem => 12
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S131072, .i32⟩
  | .hbm, ⟨3, _⟩ => ⟨S131072x2, .i32⟩
  | .hbm, ⟨4, _⟩ => ⟨S131072x2, .i32⟩
  | .hbm, ⟨5, _⟩ => ⟨S131072x2, .i32⟩
  | .hbm, ⟨6, _⟩ => ⟨S8x64x64x256, .f32⟩
  | .hbm, ⟨7, _⟩ => ⟨S32768x1x256, .f32⟩
  | .hbm, ⟨8, _⟩ => ⟨S8x64x64x256, .f32⟩
  | .hbm, ⟨9, _⟩ => ⟨S32768x1x256, .f32⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072, .i32⟩
  | .hbm, ⟨21, _⟩ => ⟨S131072, .i32⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072, .i32⟩
  | .hbm, ⟨33, _⟩ => ⟨S131072, .i32⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S131072, .i32⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072, .i32⟩
  | .hbm, ⟨45, _⟩ => ⟨S131072, .i32⟩
  | .hbm, ⟨46, _⟩ => ⟨S1x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S1x1, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1, .f32⟩
  | .local _ .vmem, ⟨7, _⟩ => ⟨S1x1, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1, .f32⟩
  | .local _ .vmem, ⟨15, _⟩ => ⟨S1x1, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1, .f32⟩
  | .local _ .vmem, ⟨23, _⟩ => ⟨S1x1, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S1x1, .f32⟩
  | .local _ .vmem, ⟨31, _⟩ => ⟨S1x1, .f32⟩
  | .local _ .smem, ⟨0, _⟩ => ⟨S32768, .i32⟩
  | .local _ .smem, ⟨1, _⟩ => ⟨S32768, .i32⟩
  | .local _ .smem, ⟨2, _⟩ => ⟨S32768, .i32⟩
  | .local _ .smem, ⟨3, _⟩ => ⟨S32768, .i32⟩
  | .local _ .smem, ⟨4, _⟩ => ⟨S32768, .i32⟩
  | .local _ .smem, ⟨5, _⟩ => ⟨S32768, .i32⟩
  | .local _ .smem, ⟨6, _⟩ => ⟨S32768, .i32⟩
  | .local _ .smem, ⟨7, _⟩ => ⟨S32768, .i32⟩
  | .local _ .smem, ⟨8, _⟩ => ⟨S32768, .i32⟩
  | .local _ .smem, ⟨9, _⟩ => ⟨S32768, .i32⟩
  | .local _ .smem, ⟨10, _⟩ => ⟨S32768, .i32⟩
  | .local _ .smem, ⟨11, _⟩ => ⟨S32768, .i32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_cst_5 : Ref sig .tc := ⟨.hbm, 59, rfl⟩
abbrev main_v58 : Ref sig .tc := ⟨.hbm, 60, rfl⟩
abbrev main_v34 : Ref sig .tc := ⟨.smem, 0, rfl⟩
abbrev main_v35 : Ref sig .tc := ⟨.smem, 1, rfl⟩
abbrev main_v36 : Ref sig .tc := ⟨.smem, 2, rfl⟩
abbrev main_v40 : Ref sig .tc := ⟨.smem, 3, rfl⟩
abbrev main_v41 : Ref sig .tc := ⟨.smem, 4, rfl⟩
abbrev main_v42 : Ref sig .tc := ⟨.smem, 5, rfl⟩
abbrev main_v46 : Ref sig .tc := ⟨.smem, 6, rfl⟩
abbrev main_v47 : Ref sig .tc := ⟨.smem, 7, rfl⟩
abbrev main_v48 : Ref sig .tc := ⟨.smem, 8, rfl⟩
abbrev main_v52 : Ref sig .tc := ⟨.smem, 9, rfl⟩
abbrev main_v53 : Ref sig .tc := ⟨.smem, 10, rfl⟩
abbrev main_v54 : Ref sig .tc := ⟨.smem, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27

abbrev nD : Nat := 1
abbrev τ : Topo := Topo.v7x

variable {F : FTy → Type} [FloatOps F]

abbrev grid0 : Pipeline.Grid := ⟨1, ![32768], ![false]⟩

abbrev pre0 : Pipeline.Prefetch sig := ⟨3, ![main_v34.idx, main_v35.idx, main_v36.idx], fun | 0 => main_v34.names | 1 => main_v35.names | 2 => main_v36.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c32767_i32 : BitVec 32 := 32767#32
  let v27 : BitVec 1 := Scalar.cmpi .eq arg0 c32767_i32
  let v28 : BitVec 32 := Scalar.extui v27
  let c0_i32_16 : BitVec 32 := 0#32
  let v29 : BitVec 1 := Scalar.cmpi .ne v28 c0_i32_16
  v29

def cc0_transform_0 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32768], ![false]⟩

abbrev pre1 : Pipeline.Prefetch sig := ⟨3, ![main_v40.idx, main_v41.idx, main_v42.idx], fun | 0 => main_v40.names | 1 => main_v41.names | 2 => main_v42.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) : BitVec 1 :=
  let arg0 : BitVec 32 := BitVec.ofNat 32 (i 0).val
  let c32767_i32 : BitVec 32 := 32767#32
  let v27 : BitVec 1 := Scalar.cmpi .eq arg0 c32767_i32
  let v28 : BitVec 32 := Scalar.extui v27
  let c0_i32_16 : BitVec 32 := 0#32
  let v29 : BitVec 1 := Scalar.cmpi .ne v28 c0_i32_16
  v29

def cc1_transform_0 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 2 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32768], ![false]⟩

abbrev pre2 : Pipeline.Prefetch sig := ⟨3, ![main_v46.idx, main_v47.idx, main_v48.idx], fun | 0 => main_v46.names | 1 => main_v47.names | 2 => main_v48.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond2 (i : grid2.Coords) : BitVec 1 :=
  let arg0 : BitVec 32 := BitVec.ofNat 32 (i 0).val
  let c32767_i32 : BitVec 32 := 32767#32
  let v27 : BitVec 1 := Scalar.cmpi .eq arg0 c32767_i32
  let v28 : BitVec 32 := Scalar.extui v27
  let c0_i32_16 : BitVec 32 := 0#32
  let v29 : BitVec 1 := Scalar.cmpi .ne v28 c0_i32_16
  v29

def cc2_transform_0 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 2 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![32768], ![false]⟩

abbrev pre3 : Pipeline.Prefetch sig := ⟨3, ![main_v52.idx, main_v53.idx, main_v54.idx], fun | 0 => main_v52.names | 1 => main_v53.names | 2 => main_v54.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_cond2 (i : grid3.Coords) : BitVec 1 :=
  let arg0 : BitVec 32 := BitVec.ofNat 32 (i 0).val
  let c32767_i32 : BitVec 32 := 32767#32
  let v27 : BitVec 1 := Scalar.cmpi .eq arg0 c32767_i32
  let v28 : BitVec 32 := Scalar.extui v27
  let c0_i32_16 : BitVec 32 := 0#32
  let v29 : BitVec 1 := Scalar.cmpi .ne v28 c0_i32_16
  v29

def cc3_transform_0 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 2 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  transposes_S8x256x64x64_S8x64x64x256_0_2_3_1 : S8x256x64x64.Transposes [0, 2, 3, 1] S8x64x64x256
  shapeCasts_S8x64x64x256_S32768x1x256 : S8x64x64x256.ShapeCasts S32768x1x256
  bcast_S_S131072 : S_.BroadcastsInDim S131072 (![] : Fin 0 → Fin S131072.rank)
  slices_S131072x2_S131072x1_0_0 : S131072x2.Slices ![0, 0] S131072x1
  shapeCasts_S131072x1_S131072 : S131072x1.ShapeCasts S131072
  slices_S131072x2_S131072x1_0_1 : S131072x2.Slices ![0, 1] S131072x1
  slices_S131072_S32768_0 : S131072.Slices ![0] S32768
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  reduces_S1x256_S1 : S1x256.Reduces [1] S1
  shapeCasts_S1_S1x1 : S1.ShapeCasts S1x1
  shapeCasts_S1x1_S_ : S1x1.ShapeCasts S_
  slices_S131072_S32768_32768 : S131072.Slices ![32768] S32768
  slices_S131072_S32768_65536 : S131072.Slices ![65536] S32768
  slices_S131072_S32768_98304 : S131072.Slices ![98304] S32768
  hrank0 : 0 < grid0.rank
  k0_off1_inb : ∀ i : grid0.Coords, ∀ a, (k0_off1 i) a + S1.size a ≤ S32768.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  k1_off1_inb : ∀ i : grid1.Coords, ∀ a, (k1_off1 i) a + S1.size a ≤ S32768.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  k2_off1_inb : ∀ i : grid2.Coords, ∀ a, (k2_off1 i) a + S1.size a ≤ S32768.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off1_inb numel1_S1 pf i = cc2_transform_2 k2_off1_inb numel1_S1 pf i'
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hrank3 : 0 < grid3.rank
  k3_off1_inb : ∀ i : grid3.Coords, ∀ a, (k3_off1 i) a + S1.size a ≤ S32768.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)

variable [Facts₀]

abbrev spec0_0 : Pipeline.WinSpec sig grid0.rank :=
  Pipeline.WinSpec.ofSpec (Memref.whole main_v1) S1x1x256.size reads0_0 false false 2 stage0_0 sem0_0 nbuf0_0 hstage0_0

abbrev spec0_1 : Pipeline.WinSpec sig grid0.rank :=
  Pipeline.WinSpec.ofSpec (Memref.whole main_v3) S1x1x256.size reads0_1 false false 2 stage0_1 sem0_1 nbuf0_1 hstage0_1

abbrev spec0_2 : Pipeline.WinSpec sig grid0.rank :=
  Pipeline.WinSpec.ofSpec (Memref.whole main_v3) S1x1x256.size reads0_2 false false 2 stage0_2 sem0_2 nbuf0_2 hstage0_2

abbrev spec0_3 : Pipeline.WinSpec sig grid0.rank :=
  Pipeline.WinSpec.ofSpec (Memref.whole main_v37) S1x1.size reads0_3 true true 1 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S32768x1x256.size a), EltTy.bits .f32 = 32 ∨ (Rect.block (s := S32768x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S32768x1x256.size a), EltTy.bits .f32 = 32 ∨ (Rect.block (s := S32768x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S32768x1x256.size a), EltTy.bits .f32 = 32 ∨ (Rect.block (s := S32768x1x256) S1x1x256.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev spec1_0 : Pipeline.WinSpec sig grid1.rank :=
  Pipeline.WinSpec.ofSpec (Memref.whole main_v1) S1x1x256.size reads1_0 false false 2 stage1_0 sem1_0 nbuf1_0 hstage1_0

abbrev spec1_1 : Pipeline.WinSpec sig grid1.rank :=
  Pipeline.WinSpec.ofSpec (Memref.whole main_v3) S1x1x256.size reads1_1 false false 2 stage1_1 sem1_1 nbuf1_1 hstage1_1

abbrev spec1_2 : Pipeline.WinSpec sig grid1.rank :=
  Pipeline.WinSpec.ofSpec (Memref.whole main_v3) S1x1x256.size reads1_2 false false 2 stage1_2 sem1_2 nbuf1_2 hstage1_2

abbrev spec1_3 : Pipeline.WinSpec sig grid1.rank :=
  Pipeline.WinSpec.ofSpec (Memref.whole main_v43) S1x1.size reads1_3 true true 1 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x256.size a ≤ S32768x1x256.size a), EltTy.bits .f32 = 32 ∨ (Rect.block (s := S32768x1x256) S1x1x256.size (cc1_transform_0 k1_off1_inb numel1_S1 pf i) h).WholeWords (EltTy.packing .f32)) ∧
  (∀ i : grid1.Coords, ∃ h : (∀ a, (cc1_transform_1 k1_off1_inb numel1_S1 pf i a + 1) * S1x1x256.size a ≤ S32768x1x256.size a), EltTy.bits .f32 = 32 ∨ (Rect.block (s := S32768x1x256) S1x1x256.size (cc1_transform_1 k1_off1_inb numel1_S1 pf i) h).WholeWords (EltTy.packing .f32)) ∧
  (∀ i : grid1.Coords, ∃ h : (∀ a, (cc1_transform_2 k1_off1_inb numel1_S1 pf i a + 1) * S1x1x256.size a ≤ S32768x1x256.size a), EltTy.bits .f32 = 32 ∨ (Rect.block (s := S32768x1x256) S1x1x256.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2 i).elim fun h _ => h a | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2 i).elim fun _ h => h | 3 => hwx1_3 | ⟨_ + 4, h⟩ => absurd h (Nat.not_lt.2 (Nat.le_add_left _ _))
abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev spec2_0 : Pipeline.WinSpec sig grid2.rank :=
  Pipeline.WinSpec.ofSpec (Memref.whole main_v1) S1x1x256.size reads2_0 false false 2 stage2_0 sem2_0 nbuf2_0 hstage2_0

abbrev spec2_1 : Pipeline.WinSpec sig grid2.rank :=
  Pipeline.WinSpec.ofSpec (Memref.whole main_v3) S1x1x256.size reads2_1 false false 2 stage2_1 sem2_1 nbuf2_1 hstage2_1

abbrev spec2_2 : Pipeline.WinSpec sig grid2.rank :=
  Pipeline.WinSpec.ofSpec (Memref.whole main_v3) S1x1x256.size reads2_2 false false 2 stage2_2 sem2_2 nbuf2_2 hstage2_2

abbrev spec2_3 : Pipeline.WinSpec sig grid2.rank :=
  Pipeline.WinSpec.ofSpec (Memref.whole main_v49) S1x1.size reads2_3 true true 1 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 k2_off1_inb numel1_S1 pf | 1 => cc2_transform_1 k2_off1_inb numel1_S1 pf | 2 => cc2_transform_2 k2_off1_inb numel1_S1 pf | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 | ⟨_ + 4, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x256.size a ≤ S32768x1x256.size a), EltTy.bits .f32 = 32 ∨ (Rect.block (s := S32768x1x256) S1x1x256.size (cc2_transform_0 k2_off1_inb numel1_S1 pf i) h).WholeWords (EltTy.packing .f32)) ∧
  (∀ i : grid2.Coords, ∃ h : (∀ a, (cc2_transform_1 k2_off1_inb numel1_S1 pf i a + 1) * S1x1x256.size a ≤ S32768x1x256.size a), EltTy.bits .f32 = 32 ∨ (Rect.block (s := S32768x1x256) S1x1x256.size (cc2_transform_1 k2_off1_inb numel1_S1 pf i) h).WholeWords (EltTy.packing .f32)) ∧
  (∀ i : grid2.Coords, ∃ h : (∀ a, (cc2_transform_2 k2_off1_inb numel1_S1 pf i a + 1) * S1x1x256.size a ≤ S32768x1x256.size a), EltTy.bits .f32 = 32 ∨ (Rect.block (s := S32768x1x256) S1x1x256.size (cc2_transform_2 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2 i).elim fun h _ => h a | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2 i).elim fun _ h => h | 3 => hwx2_3 | ⟨_ + 4, h⟩ => absurd h (Nat.not_lt.2 (Nat.le_add_left _ _))
abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev spec3_0 : Pipeline.WinSpec sig grid3.rank :=
  Pipeline.WinSpec.ofSpec (Memref.whole main_v1) S1x1x256.size reads3_0 false false 2 stage3_0 sem3_0 nbuf3_0 hstage3_0

abbrev spec3_1 : Pipeline.WinSpec sig grid3.rank :=
  Pipeline.WinSpec.ofSpec (Memref.whole main_v3) S1x1x256.size reads3_1 false false 2 stage3_1 sem3_1 nbuf3_1 hstage3_1

abbrev spec3_2 : Pipeline.WinSpec sig grid3.rank :=
  Pipeline.WinSpec.ofSpec (Memref.whole main_v3) S1x1x256.size reads3_2 false false 2 stage3_2 sem3_2 nbuf3_2 hstage3_2

abbrev spec3_3 : Pipeline.WinSpec sig grid3.rank :=
  Pipeline.WinSpec.ofSpec (Memref.whole main_v55) S1x1.size reads3_3 true true 1 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 k3_off1_inb numel1_S1 pf | 1 => cc3_transform_1 k3_off1_inb numel1_S1 pf | 2 => cc3_transform_2 k3_off1_inb numel1_S1 pf | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x256.size a ≤ S32768x1x256.size a), EltTy.bits .f32 = 32 ∨ (Rect.block (s := S32768x1x256) S1x1x256.size (cc3_transform_0 k3_off1_inb numel1_S1 pf i) h).WholeWords (EltTy.packing .f32)) ∧
  (∀ i : grid3.Coords, ∃ h : (∀ a, (cc3_transform_1 k3_off1_inb numel1_S1 pf i a + 1) * S1x1x256.size a ≤ S32768x1x256.size a), EltTy.bits .f32 = 32 ∨ (Rect.block (s := S32768x1x256) S1x1x256.size (cc3_transform_1 k3_off1_inb numel1_S1 pf i) h).WholeWords (EltTy.packing .f32)) ∧
  (∀ i : grid3.Coords, ∃ h : (∀ a, (cc3_transform_2 k3_off1_inb numel1_S1 pf i a + 1) * S1x1x256.size a ≤ S32768x1x256.size a), EltTy.bits .f32 = 32 ∨ (Rect.block (s := S32768x1x256) S1x1x256.size (cc3_transform_2 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2 i).elim fun h _ => h a | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2 i).elim fun _ h => h | 3 => hwx3_3 | ⟨_ + 4, h⟩ => absurd h (Nat.not_lt.2 (Nat.le_add_left _ _))
abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S8x256x64x64 : Shape := ⟨4, ![8, 256, 64, 64]⟩
abbrev S131072 : Shape := ⟨1, ![131072]⟩
abbrev S131072x2 : Shape := ⟨2, ![131072, 2]⟩
abbrev S131072x1 : Shape := ⟨2, ![131072, 1]⟩
abbrev S_ : Shape := ⟨0, ![]⟩
abbrev S131072x3 : Shape := ⟨2, ![131072, 3]⟩
abbrev S131072x256 : Shape := ⟨2, ![131072, 256]⟩

abbrev nBuf : Space → Nat
  | .hbm => 115
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S131072, .i32⟩
  | .hbm, ⟨3, _⟩ => ⟨S131072x2, .i32⟩
  | .hbm, ⟨4, _⟩ => ⟨S131072x2, .i32⟩
  | .hbm, ⟨5, _⟩ => ⟨S131072x2, .i32⟩
  | .hbm, ⟨6, _⟩ => ⟨S131072x1, .i32⟩
  | .hbm, ⟨7, _⟩ => ⟨S131072, .i32⟩
  | .hbm, ⟨8, _⟩ => ⟨S131072x1, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x1, .i32⟩
  | .hbm, ⟨33, _⟩ => ⟨S131072x1, .i32⟩
  | .hbm, ⟨34, _⟩ => ⟨S131072x3, .i32⟩
  | .hbm, ⟨35, _⟩ => ⟨S131072x256, .f32⟩
  | .hbm, ⟨36, _⟩ => ⟨S131072x1, .i32⟩
  | .hbm, ⟨37, _⟩ => ⟨S131072, .i32⟩
  | .hbm, ⟨38, _⟩ => ⟨S131072x1, .i32⟩
  | .hbm, ⟨39, _⟩ => ⟨S131072, .i32⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x1, .i32⟩
  | .hbm, ⟨63, _⟩ => ⟨S131072x1, .i32⟩
  | .hbm, ⟨64, _⟩ => ⟨S131072x3, .i32⟩
  | .hbm, ⟨65, _⟩ => ⟨S131072x256, .f32⟩
  | .hbm, ⟨66, _⟩ => ⟨S131072x1, .i32⟩
  | .hbm, ⟨67, _⟩ => ⟨S131072, .i32⟩
  | .hbm, ⟨68, _⟩ => ⟨S131072x1, .i32⟩
  | .hbm, ⟨69, _⟩ => ⟨S131072, .i32⟩
  | .hbm, ⟨70, _⟩ => ⟨S_, .i32⟩
  | .hbm, ⟨71, _⟩ => ⟨S131072, .i32⟩
  | .hbm, ⟨72, _⟩ => ⟨S131072, .i1⟩
  | .hbm, ⟨73, _⟩ => ⟨S_, .i32⟩
  | .hbm, ⟨74, _⟩ => ⟨S131072, .i32⟩
  | .hbm, ⟨75, _⟩ => ⟨S131072, .i32⟩
  | .hbm, ⟨76, _⟩ => ⟨S131072, .i32⟩
  | .hbm, ⟨77, _⟩ => ⟨S_, .i32⟩
  | .hbm, ⟨78, _⟩ => ⟨S131072, .i32⟩
  | .hbm, ⟨79, _⟩ => ⟨S131072, .i1⟩
  | .hbm, ⟨80, _⟩ => ⟨S_, .i32⟩
  | .hbm, ⟨81, _⟩ => ⟨S131072, .i32⟩
  | .hbm, ⟨82, _⟩ => ⟨S131072, .i32⟩
  | .hbm, ⟨83, _⟩ => ⟨S131072, .i32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S131072x1, .i32⟩
  | .hbm, ⟨93, _⟩ => ⟨S131072x1, .i32⟩
  | .hbm, ⟨94, _⟩ => ⟨S131072x3, .i32⟩
  | .hbm, ⟨95, _⟩ => ⟨S131072x256, .f32⟩
  | .hbm, ⟨96, _⟩ => ⟨S131072x256, .f32⟩
  | .hbm, ⟨97, _⟩ => ⟨S131072x256, .f32⟩
  | .hbm, ⟨98, _⟩ => ⟨S_, .f32⟩
  | .hbm, ⟨99, _⟩ => ⟨S131072, .f32⟩
  | .hbm, ⟨100, _⟩ => ⟨S131072x256, .f32⟩
  | .hbm, ⟨101, _⟩ => ⟨S131072x256, .f32⟩
  | .hbm, ⟨102, _⟩ => ⟨S_, .f32⟩
  | .hbm, ⟨103, _⟩ => ⟨S131072, .f32⟩
  | .hbm, ⟨104, _⟩ => ⟨S131072, .f32⟩
  | .hbm, ⟨105, _⟩ => ⟨S_, .f32⟩
  | .hbm, ⟨106, _⟩ => ⟨S131072, .f32⟩
  | .hbm, ⟨107, _⟩ => ⟨S131072, .f32⟩
  | .hbm, ⟨108, _⟩ => ⟨S_, .f32⟩
  | .hbm, ⟨109, _⟩ => ⟨S131072, .f32⟩
  | .hbm, ⟨110, _⟩ => ⟨S131072, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_c_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_15 : Ref sig .tc := ⟨.hbm, 84, rfl⟩
abbrev main_v62 : Ref sig .tc := ⟨.hbm, 85, rfl⟩
abbrev main_v63 : Ref sig .tc := ⟨.hbm, 86, rfl⟩
abbrev main_c_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_v79 : Ref sig .tc := ⟨.hbm, 106, rfl⟩
abbrev main_v80 : Ref sig .tc := ⟨.hbm, 107, rfl⟩
abbrev main_call0_cst : Ref sig .tc := ⟨.hbm, 108, rfl⟩
abbrev main_call0_v0 : Ref sig .tc := ⟨.hbm, 109, rfl⟩
abbrev main_v81 : Ref sig .tc := ⟨.hbm, 110, rfl⟩
abbrev main_cst_19 : Ref sig .tc := ⟨.hbm, 111, rfl⟩
abbrev main_v82 : Ref sig .tc := ⟨.hbm, 112, rfl⟩
abbrev main_cst_20 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  reducesTo_S131072x256_S131072_d1 : S131072x256.ReducesTo [1] S131072
  h_S_ : 0 < S_.numel
  reducesTo_S131072_S_d0 : S131072.ReducesTo [0] S_
  gather_S8x256x64x64_S131072x3_S131072x256_1_023_n_n_023_1_125611_wf : GatherDims.WF S8x256x64x64 S131072x3 S131072x256 [1] [0, 2, 3] [] [0, 2, 3] [] 1 ![1, 256, 1, 1]

variable [Facts₀]

def gather_S8x256x64x64_S131072x3_S131072x256_1_023_n_n_023_1_125611 : GatherDims S8x256x64x64 S131072x3 S131072x256 where
  offsetDims := [1]
  collapsedSliceDims := [0, 2, 3]
  operandBatchingDims := []
  startIndicesBatchingDims := []
  startIndexMap := [0, 2, 3]
  indexVectorDim := 1
  sliceSizes := ![1, 256, 1, 1]
  wf := gather_S8x256x64x64_S131072x3_S131072x256_1_023_n_n_023_1_125611_wf

class Facts : Prop extends Facts₀ where

variable [Facts]
-- ==== Proof.Spec.lean ====
import Idealize.ShloMosaic.PureOps.Ideal
import Idealize.ShloMosaic.Lib.ValueIdx

noncomputable section

namespace Cert.Triplet

open Idealize.ShloMosaic Idealize.ShloMosaic.ValueIdx

abbrev SFeat : Shape := ⟨4, ![8, 256, 64, 64]⟩
abbrev STrip : Shape := ⟨1, ![131072]⟩
abbrev SPos : Shape := ⟨2, ![131072, 2]⟩

def dec8 (w : BitVec 32) : Fin 8 := ⟨w.toNat % 8, Nat.mod_lt _ (by decide)⟩

def dec64 (w : BitVec 32) : Fin 64 := ⟨w.toNat % 64, Nat.mod_lt _ (by decide)⟩

theorem dec8_val {w : BitVec 32} (h : w.toNat < 8) : (dec8 w).val = w.toNat := Nat.mod_eq_of_lt h
theorem dec64_val {w : BitVec 32} (h : w.toNat < 64) : (dec64 w).val = w.toNat := Nat.mod_eq_of_lt h

def feat (x : FVec Ideal SFeat .f32) (b : Fin 8) (r q : Fin 64) : Fin 256 → EReal :=
  fun k => x (ix4 b k r q)

def sqdist (u v : Fin 256 → EReal) : EReal := ∑ k : Fin 256, (u k - v k) * (u k - v k)

def margin : EReal := Ideal.ofBits .f32 0x41400000#32

def hinge (a p n : Fin 256 → EReal) : EReal := max (sqdist a p - sqdist a n + margin) 0

def lossAt (x y : FVec Ideal SFeat .f32) (bi : IVec STrip 32) (ayx pyx nyx : IVec SPos 32) (i : Fin 131072) : EReal :=
  hinge (feat x (dec8 (bi (ix1 i))) (dec64 (ayx (ix2 i 0))) (dec64 (ayx (ix2 i 1))))
        (feat y (dec8 (bi (ix1 i))) (dec64 (pyx (ix2 i 0))) (dec64 (pyx (ix2 i 1))))
        (feat y (dec8 (bi (ix1 i))) (dec64 (nyx (ix2 i 0))) (dec64 (nyx (ix2 i 1))))

def count : EReal := Ideal.ofBits .f32 0x48000000#32

def total (x y : FVec Ideal SFeat .f32) (bi : IVec STrip 32) (ayx pyx nyx : IVec SPos 32) : EReal :=
  Ideal.div (∑ i : Fin 131072, lossAt x y bi ayx pyx nyx i) count

structure InRange (bi : IVec STrip 32) (ayx pyx nyx : IVec SPos 32) : Prop where
  b : ∀ i : Fin 131072, (bi (ix1 i)).toNat < 8
  a : ∀ (i : Fin 131072) (j : Fin 2), (ayx (ix2 i j)).toNat < 64
  p : ∀ (i : Fin 131072) (j : Fin 2), (pyx (ix2 i j)).toNat < 64
  n : ∀ (i : Fin 131072) (j : Fin 2), (nyx (ix2 i j)).toNat < 64

end Cert.Triplet

end
-- ==== Proof.PreDecode.lean ====
import proofs.«407368_j10496900071476_2_alg».proof.Pre_finite_inputs
import proofs.«407368_j10496900071476_2_alg».proof.Proof.Gen.Pre_finite_inputs
import proofs.«407368_j10496900071476_2_alg».proof.Proof.Spec
import Idealize.ShloMosaic.Lib.StableHlo.Predicate
import Idealize.ShloMosaic.Lib.ReduceAll

noncomputable section

namespace Cert.Triplet.Pre

open Idealize.ShloMosaic Idealize.ShloMosaic.ValueIdx

theorem toNat_lt_of_signed {w : BitVec 32} (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hc := BitVec.toInt_eq_toNat_cond w
  split at hc <;> omega

instance : Subsingleton Cert.Pre_finite_inputs.S_.Idx := ⟨fun _ _ => funext fun d => d.elim0⟩

theorem all_lt {s : Shape} {axes : List (Fin s.rank)} (n : Nat) (hn : n < 2 ^ 31) (x : IVec s 32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1)
    (e : Host.reduce IntOp.andi
          (andi (cmpi .sge x (broadcastInDim s ![] hb (constantI Cert.Pre_finite_inputs.S_ 32 0#32)))
                (cmpi .slt x (broadcastInDim s ![] hb (constantI Cert.Pre_finite_inputs.S_ 32 (BitVec.ofNat 32 n)))))
          init hr hu ix0 = 1#1)
    (i : s.Idx) : (x i).toNat < n := by
  have hi := Host.reduce_andi_all _ init hr hu ix0 e i
  obtain ⟨h0, h1⟩ := IntOp.andi_eq_one.1 hi
  exact toNat_lt_of_signed n hn h0 h1

theorem inRange_of_pre {F : FTy → Type} [FloatOps F]
    (x0 x1 : FVec F Cert.Pre_finite_inputs.S8x256x64x64 .f32) (x2 : IVec Cert.Pre_finite_inputs.S131072 32)
    (x3 x4 x5 : IVec Cert.Pre_finite_inputs.S131072x2 32)
    (h : Cert.Pre_finite_inputs.fn (F := F) x0 x1 x2 x3 x4 x5 = fun _ => 1#1) :
    Cert.Triplet.InRange x2 x3 x4 x5 := by
  have h0 := congrFun h ix0
  dsimp only [Cert.Pre_finite_inputs.fn, Cert.Pre_finite_inputs.fn_part1, Cert.Pre_finite_inputs.fn_part2] at h0
  obtain ⟨h0, e5⟩ := IntOp.andi_eq_one.1 h0
  obtain ⟨h0, e4⟩ := IntOp.andi_eq_one.1 h0
  obtain ⟨h0, e3⟩ := IntOp.andi_eq_one.1 h0
  obtain ⟨-, e2⟩ := IntOp.andi_eq_one.1 h0
  exact
    { b := fun i => all_lt 8 (by decide) x2 _ _ _ _ e2 (ix1 i)
      a := fun i j => all_lt 64 (by decide) x3 _ _ _ _ e3 (ix2 i j)
      p := fun i j => all_lt 64 (by decide) x4 _ _ _ _ e4 (ix2 i j)
      n := fun i j => all_lt 64 (by decide) x5 _ _ _ _ e5 (ix2 i j) }

end Cert.Triplet.Pre

end
-- ==== Proof.RefSide.lean ====
import proofs.«407368_j10496900071476_2_alg».proof.Proof.Gen.ReferenceIdeal.Run
import proofs.«407368_j10496900071476_2_alg».proof.Proof.Gen.ReferenceIdeal.Read
import proofs.«407368_j10496900071476_2_alg».proof.Proof.Spec
import Idealize.ShloMosaic.Lib.ValueIdx
import Idealize.ShloMosaic.Lib.Pipeline.Value
import Idealize.ShloMosaic.PureOps.Ideal.Laws

noncomputable section

namespace Cert.Triplet.Ref

open Idealize.ShloMosaic Idealize.ShloMosaic.ValueIdx Cert.ReferenceIdeal Cert.ReferenceIdeal.Gen Cert.ReferenceIdeal.Read
  Cert.Triplet

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem wrap_id (w c : BitVec 32) (hw : w.toNat < 2147483648) :
    Scalar.select (IntOp.cmpi .slt w 0#32) (IntOp.addi w c) w = w := by
  have hi : w.toInt = (w.toNat : Int) := BitVec.toInt_eq_toNat_of_lt (by omega)
  have h0 : IntOp.cmpi .slt w 0#32 = 0#1 := by
    unfold IntOp.cmpi
    have hs : w.slt 0#32 = false := by
      rw [BitVec.slt_eq_decide, hi]
      simp
    simp [hs]
  rw [h0, select_zero]

theorem toInt_toNat_small (w : BitVec 32) (hw : w.toNat < 2147483648) : w.toInt.toNat = w.toNat := by
  have hi : w.toInt = (w.toNat : Int) := BitVec.toInt_eq_toNat_of_lt (by omega)
  rw [hi]; rfl

abbrev gd := gather_S8x256x64x64_S131072x3_S131072x256_1_023_n_n_023_1_125611

theorem gather_start (idx : IVec S131072x3 32) (i : Fin 131072) (k : Fin 256) (a : Fin 4) (c : Fin 3)
    (ha : a ∈ gd.startIndexMap) (hc : List.idxOf a gd.startIndexMap = c.val) :
    gd.start (ix2 i k) idx a = min (idx (ix2 i c)).toInt.toNat (S8x256x64x64.size a - gd.sliceSizes a) := by
  unfold GatherDims.start
  rw [dif_pos ha]
  have hsi : gd.siIdx (ix2 i k) ⟨List.idxOf a gd.startIndexMap, List.idxOf_lt_length_iff.2 ha⟩ = ix2 i c := by
    funext b; refine Fin.ext ?_
    match b with
    | ⟨0, _⟩ => rfl
    | ⟨1, _⟩ => exact hc
  rw [hsi]

theorem opIdx_collapsed (idx : IVec S131072x3 32) (i : Fin 131072) (k : Fin 256) (a : Fin 4) (c : Fin 3)
    (ha : a ∈ gd.startIndexMap) (hc : List.idxOf a gd.startIndexMap = c.val) (ha' : a ∈ gd.collapsedSliceDims) :
    (gd.operandIdx (ix2 i k) idx a).val = min (idx (ix2 i c)).toInt.toNat (S8x256x64x64.size a - gd.sliceSizes a) := by
  show gd.start (ix2 i k) idx a + gd.batchCoord (ix2 i k) a + gd.offCoord (ix2 i k) a = _
  rw [GatherDims.batchCoord_eq_zero _ _ _ List.not_mem_nil, Nat.add_zero,
    GatherDims.offCoord_eq_zero _ _ _ (fun h => ((GatherDims.mem_sKept _ _).mp h).1 ha'), Nat.add_zero,
    gather_start idx i k a c ha hc]

theorem opIdx_offset (idx : IVec S131072x3 32) (i : Fin 131072) (k : Fin 256) :
    (gd.operandIdx (ix2 i k) idx 1).val = k.val := by
  show gd.start (ix2 i k) idx 1 + gd.batchCoord (ix2 i k) 1 + gd.offCoord (ix2 i k) 1 = _
  rw [GatherDims.batchCoord_eq_zero _ _ _ List.not_mem_nil, Nat.add_zero]
  have hs : gd.start (ix2 i k) idx 1 = 0 := by
    unfold GatherDims.start
    rw [dif_neg (by decide)]
  rw [hs, Nat.zero_add]
  unfold GatherDims.offCoord
  rw [dif_pos ((GatherDims.mem_sKept _ _).mpr ⟨by decide, List.not_mem_nil⟩)]
  rfl

theorem gather_row_apply {α : Type} (x : S8x256x64x64.Idx → α) (idx : IVec S131072x3 32) (i : Fin 131072) (k : Fin 256) :
    Host.gather gd x idx (ix2 i k)
      = x (ix4 (⟨min (idx (ix2 i 0)).toInt.toNat 7, by omega⟩ : Fin 8) k
               (⟨min (idx (ix2 i 1)).toInt.toNat 63, by omega⟩ : Fin 64)
               (⟨min (idx (ix2 i 2)).toInt.toNat 63, by omega⟩ : Fin 64)) := by
  unfold Host.gather
  congr 1
  funext a
  refine Fin.ext ?_
  match a with
  | ⟨0, _⟩ => exact opIdx_collapsed idx i k 0 0 (by decide) (by decide) (by decide)
  | ⟨1, _⟩ => exact opIdx_offset idx i k
  | ⟨2, _⟩ => exact opIdx_collapsed idx i k 2 1 (by decide) (by decide) (by decide)
  | ⟨3, _⟩ => exact opIdx_collapsed idx i k 3 2 (by decide) (by decide) (by decide)

theorem gather_feat (x : FVec Ideal SFeat .f32) (T : IVec S131072x3 32) (i : Fin 131072) (k : Fin 256)
    (b r q : BitVec 32) (eb : T (ix2 i 0) = b) (er : T (ix2 i 1) = r) (eq : T (ix2 i 2) = q)
    (hb : b.toNat < 8) (hr : r.toNat < 64) (hq : q.toNat < 64) :
    Host.gather gd x T (ix2 i k) = feat x (dec8 b) (dec64 r) (dec64 q) k := by
  subst eb er eq
  rw [gather_row_apply]
  unfold feat
  congr 1
  funext a
  refine Fin.ext ?_
  match a with
  | ⟨0, _⟩ =>
    show min (T (ix2 i 0)).toInt.toNat 7 = (dec8 (T (ix2 i 0))).val
    rw [toInt_toNat_small _ (by omega), dec8_val hb]; omega
  | ⟨1, _⟩ => rfl
  | ⟨2, _⟩ =>
    show min (T (ix2 i 1)).toInt.toNat 63 = (dec64 (T (ix2 i 1))).val
    rw [toInt_toNat_small _ (by omega), dec64_val hr]; omega
  | ⟨3, _⟩ =>
    show min (T (ix2 i 2)).toInt.toNat 63 = (dec64 (T (ix2 i 2))).val
    rw [toInt_toNat_small _ (by omega), dec64_val hq]; omega

def wrapVec (c : BitVec 32) (v : IVec S131072 32) : IVec S131072 32 :=
  select (cmpi .slt v (broadcastInDim S131072 ![] bcast_S_S131072 (constantI S_ 32 0#32)))
    (addi v (broadcastInDim S131072 ![] bcast_S_S131072 (constantI S_ 32 c))) v

def pick0 (x : IVec S131072x2 32) : IVec S131072 32 :=
  shapeCast _ (extractStridedSlice S131072x1 ![0, 0] x slices_S131072x2_S131072x1_0_0) shapeCasts_S131072x1_S131072

def pick1 (x : IVec S131072x2 32) : IVec S131072 32 :=
  shapeCast _ (extractStridedSlice S131072x1 ![0, 1] x slices_S131072x2_S131072x1_0_1) shapeCasts_S131072x1_S131072

def colOf (v : IVec S131072 32) : IVec S131072x1 32 :=
  broadcastInDim S131072x1 ![0] bcast_S131072_S131072x1_0 v

def table (x2 : IVec S131072 32) (x : IVec S131072x2 32) : IVec S131072x3 32 :=
  concatenate S131072x3 1 [⟨S131072x1, colOf (wrapVec 8#32 x2)⟩, ⟨S131072x1, colOf (wrapVec 64#32 (pick0 x))⟩,
    ⟨S131072x1, colOf (wrapVec 64#32 (pick1 x))⟩] concatenates_S131072x1_S131072x1_S131072x1_S131072x3_d1

theorem wrapVec_apply (c : BitVec 32) (v : IVec S131072 32) (j : S131072.Idx) :
    wrapVec c v j = Scalar.select (IntOp.cmpi .slt (v j) 0#32) (IntOp.addi (v j) c) (v j) := rfl

theorem pick0_apply (x : IVec S131072x2 32) (i : Fin 131072) : pick0 x (ix1 i) = x (ix2 i 0) := by
  unfold pick0
  rw [shapeCast_apply _ shapeCasts_S131072x1_S131072 (ix1 i) (ix2 i (0 : Fin 1))
    (by rewrite [Shape.rowMajor_val_two, Shape.rowMajor_val_one]; show i.val * 1 + 0 = i.val; omega)]
  exact extractStridedSlice_apply ![0, 0] x slices_S131072x2_S131072x1_0_0 (ix2 i (0 : Fin 1)) (ix2 i (0 : Fin 2))
    (fun a => match a with
      | ⟨0, _⟩ => by show i.val = 0 + i.val; omega
      | ⟨1, _⟩ => by show (0 : Nat) = 0 + 0; omega)

theorem pick1_apply (x : IVec S131072x2 32) (i : Fin 131072) : pick1 x (ix1 i) = x (ix2 i 1) := by
  unfold pick1
  rw [shapeCast_apply _ shapeCasts_S131072x1_S131072 (ix1 i) (ix2 i (0 : Fin 1))
    (by rewrite [Shape.rowMajor_val_two, Shape.rowMajor_val_one]; show i.val * 1 + 0 = i.val; omega)]
  exact extractStridedSlice_apply ![0, 1] x slices_S131072x2_S131072x1_0_1 (ix2 i (0 : Fin 1)) (ix2 i (1 : Fin 2))
    (fun a => match a with
      | ⟨0, _⟩ => by show i.val = 0 + i.val; omega
      | ⟨1, _⟩ => by show (1 : Nat) = 1 + 0; omega)

theorem colOf_apply (v : IVec S131072 32) (i : Fin 131072) : colOf v (ix2 i 0) = v (ix1 i) := by
  unfold colOf
  exact broadcastInDim_apply _ bcast_S131072_S131072x1_0 v (ix2 i (0 : Fin 1)) (ix1 i) (fun a => match a with
    | ⟨0, _⟩ => by show i.val = if (131072 : Nat) = 1 then 0 else i.val; rw [if_neg (by decide)])

theorem cat3_apply {α : Type} (c0 c1 c2 : S131072x1.Idx → α)
    (h : Shape.Concatenates [S131072x1, S131072x1, S131072x1] S131072x3 1) (i : Fin 131072) :
    concatenate S131072x3 1 [⟨S131072x1, c0⟩, ⟨S131072x1, c1⟩, ⟨S131072x1, c2⟩] h (ix2 i 0) = c0 (ix2 i 0)
    ∧ concatenate S131072x3 1 [⟨S131072x1, c0⟩, ⟨S131072x1, c1⟩, ⟨S131072x1, c2⟩] h (ix2 i 1) = c1 (ix2 i 0)
    ∧ concatenate S131072x3 1 [⟨S131072x1, c0⟩, ⟨S131072x1, c1⟩, ⟨S131072x1, c2⟩] h (ix2 i 2) = c2 (ix2 i 0) := by
  refine ⟨?_, ?_, ?_⟩
  · refine concatenate_apply_piece 1 [⟨S131072x1, c0⟩, ⟨S131072x1, c1⟩, ⟨S131072x1, c2⟩] h _ 0 (by show (0 : Nat) < 3; omega) S131072x1 c0 rfl rfl 0 rfl
      (ix2 i (0 : Fin 1)) ?_ rfl
    intro b hb
    match b with
    | ⟨0, _⟩ => rfl
    | ⟨1, _⟩ => exact absurd rfl hb
  · refine concatenate_apply_piece 1 [⟨S131072x1, c0⟩, ⟨S131072x1, c1⟩, ⟨S131072x1, c2⟩] h _ 1 (by show (1 : Nat) < 3; omega) S131072x1 c1 rfl rfl 1 rfl
      (ix2 i (0 : Fin 1)) ?_ rfl
    intro b hb
    match b with
    | ⟨0, _⟩ => rfl
    | ⟨1, _⟩ => exact absurd rfl hb
  · refine concatenate_apply_piece 1 [⟨S131072x1, c0⟩, ⟨S131072x1, c1⟩, ⟨S131072x1, c2⟩] h _ 2 (by show (2 : Nat) < 3; omega) S131072x1 c2 rfl rfl 2 rfl
      (ix2 i (0 : Fin 1)) ?_ rfl
    intro b hb
    match b with
    | ⟨0, _⟩ => rfl
    | ⟨1, _⟩ => exact absurd rfl hb

theorem table_apply (x2 : IVec S131072 32) (x : IVec S131072x2 32) (i : Fin 131072)
    (hb : (x2 (ix1 i)).toNat < 8) (h0 : (x (ix2 i 0)).toNat < 64) (h1 : (x (ix2 i 1)).toNat < 64) :
    table x2 x (ix2 i 0) = x2 (ix1 i) ∧ table x2 x (ix2 i 1) = x (ix2 i 0) ∧ table x2 x (ix2 i 2) = x (ix2 i 1) := by
  obtain ⟨e0, e1, e2⟩ := cat3_apply (colOf (wrapVec 8#32 x2)) (colOf (wrapVec 64#32 (pick0 x))) (colOf (wrapVec 64#32 (pick1 x)))
    concatenates_S131072x1_S131072x1_S131072x1_S131072x3_d1 i
  unfold table
  rw [e0, e1, e2, colOf_apply, colOf_apply, colOf_apply, wrapVec_apply, wrapVec_apply, wrapVec_apply, pick0_apply, pick1_apply]
  exact ⟨wrap_id _ _ (by omega), wrap_id _ _ (by omega), wrap_id _ _ (by omega)⟩

theorem v22_eq (x2 : IVec S131072 32) (x3 : IVec S131072x2 32) : val_main_v22 (F := Ideal) x2 x3 = table x2 x3 := rfl
theorem v46_eq (x2 : IVec S131072 32) (x4 : IVec S131072x2 32) : val_main_v46 (F := Ideal) x2 x4 = table x2 x4 := rfl
theorem v70_eq (x2 : IVec S131072 32) (x5 : IVec S131072x2 32) : val_main_v70 (F := Ideal) x2 x5 = table x2 x5 := rfl

theorem gather_table (x : FVec Ideal SFeat .f32) (x2 : IVec S131072 32) (p : IVec S131072x2 32) (i : Fin 131072) (k : Fin 256)
    (hb : (x2 (ix1 i)).toNat < 8) (h0 : (p (ix2 i 0)).toNat < 64) (h1 : (p (ix2 i 1)).toNat < 64) :
    Host.gather gd x (table x2 p) (ix2 i k) = feat x (dec8 (x2 (ix1 i))) (dec64 (p (ix2 i 0))) (dec64 (p (ix2 i 1))) k := by
  obtain ⟨e0, e1, e2⟩ := table_apply x2 p i hb h0 h1
  exact gather_feat x _ i k _ _ _ e0 e1 e2 hb h0 h1

theorem idx74 (i : Fin 131072) (k : Fin 256) : idx_main_v74 (ix1 i) k = ix2 i k := by
  funext a; match a with | ⟨0, _⟩ => rfl | ⟨1, _⟩ => rfl
theorem idx77 (i : Fin 131072) (k : Fin 256) : idx_main_v77 (ix1 i) k = ix2 i k := by
  funext a; match a with | ⟨0, _⟩ => rfl | ⟨1, _⟩ => rfl

theorem loss_apply
    (x0 x1 : (⟨Cert.ReferenceIdeal.S8x256x64x64, .f32⟩ : BufTy).Contents (Elt Ideal))
    (x2 : (⟨Cert.ReferenceIdeal.S131072, .i32⟩ : BufTy).Contents (Elt Ideal))
    (x3 x4 x5 : (⟨Cert.ReferenceIdeal.S131072x2, .i32⟩ : BufTy).Contents (Elt Ideal))
    (h : InRange x2 x3 x4 x5) (i : Fin 131072) :
    val_main_v81 (F := Ideal) x0 x1 x2 x3 x4 x5 (ix1 i) = lossAt x0 x1 x2 x3 x4 x5 i := by
  have ha : ∀ k : Fin 256, val_main_v23 (F := Ideal) x0 x2 x3 (ix2 i k)
      = feat x0 (dec8 (x2 (ix1 i))) (dec64 (x3 (ix2 i 0))) (dec64 (x3 (ix2 i 1))) k := fun k => by
    unfold val_main_v23; rw [v22_eq]; exact gather_table x0 x2 x3 i k (h.b i) (h.a i 0) (h.a i 1)
  have hp : ∀ k : Fin 256, val_main_v47 (F := Ideal) x1 x2 x4 (ix2 i k)
      = feat x1 (dec8 (x2 (ix1 i))) (dec64 (x4 (ix2 i 0))) (dec64 (x4 (ix2 i 1))) k := fun k => by
    unfold val_main_v47; rw [v46_eq]; exact gather_table x1 x2 x4 i k (h.b i) (h.p i 0) (h.p i 1)
  have hn : ∀ k : Fin 256, val_main_v71 (F := Ideal) x1 x2 x5 (ix2 i k)
      = feat x1 (dec8 (x2 (ix1 i))) (dec64 (x5 (ix2 i 0))) (dec64 (x5 (ix2 i 1))) k := fun k => by
    unfold val_main_v71; rw [v70_eq]; exact gather_table x1 x2 x5 i k (h.b i) (h.n i 0) (h.n i 1)
  rw [val_main_v81_apply, val_main_v80_apply, val_main_v78_apply, val_main_v74_apply, val_main_v77_apply,
    val_main_call0_v0_apply, val_main_call0_cst_apply, val_main_v79_apply, val_main_cst_18_apply, val_main_cst_apply,
    val_main_cst_17_apply]
  simp only [Ideal.maximumf_def, Ideal.addf_def, Ideal.subf_def, Ideal.ofBits_def, Ideal.ofBits_zero_f32, zero_add]
  unfold lossAt hinge sqdist margin
  congr 2
  congr 1
  · refine Finset.sum_congr rfl fun k _ => ?_
    rw [idx74, val_main_v73_apply, val_main_v72_apply, ha, hp]
    rfl
  · refine Finset.sum_congr rfl fun k _ => ?_
    rw [idx77, val_main_v76_apply, val_main_v75_apply, ha, hn]
    rfl

open Cert.Triplet in

theorem ref_total
    (x0 x1 : (⟨Cert.ReferenceIdeal.S8x256x64x64, .f32⟩ : BufTy).Contents (Elt Ideal))
    (x2 : (⟨Cert.ReferenceIdeal.S131072, .i32⟩ : BufTy).Contents (Elt Ideal))
    (x3 x4 x5 : (⟨Cert.ReferenceIdeal.S131072x2, .i32⟩ : BufTy).Contents (Elt Ideal))
    (h : InRange x2 x3 x4 x5) :
    Cert.ReferenceIdeal.Read.val_main_v83 (F := Ideal) x0 x1 x2 x3 x4 x5 = fun _ => total x0 x1 x2 x3 x4 x5 := by
  funext j
  rw [val_main_v83_apply, val_main_v82_apply, val_main_cst_19_apply, val_main_cst_20_apply]
  simp only [Ideal.hostDivf_def, Ideal.ofBits_def, Ideal.ofBits_zero_f32, zero_add]
  unfold total count
  rw [sum_idx1]
  refine congrArg (fun s => Ideal.div s (Ideal.ofBits .f32 0x48000000#32)) ?_
  exact Finset.sum_congr rfl fun i _ => loss_apply x0 x1 x2 x3 x4 x5 h i

end Cert.Triplet.Ref

end
-- ==== Proof.KI.Body.lean ====
import proofs.«407368_j10496900071476_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid0.Coords) : Prop :=
  Scalar.cmpi .ne (Scalar.extui (Scalar.cmpi .eq (BitVec.ofNat 32 (i 0).val) 0#32)) 0#32 = 1#1

theorem N0 : grid0.N = 32768 := by decide

theorem coords_val (t : Fin grid0.N) : ((grid0.coords t) 0).val = t.val := by
  have h : t.val < 32768 := lt_of_lt_of_eq t.isLt N0
  show t.val / 1 % 32768 = t.val
  rw [Nat.div_one, Nat.mod_eq_of_lt h]

/-- Two numbers that fit a word are equal exactly when the widened equality flag of their words is not zero. -/
theorem eqflag_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  have key : BitVec.ofNat 32 n = BitVec.ofNat 32 k → n = k := fun e => by
    have := congrArg BitVec.toNat e
    rwa [BitVec.toNat_ofNat, BitVec.toNat_ofNat, Nat.mod_eq_of_lt hn, Nat.mod_eq_of_lt hk] at this
  by_cases h : n = k
  · subst h
    have e1 : Scalar.cmpi .eq (BitVec.ofNat 32 n) (BitVec.ofNat 32 n) = 1#1 := IntOp.cmpi_eq.mpr rfl
    rw [e1]; simp only [iff_true]; decide
  · have e0 : Scalar.cmpi .eq (BitVec.ofNat 32 n) (BitVec.ofNat 32 k) = 0#1 := by
      have h' : ¬ (Scalar.cmpi .eq (BitVec.ofNat 32 n) (BitVec.ofNat 32 k) = 1#1) := fun e => h (key (IntOp.cmpi_eq.mp e))
      generalize Scalar.cmpi .eq (BitVec.ofNat 32 n) (BitVec.ofNat 32 k) = b at h' ⊢
      revert h'; revert b; decide
    rw [e0]; simp only [h, iff_false]; decide

theorem first_iff (t : Fin grid0.N) : isFirst (grid0.coords t) ↔ t.val = 0 := by
  have h : t.val < 32768 := lt_of_lt_of_eq t.isLt N0
  unfold isFirst
  rw [coords_val]
  exact eqflag_iff t.val 0 (by omega) (by decide)

theorem last_iff (t : Fin grid0.N) : k0_cond2 (grid0.coords t) = 1#1 ↔ t.val = 32767 := by
  have h : t.val < 32768 := lt_of_lt_of_eq t.isLt N0
  unfold k0_cond2
  rw [coords_val]
  exact eqflag_iff t.val 32767 (by omega) (by decide)

theorem inb_of (w : Nat) (hw : w < 32768) :
    ∀ a, ((![w, 0, 0] : Fin 3 → Nat) a + 1) * S1x1x256.size a ≤ S32768x1x256.size a := by
  intro a
  match a with
  | ⟨0, _⟩ => show (w + 1) * 1 ≤ 32768; omega
  | ⟨1, _⟩ => show (0 + 1) * 1 ≤ 1; omega
  | ⟨2, _⟩ => show (0 + 1) * 256 ≤ 256; omega

theorem halves (c : Dev nD) (b : Ref sig .tc) (f : Buf (Elt F) ((c : Thread nD τ).loc b)) :
    ((((c : Thread nD τ).loc b) ↦{fullShare} f : sProp 𝕄))
      ⊣⊢ iprop((((c : Thread nD τ).loc b) ↦{fullShare.left} f) ∗ (((c : Thread nD τ).loc b) ↦{fullShare.right} f)) :=
  pointsTo_share (PosShare.mem_left_op_right fullShare)

private theorem hz2 : (![0, 0] : Fin S1x1.rank → Nat) = fun _ => 0 := by
  funext a; fin_cases a <;> rfl

private theorem hz3 : (![0, 0, 0] : Fin S1x1x256.rank → Nat) = fun _ => 0 := by
  funext a; fin_cases a <;> rfl

/-- The last store of the whole 1×1 block decides what the block holds. -/
theorem read_store_block (M : Memref sig .tc .vmem S1x1 .f32) (f : M.view.ty.Contents (Elt F)) (w : Vec F S1x1 .f32)
    (L : List (View.Piece (Elt F) S1x1 .f32)) :
    M.view.read (Elt F) (M.view.writes (Elt F) f
      ((⟨Rect.unit (s := S1x1) ![0, 0] S1x1.size inb_S1x1_S1x1_0_0, w⟩ : View.Piece (Elt F) S1x1 .f32) :: L)) = w := by
  have hcov : ∀ y : S1x1.Idx, ∃ p ∈ ((⟨Rect.unit (s := S1x1) ![0, 0] S1x1.size inb_S1x1_S1x1_0_0, w⟩ : View.Piece (Elt F) S1x1 .f32) :: L), y ∈ p.1.set :=
    fun y => ⟨_, List.mem_cons_self, View.mem_set_unit_zero (S := S1x1) hz2 inb_S1x1_S1x1_0_0 y⟩
  rw [View.read_writes_eq_canon M.view f _ hcov, View.canon_cons_unit_zero (S := S1x1) hz2 inb_S1x1_S1x1_0_0 w L]

theorem load_stored_block (M : Memref sig .tc .vmem S1x1 .f32) (w : Vec F S1x1 .f32) :
    M.view.readCov [(⟨Rect.unit (s := S1x1) ![0, 0] S1x1.size inb_S1x1_S1x1_0_0, w⟩ : View.Piece (Elt F) S1x1 .f32)]
      (Rect.unit (s := S1x1) ![0, 0] S1x1.size inb_S1x1_S1x1_0_0).toLoadRect = w :=
  View.readCov_unit_zero (S := S1x1) M.view hz2 inb_S1x1_S1x1_0_0 w

theorem load_block (M : Memref sig .tc .vmem S1x1 .f32) (h : M.IsWhole) (x : Vec F S1x1 .f32) :
    M.view.readAt (Elt F) (Rect.unit (s := S1x1) ![0, 0] S1x1.size inb_S1x1_S1x1_0_0).toLoadRect (h.unread x) = x := by
  rw [View.readAt_eq_ld, h.read_unread, View.ld_unit_zero hz2]

theorem load_row (M : Memref sig .tc .vmem S1x1x256 .f32) (h : M.IsWhole) (x : Vec F S1x1x256 .f32) :
    M.view.readAt (Elt F) (Rect.unit (s := S1x1x256) ![0, 0, 0] S1x1x256.size inb_S1x1x256_S1x1x256_0_0_0).toLoadRect (h.unread x) = x := by
  rw [View.readAt_eq_ld, h.read_unread, View.ld_unit_zero hz3]

/-- A point in between adds its hinge loss to the scratch. -/
theorem body_mid (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (xs : Vec F S1x1 .f32) (h1 : ¬ isFirst i) (h2 : ¬ k0_cond2 i = 1#1) :
    iprop(owns (c : Thread nD τ) arg4 fullShare x0 ∗ owns (c : Thread nD τ) arg5 fullShare x1 ∗ owns (c : Thread nD τ) arg6 fullShare x2 ∗ owns (c : Thread nD τ) arg8 fullShare xs
      ∗ (iprop(owns (c : Thread nD τ) arg4 fullShare x0 ∗ owns (c : Thread nD τ) arg5 fullShare x1 ∗ owns (c : Thread nD τ) arg6 fullShare x2 ∗ owns (c : Thread nD τ) arg8 fullShare (k0_pay2 x0 x1 x2 xs)) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%fs, %hfs, HS⟩, Hk⟩
  obtain rfl := harg4.eq_unread hf0; obtain rfl := harg5.eq_unread hf1; obtain rfl := harg6.eq_unread hf2; obtain rfl := harg8.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  rotate_left
  · iexact HS
  · ipureintro
    rw [read_store_block, load_row, load_row, load_row, load_block]

/-- The first point resets the scratch to zero, then adds its hinge loss. -/
theorem body_first (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (h1 : isFirst i) (h2 : ¬ k0_cond2 i = 1#1) :
    iprop(owns (c : Thread nD τ) arg4 fullShare x0 ∗ owns (c : Thread nD τ) arg5 fullShare x1 ∗ owns (c : Thread nD τ) arg6 fullShare x2 ∗ (∃ xs, owns (c : Thread nD τ) arg8 fullShare xs)
      ∗ (iprop(owns (c : Thread nD τ) arg4 fullShare x0 ∗ owns (c : Thread nD τ) arg5 fullShare x1 ∗ owns (c : Thread nD τ) arg6 fullShare x2 ∗ owns (c : Thread nD τ) arg8 fullShare (k0_pay2 x0 x1 x2 (k0_pay1 (F := F)))) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%xs, %fs, -, HS⟩, Hk⟩
  obtain rfl := harg4.eq_unread hf0; obtain rfl := harg5.eq_unread hf1; obtain rfl := harg6.eq_unread hf2
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  rotate_left
  · iexact HS
  · ipureintro
    rw [read_store_block, load_row, load_row, load_row]
    sl_unfold_run_names
    rw [load_stored_block]

/-- The last point adds its hinge loss and copies the sum to the output block. -/
theorem body_last (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (xs : Vec F S1x1 .f32) (h1 : ¬ isFirst i) (h2 : k0_cond2 i = 1#1) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs
      ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 x1 x2 xs) ∗ owns (c : Thread nD τ) arg8 fullShare (k0_pay2 x0 x1 x2 xs)) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%d, %fd, -, HD⟩, ⟨%fs, %hfs, HS⟩, Hk⟩
  obtain rfl := harg4.eq_unread hf0; obtain rfl := harg5.eq_unread hf1; obtain rfl := harg6.eq_unread hf2; obtain rfl := harg8.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    rotate_left
    · iexact HD
    · ipureintro
      rw [read_store_block]
      sl_unfold_run_names
      rw [load_stored_block, load_row, load_row, load_row, load_block]
  iexists _; isplitr
  rotate_left
  · iexact HS
  · ipureintro
    sl_unfold_run_names
    rw [read_store_block, load_row, load_row, load_row, load_block]

end Cert.KernelIdeal.Hand

end
-- ==== Proof.KI.Data0.lean ====
import proofs.«407368_j10496900071476_2_alg».proof.Proof.KI.LaunchP
import proofs.«407368_j10496900071476_2_alg».proof.Proof.Gen.KernelIdeal.Skeleton
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at point `t`, read off the array the call finds. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The running sum after `n` points: zero, then each point's hinge loss added. -/
def acc0 (c : Dev nD) : (n : ℕ) → n ≤ (cfg0 a).N → Vec F S1x1 .f32
  | 0, _ => k0_pay1 (F := F)
  | n + 1, h => k0_pay2 (iblk0 a V c 0 ⟨n, h⟩) (iblk0 a V c 1 ⟨n, h⟩) (iblk0 a V c 2 ⟨n, h⟩) (acc0 c n (Nat.le_of_lt h))

abbrev scM0 : Memref sig .tc .vmem S1x1 .f32 := Memref.whole cc0_scratch0

abbrev rest0 (c : Dev nD) : sProp 𝕄 :=
  iprop(Pipeline.scopedRestBut spec0 c [cc0_scratch0]
      ∗ (∃ r, prngReg c r) ∗ Pipeline.prefHeld pre0 c (fun _ => fullShare) a.1)

/-- Before point `n` the scratch holds the running sum (before the first point, anything). -/
def Phi0 (c : Dev nD) : (n : ℕ) → n ≤ (cfg0 a).N → sProp 𝕄
  | 0, _ => iprop((∃ f : Buf (Elt F) ((c : Thread nD τ).loc cc0_scratch0), ((c : Thread nD τ).loc cc0_scratch0) ↦{fullShare} f) ∗ rest0 a c)
  | n + 1, h => iprop(owns (c : Thread nD τ) scM0 fullShare (acc0 a V c (n + 1) h) ∗ rest0 a c)

/-- What every window's block and the scratch hold around each point of the call. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => acc0 a V c (t.val + 1) t.isLt
  Φ t := Phi0 a V c t.val (Nat.le_of_lt_succ t.isLt)
  q w := match w with
    | ⟨1, _⟩ => fullShare.left
    | ⟨2, _⟩ => fullShare.right
    | _ => fullShare
  owed _ := 0

theorem Phi0_zero (c : Dev nD) (n : ℕ) (h : n ≤ (cfg0 a).N) (hz : n = 0) : Phi0 a V c n h =
    iprop((∃ f : Buf (Elt F) ((c : Thread nD τ).loc cc0_scratch0), ((c : Thread nD τ).loc cc0_scratch0) ↦{fullShare} f) ∗ rest0 a c) := by
  subst hz; rfl

theorem Phi0_pos (c : Dev nD) (n : ℕ) (h : n ≤ (cfg0 a).N) (hz : n ≠ 0) : Phi0 a V c n h =
    iprop(owns (c : Thread nD τ) scM0 fullShare (acc0 a V c n h) ∗ rest0 a c) := by
  cases n with
  | zero => exact absurd rfl hz
  | succ n => rfl

theorem acc0_succ (c : Dev nD) (t : Fin (cfg0 a).N) : acc0 a V c (t.val + 1) t.isLt =
    k0_pay2 (iblk0 a V c 0 t) (iblk0 a V c 1 t) (iblk0 a V c 2 t) (acc0 a V c t.val (Nat.le_of_lt t.isLt)) := rfl

theorem A0_eq (c : Dev nD) (w : Fin (cfg0 a).W) : (dat0 a V c).A w = V c (Pipeline.arrRef spec0 w) := by dsimp only [dat0]
theorem after0_0 (c : Dev nD) (t : Fin (cfg0 a).N) : (dat0 a V c).after 0 t = iblk0 a V c 0 t := by dsimp only [dat0]; (try rfl)
theorem after0_1 (c : Dev nD) (t : Fin (cfg0 a).N) : (dat0 a V c).after 1 t = iblk0 a V c 1 t := by dsimp only [dat0]; (try rfl)
theorem after0_2 (c : Dev nD) (t : Fin (cfg0 a).N) : (dat0 a V c).after 2 t = iblk0 a V c 2 t := by dsimp only [dat0]; (try rfl)
theorem after0_3 (c : Dev nD) (t : Fin (cfg0 a).N) : (dat0 a V c).after 3 t = acc0 a V c (t.val + 1) t.isLt := by dsimp only [dat0]; (try rfl)

theorem before0 (c : Dev nD) (t : Fin (cfg0 a).N) :
    (∀ d, (dat0 a V c).before 0 t d = iblk0 a V c 0 t) ∧ (∀ d, (dat0 a V c).before 1 t d = iblk0 a V c 1 t)
      ∧ ∀ d, (dat0 a V c).before 2 t d = iblk0 a V c 2 t := by
  refine ⟨fun d => ?_, fun d => ?_, fun d => ?_⟩ <;>
  exact ((dat0 a V c).before_in_eq_fetched _ rfl (fun _ => rfl) (fun _ _ _ => rfl)
    (fun t => by dsimp only [dat0]; unfold Dat.blockOf iblk0; try rfl) t d).trans
      (by unfold Dat.fetched Dat.blockOf iblk0; dsimp only [dat0]; try rfl)

end Cert.KernelIdeal.Hand

end
-- ==== Proof.KI.Data1.lean ====
import proofs.«407368_j10496900071476_2_alg».proof.Proof.KI.LaunchP
import proofs.«407368_j10496900071476_2_alg».proof.Proof.Gen.KernelIdeal.Skeleton
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- Window `w`'s block at point `t`, read off the array the call finds. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The running sum after `n` points: zero, then each point's hinge loss added. -/
def acc1 (c : Dev nD) : (n : ℕ) → n ≤ (cfg1 a).N → Vec F S1x1 .f32
  | 0, _ => k0_pay1 (F := F)
  | n + 1, h => k0_pay2 (iblk1 a V c 0 ⟨n, h⟩) (iblk1 a V c 1 ⟨n, h⟩) (iblk1 a V c 2 ⟨n, h⟩) (acc1 c n (Nat.le_of_lt h))

abbrev scM1 : Memref sig .tc .vmem S1x1 .f32 := Memref.whole cc1_scratch0

abbrev rest1 (c : Dev nD) : sProp 𝕄 :=
  iprop(Pipeline.scopedRestBut spec1 c [cc1_scratch0]
      ∗ (∃ r, prngReg c r) ∗ Pipeline.prefHeld pre1 c (fun _ => fullShare) a.1)

/-- Before point `n` the scratch holds the running sum (before the first point, anything). -/
def Phi1 (c : Dev nD) : (n : ℕ) → n ≤ (cfg1 a).N → sProp 𝕄
  | 0, _ => iprop((∃ f : Buf (Elt F) ((c : Thread nD τ).loc cc1_scratch0), ((c : Thread nD τ).loc cc1_scratch0) ↦{fullShare} f) ∗ rest1 a c)
  | n + 1, h => iprop(owns (c : Thread nD τ) scM1 fullShare (acc1 a V c (n + 1) h) ∗ rest1 a c)

/-- What every window's block and the scratch hold around each point of the call. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => acc1 a V c (t.val + 1) t.isLt
  Φ t := Phi1 a V c t.val (Nat.le_of_lt_succ t.isLt)
  q w := match w with
    | ⟨1, _⟩ => fullShare.left
    | ⟨2, _⟩ => fullShare.right
    | _ => fullShare
  owed _ := 0

theorem Phi1_zero (c : Dev nD) (n : ℕ) (h : n ≤ (cfg1 a).N) (hz : n = 0) : Phi1 a V c n h =
    iprop((∃ f : Buf (Elt F) ((c : Thread nD τ).loc cc1_scratch0), ((c : Thread nD τ).loc cc1_scratch0) ↦{fullShare} f) ∗ rest1 a c) := by
  subst hz; rfl

theorem Phi1_pos (c : Dev nD) (n : ℕ) (h : n ≤ (cfg1 a).N) (hz : n ≠ 0) : Phi1 a V c n h =
    iprop(owns (c : Thread nD τ) scM1 fullShare (acc1 a V c n h) ∗ rest1 a c) := by
  cases n with
  | zero => exact absurd rfl hz
  | succ n => rfl

theorem acc1_succ (c : Dev nD) (t : Fin (cfg1 a).N) : acc1 a V c (t.val + 1) t.isLt =
    k0_pay2 (iblk1 a V c 0 t) (iblk1 a V c 1 t) (iblk1 a V c 2 t) (acc1 a V c t.val (Nat.le_of_lt t.isLt)) := rfl

theorem A1_eq (c : Dev nD) (w : Fin (cfg1 a).W) : (dat1 a V c).A w = V c (Pipeline.arrRef spec1 w) := by dsimp only [dat1]
theorem after1_0 (c : Dev nD) (t : Fin (cfg1 a).N) : (dat1 a V c).after 0 t = iblk1 a V c 0 t := by dsimp only [dat1]; (try rfl)
theorem after1_1 (c : Dev nD) (t : Fin (cfg1 a).N) : (dat1 a V c).after 1 t = iblk1 a V c 1 t := by dsimp only [dat1]; (try rfl)
theorem after1_2 (c : Dev nD) (t : Fin (cfg1 a).N) : (dat1 a V c).after 2 t = iblk1 a V c 2 t := by dsimp only [dat1]; (try rfl)
theorem after1_3 (c : Dev nD) (t : Fin (cfg1 a).N) : (dat1 a V c).after 3 t = acc1 a V c (t.val + 1) t.isLt := by dsimp only [dat1]; (try rfl)

theorem before1 (c : Dev nD) (t : Fin (cfg1 a).N) :
    (∀ d, (dat1 a V c).before 0 t d = iblk1 a V c 0 t) ∧ (∀ d, (dat1 a V c).before 1 t d = iblk1 a V c 1 t)
      ∧ ∀ d, (dat1 a V c).before 2 t d = iblk1 a V c 2 t := by
  refine ⟨fun d => ?_, fun d => ?_, fun d => ?_⟩ <;>
  exact ((dat1 a V c).before_in_eq_fetched _ rfl (fun _ => rfl) (fun _ _ _ => rfl)
    (fun t => by dsimp only [dat1]; unfold Dat.blockOf iblk1; try rfl) t d).trans
      (by unfold Dat.fetched Dat.blockOf iblk1; dsimp only [dat1]; try rfl)

end Cert.KernelIdeal.Hand

end
-- ==== Proof.KI.Data2.lean ====
import proofs.«407368_j10496900071476_2_alg».proof.Proof.KI.LaunchP
import proofs.«407368_j10496900071476_2_alg».proof.Proof.Gen.KernelIdeal.Skeleton
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

/-- Window `w`'s block at point `t`, read off the array the call finds. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The running sum after `n` points: zero, then each point's hinge loss added. -/
def acc2 (c : Dev nD) : (n : ℕ) → n ≤ (cfg2 a).N → Vec F S1x1 .f32
  | 0, _ => k0_pay1 (F := F)
  | n + 1, h => k0_pay2 (iblk2 a V c 0 ⟨n, h⟩) (iblk2 a V c 1 ⟨n, h⟩) (iblk2 a V c 2 ⟨n, h⟩) (acc2 c n (Nat.le_of_lt h))

abbrev scM2 : Memref sig .tc .vmem S1x1 .f32 := Memref.whole cc2_scratch0

abbrev rest2 (c : Dev nD) : sProp 𝕄 :=
  iprop(Pipeline.scopedRestBut spec2 c [cc2_scratch0]
      ∗ (∃ r, prngReg c r) ∗ Pipeline.prefHeld pre2 c (fun _ => fullShare) a.1)

/-- Before point `n` the scratch holds the running sum (before the first point, anything). -/
def Phi2 (c : Dev nD) : (n : ℕ) → n ≤ (cfg2 a).N → sProp 𝕄
  | 0, _ => iprop((∃ f : Buf (Elt F) ((c : Thread nD τ).loc cc2_scratch0), ((c : Thread nD τ).loc cc2_scratch0) ↦{fullShare} f) ∗ rest2 a c)
  | n + 1, h => iprop(owns (c : Thread nD τ) scM2 fullShare (acc2 a V c (n + 1) h) ∗ rest2 a c)

/-- What every window's block and the scratch hold around each point of the call. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => acc2 a V c (t.val + 1) t.isLt
  Φ t := Phi2 a V c t.val (Nat.le_of_lt_succ t.isLt)
  q w := match w with
    | ⟨1, _⟩ => fullShare.left
    | ⟨2, _⟩ => fullShare.right
    | _ => fullShare
  owed _ := 0

theorem Phi2_zero (c : Dev nD) (n : ℕ) (h : n ≤ (cfg2 a).N) (hz : n = 0) : Phi2 a V c n h =
    iprop((∃ f : Buf (Elt F) ((c : Thread nD τ).loc cc2_scratch0), ((c : Thread nD τ).loc cc2_scratch0) ↦{fullShare} f) ∗ rest2 a c) := by
  subst hz; rfl

theorem Phi2_pos (c : Dev nD) (n : ℕ) (h : n ≤ (cfg2 a).N) (hz : n ≠ 0) : Phi2 a V c n h =
    iprop(owns (c : Thread nD τ) scM2 fullShare (acc2 a V c n h) ∗ rest2 a c) := by
  cases n with
  | zero => exact absurd rfl hz
  | succ n => rfl

theorem acc2_succ (c : Dev nD) (t : Fin (cfg2 a).N) : acc2 a V c (t.val + 1) t.isLt =
    k0_pay2 (iblk2 a V c 0 t) (iblk2 a V c 1 t) (iblk2 a V c 2 t) (acc2 a V c t.val (Nat.le_of_lt t.isLt)) := rfl

theorem A2_eq (c : Dev nD) (w : Fin (cfg2 a).W) : (dat2 a V c).A w = V c (Pipeline.arrRef spec2 w) := by dsimp only [dat2]
theorem after2_0 (c : Dev nD) (t : Fin (cfg2 a).N) : (dat2 a V c).after 0 t = iblk2 a V c 0 t := by dsimp only [dat2]; (try rfl)
theorem after2_1 (c : Dev nD) (t : Fin (cfg2 a).N) : (dat2 a V c).after 1 t = iblk2 a V c 1 t := by dsimp only [dat2]; (try rfl)
theorem after2_2 (c : Dev nD) (t : Fin (cfg2 a).N) : (dat2 a V c).after 2 t = iblk2 a V c 2 t := by dsimp only [dat2]; (try rfl)
theorem after2_3 (c : Dev nD) (t : Fin (cfg2 a).N) : (dat2 a V c).after 3 t = acc2 a V c (t.val + 1) t.isLt := by dsimp only [dat2]; (try rfl)

theorem before2 (c : Dev nD) (t : Fin (cfg2 a).N) :
    (∀ d, (dat2 a V c).before 0 t d = iblk2 a V c 0 t) ∧ (∀ d, (dat2 a V c).before 1 t d = iblk2 a V c 1 t)
      ∧ ∀ d, (dat2 a V c).before 2 t d = iblk2 a V c 2 t := by
  refine ⟨fun d => ?_, fun d => ?_, fun d => ?_⟩ <;>
  exact ((dat2 a V c).before_in_eq_fetched _ rfl (fun _ => rfl) (fun _ _ _ => rfl)
    (fun t => by dsimp only [dat2]; unfold Dat.blockOf iblk2; try rfl) t d).trans
      (by unfold Dat.fetched Dat.blockOf iblk2; dsimp only [dat2]; try rfl)

end Cert.KernelIdeal.Hand

end
-- ==== Proof.KI.Data3.lean ====
import proofs.«407368_j10496900071476_2_alg».proof.Proof.KI.LaunchP
import proofs.«407368_j10496900071476_2_alg».proof.Proof.Gen.KernelIdeal.Skeleton
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-- Window `w`'s block at point `t`, read off the array the call finds. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The running sum after `n` points: zero, then each point's hinge loss added. -/
def acc3 (c : Dev nD) : (n : ℕ) → n ≤ (cfg3 a).N → Vec F S1x1 .f32
  | 0, _ => k0_pay1 (F := F)
  | n + 1, h => k0_pay2 (iblk3 a V c 0 ⟨n, h⟩) (iblk3 a V c 1 ⟨n, h⟩) (iblk3 a V c 2 ⟨n, h⟩) (acc3 c n (Nat.le_of_lt h))

abbrev scM3 : Memref sig .tc .vmem S1x1 .f32 := Memref.whole cc3_scratch0

abbrev rest3 (c : Dev nD) : sProp 𝕄 :=
  iprop(Pipeline.scopedRestBut spec3 c [cc3_scratch0]
      ∗ (∃ r, prngReg c r) ∗ Pipeline.prefHeld pre3 c (fun _ => fullShare) a.1)

/-- Before point `n` the scratch holds the running sum (before the first point, anything). -/
def Phi3 (c : Dev nD) : (n : ℕ) → n ≤ (cfg3 a).N → sProp 𝕄
  | 0, _ => iprop((∃ f : Buf (Elt F) ((c : Thread nD τ).loc cc3_scratch0), ((c : Thread nD τ).loc cc3_scratch0) ↦{fullShare} f) ∗ rest3 a c)
  | n + 1, h => iprop(owns (c : Thread nD τ) scM3 fullShare (acc3 a V c (n + 1) h) ∗ rest3 a c)

/-- What every window's block and the scratch hold around each point of the call. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => acc3 a V c (t.val + 1) t.isLt
  Φ t := Phi3 a V c t.val (Nat.le_of_lt_succ t.isLt)
  q w := match w with
    | ⟨1, _⟩ => fullShare.left
    | ⟨2, _⟩ => fullShare.right
    | _ => fullShare
  owed _ := 0

theorem Phi3_zero (c : Dev nD) (n : ℕ) (h : n ≤ (cfg3 a).N) (hz : n = 0) : Phi3 a V c n h =
    iprop((∃ f : Buf (Elt F) ((c : Thread nD τ).loc cc3_scratch0), ((c : Thread nD τ).loc cc3_scratch0) ↦{fullShare} f) ∗ rest3 a c) := by
  subst hz; rfl

theorem Phi3_pos (c : Dev nD) (n : ℕ) (h : n ≤ (cfg3 a).N) (hz : n ≠ 0) : Phi3 a V c n h =
    iprop(owns (c : Thread nD τ) scM3 fullShare (acc3 a V c n h) ∗ rest3 a c) := by
  cases n with
  | zero => exact absurd rfl hz
  | succ n => rfl

theorem acc3_succ (c : Dev nD) (t : Fin (cfg3 a).N) : acc3 a V c (t.val + 1) t.isLt =
    k0_pay2 (iblk3 a V c 0 t) (iblk3 a V c 1 t) (iblk3 a V c 2 t) (acc3 a V c t.val (Nat.le_of_lt t.isLt)) := rfl

theorem A3_eq (c : Dev nD) (w : Fin (cfg3 a).W) : (dat3 a V c).A w = V c (Pipeline.arrRef spec3 w) := by dsimp only [dat3]
theorem after3_0 (c : Dev nD) (t : Fin (cfg3 a).N) : (dat3 a V c).after 0 t = iblk3 a V c 0 t := by dsimp only [dat3]; (try rfl)
theorem after3_1 (c : Dev nD) (t : Fin (cfg3 a).N) : (dat3 a V c).after 1 t = iblk3 a V c 1 t := by dsimp only [dat3]; (try rfl)
theorem after3_2 (c : Dev nD) (t : Fin (cfg3 a).N) : (dat3 a V c).after 2 t = iblk3 a V c 2 t := by dsimp only [dat3]; (try rfl)
theorem after3_3 (c : Dev nD) (t : Fin (cfg3 a).N) : (dat3 a V c).after 3 t = acc3 a V c (t.val + 1) t.isLt := by dsimp only [dat3]; (try rfl)

theorem before3 (c : Dev nD) (t : Fin (cfg3 a).N) :
    (∀ d, (dat3 a V c).before 0 t d = iblk3 a V c 0 t) ∧ (∀ d, (dat3 a V c).before 1 t d = iblk3 a V c 1 t)
      ∧ ∀ d, (dat3 a V c).before 2 t d = iblk3 a V c 2 t := by
  refine ⟨fun d => ?_, fun d => ?_, fun d => ?_⟩ <;>
  exact ((dat3 a V c).before_in_eq_fetched _ rfl (fun _ => rfl) (fun _ _ _ => rfl)
    (fun t => by dsimp only [dat3]; unfold Dat.blockOf iblk3; try rfl) t d).trans
      (by unfold Dat.fetched Dat.blockOf iblk3; dsimp only [dat3]; try rfl)

end Cert.KernelIdeal.Hand

end
-- ==== Proof.KI.Family.lean ====
import proofs.«407368_j10496900071476_2_alg».proof.Proof.KI.LaunchP
import proofs.«407368_j10496900071476_2_alg».proof.Proof.Gen.KernelIdeal.Skeleton
import proofs.«407368_j10496900071476_2_alg».proof.Proof.KI.RegionsP
import proofs.«407368_j10496900071476_2_alg».proof.Proof.KI.Data0
import proofs.«407368_j10496900071476_2_alg».proof.Proof.KI.Data1
import proofs.«407368_j10496900071476_2_alg».proof.Proof.KI.Data2
import proofs.«407368_j10496900071476_2_alg».proof.Proof.KI.Data3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W1 (c : Dev nD) (b : Ref sig .tc) : Buf (Elt F) ((c : Thread nD τ).loc b) := V1 m c b

def tbl0 : pre0.Contents (Elt F) := fun k => V1 m (0 : Dev nD) (pre0.ref k)
def tbl1 : pre1.Contents (Elt F) := fun k => StableHlo.after hostOps1 (V1 m (0 : Dev nD)) (pre1.ref k)
def tbl2 : pre2.Contents (Elt F) := fun k => StableHlo.after hostOps2 (V1 m (0 : Dev nD)) (pre2.ref k)
def tbl3 : pre3.Contents (Elt F) := fun k => StableHlo.after hostOps3 (V1 m (0 : Dev nD)) (pre3.ref k)

structure Oks : Prop where
  o0 : ok0 (F := F) (tbl0 m)
  o1 : ok1 (F := F) (tbl1 m)
  o2 : ok2 (F := F) (tbl2 m)
  o3 : ok3 (F := F) (tbl3 m)

variable (hO : Oks m)

abbrev adm0 : (pcfg0 (F := F)).Adm := ⟨tbl0 m, hO.o0⟩
abbrev adm1 : (pcfg1 (F := F)).Adm := ⟨tbl1 m, hO.o1⟩
abbrev adm2 : (pcfg2 (F := F)).Adm := ⟨tbl2 m, hO.o2⟩
abbrev adm3 : (pcfg3 (F := F)).Adm := ⟨tbl3 m, hO.o3⟩

abbrev adm : (p : Fin 4) → (pcfgs (F := F) p).Adm := fun
  | ⟨0, _⟩ => adm0 m hO | ⟨1, _⟩ => adm1 m hO | ⟨2, _⟩ => adm2 m hO | ⟨3, _⟩ => adm3 m hO | ⟨_ + 4, h⟩ => absurd h (Nat.not_lt.2 (Nat.le_add_left _ _))

def pdats : (p : Fin 4) → (c : Dev nD) → Dat τ (Elt F) Unit ℕ (UR sig nD τ) ℕ (Pipeline.pin (pcfgs (F := F)) (adm m hO) p) c
  | ⟨0, _⟩ => fun c => dat0 (adm0 m hO) (W1 m) c
  | ⟨1, _⟩ => fun c => dat1 (adm1 m hO) (W1 m) c
  | ⟨2, _⟩ => fun c => dat2 (adm2 m hO) (W1 m) c
  | ⟨3, _⟩ => fun c => dat3 (adm3 m hO) (W1 m) c
  | ⟨_ + 4, h⟩ => absurd h (Nat.not_lt.2 (Nat.le_add_left _ _))

def out0 (c : Dev nD) : Buf (Elt F) ((c : Thread nD τ).loc main_v37) := (dat0 (adm0 m hO) (W1 m) c).arrAt 3 (cfg0 (adm0 m hO)).N
def out1 (c : Dev nD) : Buf (Elt F) ((c : Thread nD τ).loc main_v43) := (dat1 (adm1 m hO) (W1 m) c).arrAt 3 (cfg1 (adm1 m hO)).N
def out2 (c : Dev nD) : Buf (Elt F) ((c : Thread nD τ).loc main_v49) := (dat2 (adm2 m hO) (W1 m) c).arrAt 3 (cfg2 (adm2 m hO)).N
def out3 (c : Dev nD) : Buf (Elt F) ((c : Thread nD τ).loc main_v55) := (dat3 (adm3 m hO) (W1 m) c).arrAt 3 (cfg3 (adm3 m hO)).N

def outs : Outs (F := F) := fun _ r c =>
  if h : r = main_v37 then h ▸ out0 m hO c
  else if h : r = main_v43 then h ▸ out1 m hO c
  else if h : r = main_v49 then h ▸ out2 m hO c
  else if h : r = main_v55 then h ▸ out3 m hO c
  else m ((c : Thread nD τ).loc r)

theorem outs_v37 (j : ℕ) (c : Dev nD) : outs m hO j main_v37 c = out0 m hO c := by unfold outs; rw [dif_pos rfl]
theorem outs_v43 (j : ℕ) (c : Dev nD) : outs m hO j main_v43 c = out1 m hO c := by
  unfold outs; rw [dif_neg (by decide), dif_pos rfl]
theorem outs_v49 (j : ℕ) (c : Dev nD) : outs m hO j main_v49 c = out2 m hO c := by
  unfold outs; rw [dif_neg (by decide), dif_neg (by decide), dif_pos rfl]
theorem outs_v55 (j : ℕ) (c : Dev nD) : outs m hO j main_v55 c = out3 m hO c := by
  unfold outs; rw [dif_neg (by decide), dif_neg (by decide), dif_neg (by decide), dif_pos rfl]

end Cert.KernelIdeal.Hand

end
-- ==== Proof.KI.Chain.lean ====
import proofs.«407368_j10496900071476_2_alg».proof.Proof.KI.LaunchP
import proofs.«407368_j10496900071476_2_alg».proof.Proof.Gen.KernelIdeal.Skeleton
import proofs.«407368_j10496900071476_2_alg».proof.Proof.KI.Family
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

abbrev Rst (c : Dev nD) : sProp 𝕄 := iprop((∃ r, prngReg c r) ∗ ∃ W, owes (c : Thread nD τ) (0 : CellTallies nD τ sig Unit) W)

abbrev Ve0 (_hO : Oks m) (c : Dev nD) : Valuation τ sig (Elt F) := V1 m c
abbrev Vx0 (c : Dev nD) : Valuation τ sig (Elt F) := V2 m (outs m hO) c
abbrev Ve1 (c : Dev nD) : Valuation τ sig (Elt F) := V3 m (outs m hO) c
abbrev Vx1 (c : Dev nD) : Valuation τ sig (Elt F) := V4 m (outs m hO) c
abbrev Ve2 (c : Dev nD) : Valuation τ sig (Elt F) := V5 m (outs m hO) c
abbrev Vx2 (c : Dev nD) : Valuation τ sig (Elt F) := V6 m (outs m hO) c
abbrev Ve3 (c : Dev nD) : Valuation τ sig (Elt F) := V7 m (outs m hO) c
abbrev Vx3 (c : Dev nD) : Valuation τ sig (Elt F) := V8 m (outs m hO) c

theorem Ve1_of (c : Dev nD) (r : Ref sig .tc) (h1 : r ∉ hostOps1_W) (h2 : r ∉ ([main_v37] : List (Ref sig .tc))) :
    Ve1 m hO c r = V1 m c r := (V3_of m _ c r h1).trans (V2_of m _ c r h2)
theorem Ve2_of (c : Dev nD) (r : Ref sig .tc) (h1 : r ∉ hostOps1_W) (h2 : r ∉ ([main_v37] : List (Ref sig .tc)))
    (h3 : r ∉ hostOps2_W) (h4 : r ∉ ([main_v43] : List (Ref sig .tc))) :
    Ve2 m hO c r = V1 m c r := (V5_of m _ c r h3).trans ((V4_of m _ c r h4).trans (Ve1_of m hO c r h1 h2))
theorem Ve3_of (c : Dev nD) (r : Ref sig .tc) (h1 : r ∉ hostOps1_W) (h2 : r ∉ ([main_v37] : List (Ref sig .tc)))
    (h3 : r ∉ hostOps2_W) (h4 : r ∉ ([main_v43] : List (Ref sig .tc))) (h5 : r ∉ hostOps3_W) (h6 : r ∉ ([main_v49] : List (Ref sig .tc))) :
    Ve3 m hO c r = V1 m c r := (V7_of m _ c r h5).trans ((V6_of m _ c r h6).trans (Ve2_of m hO c r h1 h2 h3 h4))

theorem Ve0_arr (c : Dev nD) (w : Fin 4) : Ve0 m hO c (Pipeline.arrRef spec0 w) = W1 m c (Pipeline.arrRef spec0 w) := rfl
theorem Ve1_arr (c : Dev nD) : ∀ w : Fin 4, Ve1 m hO c (Pipeline.arrRef spec1 w) = W1 m c (Pipeline.arrRef spec1 w)
  | ⟨0, _⟩ => Ve1_of m hO c main_v1 (by decide) (by decide)
  | ⟨1, _⟩ => Ve1_of m hO c main_v3 (by decide) (by decide)
  | ⟨2, _⟩ => Ve1_of m hO c main_v3 (by decide) (by decide)
  | ⟨3, _⟩ => Ve1_of m hO c main_v43 (by decide) (by decide)
theorem Ve2_arr (c : Dev nD) : ∀ w : Fin 4, Ve2 m hO c (Pipeline.arrRef spec2 w) = W1 m c (Pipeline.arrRef spec2 w)
  | ⟨0, _⟩ => Ve2_of m hO c main_v1 (by decide) (by decide) (by decide) (by decide)
  | ⟨1, _⟩ => Ve2_of m hO c main_v3 (by decide) (by decide) (by decide) (by decide)
  | ⟨2, _⟩ => Ve2_of m hO c main_v3 (by decide) (by decide) (by decide) (by decide)
  | ⟨3, _⟩ => Ve2_of m hO c main_v49 (by decide) (by decide) (by decide) (by decide)
theorem Ve3_arr (c : Dev nD) : ∀ w : Fin 4, Ve3 m hO c (Pipeline.arrRef spec3 w) = W1 m c (Pipeline.arrRef spec3 w)
  | ⟨0, _⟩ => Ve3_of m hO c main_v1 (by decide) (by decide) (by decide) (by decide) (by decide) (by decide)
  | ⟨1, _⟩ => Ve3_of m hO c main_v3 (by decide) (by decide) (by decide) (by decide) (by decide) (by decide)
  | ⟨2, _⟩ => Ve3_of m hO c main_v3 (by decide) (by decide) (by decide) (by decide) (by decide) (by decide)
  | ⟨3, _⟩ => Ve3_of m hO c main_v55 (by decide) (by decide) (by decide) (by decide) (by decide) (by decide)

theorem Vx0_out (c : Dev nD) : Vx0 m hO c main_v37 = out0 m hO c := by
  show Function.update (V1 m c) main_v37 (outs m hO 2 main_v37 c) main_v37 = _
  rw [Function.update_self, outs_v37]
theorem Vx1_out (c : Dev nD) : Vx1 m hO c main_v43 = out1 m hO c := by
  show Function.update (V3 m (outs m hO) c) main_v43 (outs m hO 4 main_v43 c) main_v43 = _
  rw [Function.update_self, outs_v43]
theorem Vx2_out (c : Dev nD) : Vx2 m hO c main_v49 = out2 m hO c := by
  show Function.update (V5 m (outs m hO) c) main_v49 (outs m hO 6 main_v49 c) main_v49 = _
  rw [Function.update_self, outs_v49]
theorem Vx3_out (c : Dev nD) : Vx3 m hO c main_v55 = out3 m hO c := by
  show Function.update (V7 m (outs m hO) c) main_v55 (outs m hO 8 main_v55 c) main_v55 = _
  rw [Function.update_self, outs_v55]
theorem Vx0_rest (c : Dev nD) (r : Ref sig .tc) (h : r ≠ main_v37) : Vx0 m hO c r = Ve0 m hO c r :=
  V2_of m _ c r (by simpa using h)
theorem Vx1_rest (c : Dev nD) (r : Ref sig .tc) (h : r ≠ main_v43) : Vx1 m hO c r = Ve1 m hO c r :=
  V4_of m _ c r (by simpa using h)
theorem Vx2_rest (c : Dev nD) (r : Ref sig .tc) (h : r ≠ main_v49) : Vx2 m hO c r = Ve2 m hO c r :=
  V6_of m _ c r (by simpa using h)
theorem Vx3_rest (c : Dev nD) (r : Ref sig .tc) (h : r ≠ main_v55) : Vx3 m hO c r = Ve3 m hO c r :=
  V8_of m _ c r (by simpa using h)

end Cert.KernelIdeal.Hand

end
-- ==== Proof.KI.Cuts.lean ====
import proofs.«407368_j10496900071476_2_alg».proof.Proof.KI.LaunchP
import proofs.«407368_j10496900071476_2_alg».proof.Proof.Gen.KernelIdeal.Skeleton
import proofs.«407368_j10496900071476_2_alg».proof.Proof.KI.RegionsP
import Idealize.ShloMosaic.Lib.StableHlo.Run
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cut1_0 (V : Valuation τ sig (Elt F)) :
    StableHlo.after hostOps1 V (Proc.devRef .tc main_v40) = (extractStridedSlice S32768 ![32768] (V main_v13) slices_S131072_S32768_32768 : IVec S32768 32) := by
  after_results_simp
theorem cut1_1 (V : Valuation τ sig (Elt F)) :
    StableHlo.after hostOps1 V (Proc.devRef .tc main_v41) = (extractStridedSlice S32768 ![32768] (V main_v23) slices_S131072_S32768_32768 : IVec S32768 32) := by
  after_results_simp
theorem cut1_2 (V : Valuation τ sig (Elt F)) :
    StableHlo.after hostOps1 V (Proc.devRef .tc main_v42) = (extractStridedSlice S32768 ![32768] (V main_v33) slices_S131072_S32768_32768 : IVec S32768 32) := by
  after_results_simp
theorem cut2_0 (V : Valuation τ sig (Elt F)) :
    StableHlo.after hostOps2 V (Proc.devRef .tc main_v46) = (extractStridedSlice S32768 ![65536] (V main_v13) slices_S131072_S32768_65536 : IVec S32768 32) := by
  after_results_simp
theorem cut2_1 (V : Valuation τ sig (Elt F)) :
    StableHlo.after hostOps2 V (Proc.devRef .tc main_v47) = (extractStridedSlice S32768 ![65536] (V main_v23) slices_S131072_S32768_65536 : IVec S32768 32) := by
  after_results_simp
theorem cut2_2 (V : Valuation τ sig (Elt F)) :
    StableHlo.after hostOps2 V (Proc.devRef .tc main_v48) = (extractStridedSlice S32768 ![65536] (V main_v33) slices_S131072_S32768_65536 : IVec S32768 32) := by
  after_results_simp
theorem cut3_0 (V : Valuation τ sig (Elt F)) :
    StableHlo.after hostOps3 V (Proc.devRef .tc main_v52) = (extractStridedSlice S32768 ![98304] (V main_v13) slices_S131072_S32768_98304 : IVec S32768 32) := by
  after_results_simp
theorem cut3_1 (V : Valuation τ sig (Elt F)) :
    StableHlo.after hostOps3 V (Proc.devRef .tc main_v53) = (extractStridedSlice S32768 ![98304] (V main_v23) slices_S131072_S32768_98304 : IVec S32768 32) := by
  after_results_simp
theorem cut3_2 (V : Valuation τ sig (Elt F)) :
    StableHlo.after hostOps3 V (Proc.devRef .tc main_v54) = (extractStridedSlice S32768 ![98304] (V main_v33) slices_S131072_S32768_98304 : IVec S32768 32) := by
  after_results_simp

end Cert.KernelIdeal.Hand

end
-- ==== Proof.KI.ChainT.lean ====
import proofs.«407368_j10496900071476_2_alg».proof.Proof.KI.LaunchP
import proofs.«407368_j10496900071476_2_alg».proof.Proof.Gen.KernelIdeal.Skeleton
import proofs.«407368_j10496900071476_2_alg».proof.Proof.KI.Chain
import proofs.«407368_j10496900071476_2_alg».proof.Proof.KI.Cuts
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

theorem Ve0_tbl (c : Dev nD) (k : Fin 3) : Ve0 m hO c (pre0.ref k) = tbl0 m k := by
  obtain rfl : c = 0 := Subsingleton.elim _ _
  rfl

theorem Ve1_tbl (c : Dev nD) : ∀ k : Fin 3, Ve1 m hO c (pre1.ref k) = tbl1 m k := by
  obtain rfl : c = 0 := Subsingleton.elim _ _
  intro k
  match k with
  | ⟨0, _⟩ =>
    show StableHlo.after hostOps1 (V2 m (outs m hO) 0) (Proc.devRef .tc main_v40) = StableHlo.after hostOps1 (V1 m 0) (Proc.devRef .tc main_v40)
    rw [cut1_0, cut1_0, (V2_of m _ 0 main_v13 (by decide))]
  | ⟨1, _⟩ =>
    show StableHlo.after hostOps1 (V2 m (outs m hO) 0) (Proc.devRef .tc main_v41) = StableHlo.after hostOps1 (V1 m 0) (Proc.devRef .tc main_v41)
    rw [cut1_1, cut1_1, (V2_of m _ 0 main_v23 (by decide))]
  | ⟨2, _⟩ =>
    show StableHlo.after hostOps1 (V2 m (outs m hO) 0) (Proc.devRef .tc main_v42) = StableHlo.after hostOps1 (V1 m 0) (Proc.devRef .tc main_v42)
    rw [cut1_2, cut1_2, (V2_of m _ 0 main_v33 (by decide))]

theorem Ve2_tbl (c : Dev nD) : ∀ k : Fin 3, Ve2 m hO c (pre2.ref k) = tbl2 m k := by
  obtain rfl : c = 0 := Subsingleton.elim _ _
  intro k
  match k with
  | ⟨0, _⟩ =>
    show StableHlo.after hostOps2 (V4 m (outs m hO) 0) (Proc.devRef .tc main_v46) = StableHlo.after hostOps2 (V1 m 0) (Proc.devRef .tc main_v46)
    rw [cut2_0, cut2_0, ((V4_of m _ 0 main_v13 (by decide)).trans ((V3_of m _ 0 main_v13 (by decide)).trans (V2_of m _ 0 main_v13 (by decide))))]
  | ⟨1, _⟩ =>
    show StableHlo.after hostOps2 (V4 m (outs m hO) 0) (Proc.devRef .tc main_v47) = StableHlo.after hostOps2 (V1 m 0) (Proc.devRef .tc main_v47)
    rw [cut2_1, cut2_1, ((V4_of m _ 0 main_v23 (by decide)).trans ((V3_of m _ 0 main_v23 (by decide)).trans (V2_of m _ 0 main_v23 (by decide))))]
  | ⟨2, _⟩ =>
    show StableHlo.after hostOps2 (V4 m (outs m hO) 0) (Proc.devRef .tc main_v48) = StableHlo.after hostOps2 (V1 m 0) (Proc.devRef .tc main_v48)
    rw [cut2_2, cut2_2, ((V4_of m _ 0 main_v33 (by decide)).trans ((V3_of m _ 0 main_v33 (by decide)).trans (V2_of m _ 0 main_v33 (by decide))))]

theorem Ve3_tbl (c : Dev nD) : ∀ k : Fin 3, Ve3 m hO c (pre3.ref k) = tbl3 m k := by
  obtain rfl : c = 0 := Subsingleton.elim _ _
  intro k
  match k with
  | ⟨0, _⟩ =>
    show StableHlo.after hostOps3 (V6 m (outs m hO) 0) (Proc.devRef .tc main_v52) = StableHlo.after hostOps3 (V1 m 0) (Proc.devRef .tc main_v52)
    rw [cut3_0, cut3_0, ((V6_of m _ 0 main_v13 (by decide)).trans ((V5_of m _ 0 main_v13 (by decide)).trans ((V4_of m _ 0 main_v13 (by decide)).trans ((V3_of m _ 0 main_v13 (by decide)).trans (V2_of m _ 0 main_v13 (by decide))))))]
  | ⟨1, _⟩ =>
    show StableHlo.after hostOps3 (V6 m (outs m hO) 0) (Proc.devRef .tc main_v53) = StableHlo.after hostOps3 (V1 m 0) (Proc.devRef .tc main_v53)
    rw [cut3_1, cut3_1, ((V6_of m _ 0 main_v23 (by decide)).trans ((V5_of m _ 0 main_v23 (by decide)).trans ((V4_of m _ 0 main_v23 (by decide)).trans ((V3_of m _ 0 main_v23 (by decide)).trans (V2_of m _ 0 main_v23 (by decide))))))]
  | ⟨2, _⟩ =>
    show StableHlo.after hostOps3 (V6 m (outs m hO) 0) (Proc.devRef .tc main_v54) = StableHlo.after hostOps3 (V1 m 0) (Proc.devRef .tc main_v54)
    rw [cut3_2, cut3_2, ((V6_of m _ 0 main_v33 (by decide)).trans ((V5_of m _ 0 main_v33 (by decide)).trans ((V4_of m _ 0 main_v33 (by decide)).trans ((V3_of m _ 0 main_v33 (by decide)).trans (V2_of m _ 0 main_v33 (by decide))))))]

end Cert.KernelIdeal.Hand

end
-- ==== Proof.KI.Oblig0.lean ====
import proofs.«407368_j10496900071476_2_alg».proof.Proof.KI.LaunchP
import proofs.«407368_j10496900071476_2_alg».proof.Proof.Gen.KernelIdeal.Skeleton
import proofs.«407368_j10496900071476_2_alg».proof.Proof.KI.Data0
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

abbrev bodyAt0 (t : Fin (cfg0 a).N) : Prog (TpuEff nD τ sig (Elt F) Λ₀ .tc) PUnit :=
  cc0__triplet_chunk_kernel (grid0.coords t) (Memref.whole main_v34) (Memref.isWhole_whole _) (Memref.whole main_v35) (Memref.isWhole_whole _) (Memref.whole main_v36) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (Memref.whole cc0_scratch0) (Memref.isWhole_whole _)

abbrev ms0_0 (t : Fin (cfg0 a).N) : Memref sig .tc .vmem S1x1x256 .f32 := spec0_0.stage ((cfg0 a).slots t 0)
abbrev ms0_1 (t : Fin (cfg0 a).N) : Memref sig .tc .vmem S1x1x256 .f32 := spec0_1.stage ((cfg0 a).slots t 1)
abbrev ms0_2 (t : Fin (cfg0 a).N) : Memref sig .tc .vmem S1x1x256 .f32 := spec0_2.stage ((cfg0 a).slots t 2)
abbrev ms0_3 (t : Fin (cfg0 a).N) : Memref sig .tc .vmem S1x1 .f32 := spec0_3.stage ((cfg0 a).slots t 3)

theorem flush0_3 (t : Fin (cfg0 a).N) : ((cfg0 a).win 3).flush t = decide (t.val + 1 = grid0.N) := by
  unfold Pipeline.Window.flush
  have hno : ¬ ∃ h : t.val + 1 < grid0.N, ((cfg0 a).win 3).index ⟨t.val + 1, h⟩ ≠ ((cfg0 a).win 3).index t := fun ⟨h, hne⟩ => hne rfl
  rw [decide_eq_false hno, Bool.or_false]
  exact Bool.true_and _

theorem noflush0_3 (t : Fin (cfg0 a).N) (h : t.val ≠ 32767) : ((cfg0 a).win 3).flush t = false := by
  rw [flush0_3, decide_eq_false]; rw [N_0]; omega

theorem idle0_3 (t : Fin (cfg0 a).N) (h : t.val ≠ 32767) : (cfg0 a).idle 3 ((cfg0 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live0_3 (t : Fin (cfg0 a).N) (h : t.val = 32767) : (cfg0 a).idle 3 ((cfg0 a).grid.coords t) = false := by
  have h2 : k0_cond2 (grid0.coords t) = 1#1 := (last_iff t).mpr h
  show (!(k0_cond2 (grid0.coords t) == 1#1)) = false
  rw [h2]; rfl

theorem acc0_zero (c : Dev nD) (n : ℕ) (h : n ≤ (cfg0 a).N) (hz : n = 0) : acc0 a V c n h = k0_pay1 (F := F) := by
  subst hz; rfl

def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d)))

def bodyPost0 (c : Dev nD) (t : Fin (cfg0 a).N) : sProp 𝕄 :=
  iprop((dat0 a V c).Φ t.succ ∗ (dat0 a V c).owesAt () t.succ
    ∗ (dat0 a V c).leavesExact 0 t ∗ (dat0 a V c).leavesExact 1 t ∗ (dat0 a V c).leavesExact 2 t ∗ (dat0 a V c).leavesExact 3 t)

/-- At every point the body turns the invariant before the point into the invariant after it, by the point's position: first, last or in between. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [(before0 a V c t).1, (before0 a V c t).2.1, (before0 a V c t).2.2]
  rw [show (dat0 a V c).owesAt () t.succ = (dat0 a V c).owesAt () t.castSucc from rfl]
  rw [show (dat0 a V c).Φ t.succ = Phi0 a V c (t.val + 1) t.isLt from rfl]
  rw [show (dat0 a V c).Φ t.castSucc = Phi0 a V c t.val (Nat.le_of_lt t.isLt) from by dsimp only [dat0]; simp only [Fin.coe_castSucc]]
  rw [show (dat0 a V c).leavesExact 0 t = owns (c : Thread nD τ) (ms0_0 a t) fullShare (iblk0 a V c 0 t) from by
    unfold Dat.leavesExact; rw [show (cfg0 a).idle 0 ((cfg0 a).grid.coords t) = false from rfl, after0_0]; rfl]
  rw [show (dat0 a V c).leavesExact 1 t = owns (c : Thread nD τ) (ms0_1 a t) fullShare (iblk0 a V c 1 t) from by
    unfold Dat.leavesExact; rw [show (cfg0 a).idle 1 ((cfg0 a).grid.coords t) = false from rfl, after0_1]; rfl]
  rw [show (dat0 a V c).leavesExact 2 t = owns (c : Thread nD τ) (ms0_2 a t) fullShare (iblk0 a V c 2 t) from by
    unfold Dat.leavesExact; rw [show (cfg0 a).idle 2 ((cfg0 a).grid.coords t) = false from rfl, after0_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat0 a V c) 3 t (idle0_3 a t (by omega)) (noflush0_3 a t (by omega))]
    rw [Phi0_zero a V c _ _ hz, Phi0_pos a V c _ _ (Nat.succ_ne_zero _), acc0_succ, acc0_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc0_scratch0) (Memref.isWhole_whole _) (iblk0 a V c 0 t) (iblk0 a V c 1 t) (iblk0 a V c 2 t) Set.univ _ h1 h2)
    iframe H0 H1 H2
    isplitl [HS]
    · iexists (Memref.whole cc0_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat0 a V c).leavesExact 3 t = owns (c : Thread nD τ) (ms0_3 a t) fullShare (acc0 a V c (t.val + 1) t.isLt) from by
        unfold Dat.leavesExact; rw [live0_3 a t hl, after0_3]; rfl]
      rw [Phi0_pos a V c _ _ hz, Phi0_pos a V c _ _ (Nat.succ_ne_zero _), acc0_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc0_scratch0) (Memref.isWhole_whole _) (iblk0 a V c 0 t) (iblk0 a V c 1 t) (iblk0 a V c 2 t) Set.univ _ (acc0 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat0 a V c) 3 t (idle0_3 a t hl) (noflush0_3 a t hl)]
      rw [Phi0_pos a V c _ _ hz, Phi0_pos a V c _ _ (Nat.succ_ne_zero _), acc0_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc0_scratch0) (Memref.isWhole_whole _) (iblk0 a V c 0 t) (iblk0 a V c 1 t) (iblk0 a V c 2 t) Set.univ _ (acc0 a V c t.val (Nat.le_of_lt t.isLt)) h1 h2)
      iframe H0 H1 H2
      isplitl [HS]; · iexact HS
      iintro ⟨H0, H1, H2, HS⟩
      iframe
      iexact H3

theorem body_obligation0 (c : Dev nD) : BodyObligation (dat0 (F := F) a V c) (defs₀ (F := F)) Variants.none () Set.univ := fun t => by
  rw [bigSep_W0, bigSep_W0]
  exact sound_body0 a V c t

end Cert.KernelIdeal.Hand

end
-- ==== Proof.KI.Seg0.lean ====
import proofs.«407368_j10496900071476_2_alg».proof.Proof.KI.LaunchP
import proofs.«407368_j10496900071476_2_alg».proof.Proof.Gen.KernelIdeal.Skeleton
import proofs.«407368_j10496900071476_2_alg».proof.Proof.KI.ChainT
import proofs.«407368_j10496900071476_2_alg».proof.Proof.KI.Oblig0
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg0 (F := F)).Adm)
variable (V : (c : Dev nD) → (b : Ref sig .tc) → Buf (Elt F) ((c : Thread nD τ).loc b))

theorem himg0 : (Finset.univ.image (Pipeline.arrRef spec0) : Finset (Ref sig .tc)) = {main_v1, main_v3, main_v37} := by decide

/-- The call's arrays are three buffers: the second feature table is read through two windows, each holding half of it. -/
theorem arrs0_iff (c : Dev nD) (Vb : (b : Ref sig .tc) → Buf (Elt F) ((c : Thread nD τ).loc b))
    (Fw : (w : Fin (cfg0 a).W) → Buf (Elt F) (((cfg0 a).win w).arr.view.loc (c.tc : Thread nD τ)))
    (hF : ∀ w, Fw w = Vb (Pipeline.arrRef spec0 w)) :
    (Pipeline.arrBufs spec0 c Vb : sProp 𝕄) ⊣⊢ (dat0 a V c).arrays Fw := by
  unfold Pipeline.arrBufs Dat.arrays
  rw [himg0, bigSep_insert (by decide), bigSep_insert (by decide), bigSep_singleton, bigSep_W0]
  simp only [hF]
  rw [show (dat0 a V c).share 0 = fullShare from rfl, show (dat0 a V c).share 1 = fullShare.left from rfl,
    show (dat0 a V c).share 2 = fullShare.right from rfl, show (dat0 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v37) ↦{fullShare} Vb main_v37)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub0_split (c : Dev nD) (Vb : (b : Ref sig .tc) → Buf (Elt F) ((c : Thread nD τ).loc b)) :
    (unscopedBufs c Vb : sProp 𝕄)
      = iprop(Pipeline.arrBufs spec0 c Vb ∗ Pipeline.unscopedRest spec0 c Vb) :=
  Pipeline.unscopedBufs_split₀ (fun _ : Unit => cfg0 a) () winFacts₀0.arr_unscoped c Vb

end Arrays

variable (m : (ℓ : Loc nD τ sig) → Buf (Elt F) ℓ) (hO : Oks m)

theorem hexit0_arr (c : Dev nD) : ∀ w : Fin 4, (pdats m hO (⟨0, by decide⟩ : Fin 4) c).arrAt w (cfg0 (adm0 m hO)).N = Vx0 m hO c (Pipeline.arrRef spec0 w)
  | ⟨0, _⟩ => (((dat0 (adm0 m hO) (W1 m) c).arrAt_in 0 rfl _).trans (A0_eq (adm0 m hO) (W1 m) c 0)).trans (((Vx0_rest m hO c main_v1 (by decide)).trans (Ve0_arr m hO c 0)).symm)
  | ⟨1, _⟩ => (((dat0 (adm0 m hO) (W1 m) c).arrAt_in 1 rfl _).trans (A0_eq (adm0 m hO) (W1 m) c 1)).trans (((Vx0_rest m hO c main_v3 (by decide)).trans (Ve0_arr m hO c 1)).symm)
  | ⟨2, _⟩ => (((dat0 (adm0 m hO) (W1 m) c).arrAt_in 2 rfl _).trans (A0_eq (adm0 m hO) (W1 m) c 2)).trans (((Vx0_rest m hO c main_v3 (by decide)).trans (Ve0_arr m hO c 2)).symm)
  | ⟨3, _⟩ => (Vx0_out m hO c).symm

set_option backward.isDefEq.respectTransparency.types false in
/-- The call as one item of the program: it finds every buffer as the host operations before it left them and changes its output array only. -/
def reg0 : Pipeline.RegionSeg (pcfgs (F := F)) (adm m hO) (pdats m hO) () defs₀ Variants.none (fun _ => (∅ : Finset Unit)) (fun _ _ => (0 : ℕ)) (⟨0, by decide⟩ : Fin 4) where
  win := winFacts₀0
  block_pos := block_pos0
  stage_whole := stage_whole0
  K := PEmpty
  osem k := k.elim
  ho := Pipeline.OwnSemFacts.none _
  hbody c := (body_obligation0 (adm0 m hO) (W1 m) c).loose
  hwaits := Pipeline.hwaits_of_owed_zero _ _ _ _ _ _ _ fun _ _ => rfl
  pre c := iprop(StableHlo.held (c : Thread nD τ) (Pipeline.ucRefs τ sig) (Ve0 m hO c) ∗ Rst c)
  post c := iprop(StableHlo.held (c : Thread nD τ) (Pipeline.ucRefs τ sig) (Vx0 m hO c) ∗ Rst c)
  X c := iprop(∃ r, prngReg c r)
  Y c := iprop((∃ r, prngReg c r) ∗ Pipeline.prefHeld pre0 c (fun _ => fullShare) (tbl0 m))
  Z c := Pipeline.unscopedRestP pre0 spec0 c (fun b => Ve0 m hO c b)
  hentry c := by
    rw [Pipeline.ownSems0_none]
    rw [show StableHlo.held (c : Thread nD τ) (Pipeline.ucRefs τ sig) (Ve0 m hO c) = (unscopedBufs c (fun b => Ve0 m hO c b) : sProp 𝕄)
      from (Pipeline.unscopedBufs_held c (Ve0 m hO c)).symm]
    rw [ub0_split (adm0 m hO) c (fun b => Ve0 m hO c b), Pipeline.unscopedRest_split preFacts0 c (fun b => Ve0 m hO c b)]
    rw [show (fun k => Ve0 m hO c (pre0.ref k)) = tbl0 m from funext fun k => Ve0_tbl m hO c k]
    iintro ⟨⟨⟨Harr, HT, Hrest⟩, Hp, HO⟩, -, -⟩
    imodintro
    isplitl [Harr]
    · iapply (arrs0_iff (adm0 m hO) (W1 m) c (fun b => Ve0 m hO c b) _ (fun w => (Ve0_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨0, by decide⟩ : Fin 4) c).Φ 0 = Phi0 (adm0 m hO) (W1 m) c 0 (Nat.zero_le _) from rfl, Phi0_zero _ _ _ _ _ rfl]
    unfold rest0
    rw [show Pipeline.scopedRest (Pipeline.pin (pcfgs (F := F)) (adm m hO) (⟨0, by decide⟩ : Fin 4)).spec c
      = _ from scopedRest0_split c]
    iintro ⟨Hp, HT, Hs, Hb⟩
    iframe
  hout c := by
    rw [Pipeline.ownSems0_none]
    rw [show (pdats m hO (⟨0, by decide⟩ : Fin 4) c).Φ (Fin.last _) = Phi0 (adm0 m hO) (W1 m) c (cfg0 (adm0 m hO)).N (le_refl _) from rfl,
      Phi0_pos _ _ _ _ _ (by rw [show (cfg0 (adm0 m hO)).N = 32768 from N_0]; decide)]
    rw [show Pipeline.scopedRest (Pipeline.pin (pcfgs (F := F)) (adm m hO) (⟨0, by decide⟩ : Fin 4)).spec c
      = _ from scopedRest0_split c]
    unfold owns rest0
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx0 m hO c) = (unscopedBufs c (fun b => Vx0 m hO c b) : sProp 𝕄)
      from (Pipeline.unscopedBufs_held c (Vx0 m hO c)).symm]
    rw [ub0_split (adm0 m hO) c (fun b => Vx0 m hO c b), Pipeline.unscopedRest_split preFacts0 c (fun b => Vx0 m hO c b)]
    rw [show (fun k => Vx0 m hO c (pre0.ref k)) = tbl0 m from funext fun k => (Vx0_rest m hO c (pre0.ref k) (by revert k; decide)).trans (Ve0_tbl m hO c k)]
    rw [show (Pipeline.unscopedRestP pre0 spec0 c (fun b => Vx0 m hO c b) : sProp 𝕄)
        = Pipeline.unscopedRestP pre0 spec0 c (fun b => Ve0 m hO c b) from by
      unfold Pipeline.unscopedRestP
      exact bigSep_congr fun b hb => by
        dsimp only
        rw [Vx0_rest m hO c b (fun e => (Finset.mem_sdiff.mp (Finset.mem_sdiff.mp hb).1).2 (e ▸ (by decide : main_v37 ∈ Finset.univ.image (Pipeline.arrRef spec0))))]]
    iintro ⟨Ha, HO, ⟨Hp, HT⟩, Hrest⟩
    imodintro
    isplitl [Ha HT Hrest]
    · isplitl [Ha]
      · iapply (arrs0_iff (adm0 m hO) (W1 m) c (fun b => Vx0 m hO c b) _ (hexit0_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.KernelIdeal.Hand

end
-- ==== Proof.KI.Oblig1.lean ====
import proofs.«407368_j10496900071476_2_alg».proof.Proof.KI.LaunchP
import proofs.«407368_j10496900071476_2_alg».proof.Proof.Gen.KernelIdeal.Skeleton
import proofs.«407368_j10496900071476_2_alg».proof.Proof.KI.Data1
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

abbrev bodyAt1 (t : Fin (cfg1 a).N) : Prog (TpuEff nD τ sig (Elt F) Λ₀ .tc) PUnit :=
  cc0__triplet_chunk_kernel (grid0.coords t) (Memref.whole main_v40) (Memref.isWhole_whole _) (Memref.whole main_v41) (Memref.isWhole_whole _) (Memref.whole main_v42) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (Memref.whole cc1_scratch0) (Memref.isWhole_whole _)

abbrev ms1_0 (t : Fin (cfg1 a).N) : Memref sig .tc .vmem S1x1x256 .f32 := spec1_0.stage ((cfg1 a).slots t 0)
abbrev ms1_1 (t : Fin (cfg1 a).N) : Memref sig .tc .vmem S1x1x256 .f32 := spec1_1.stage ((cfg1 a).slots t 1)
abbrev ms1_2 (t : Fin (cfg1 a).N) : Memref sig .tc .vmem S1x1x256 .f32 := spec1_2.stage ((cfg1 a).slots t 2)
abbrev ms1_3 (t : Fin (cfg1 a).N) : Memref sig .tc .vmem S1x1 .f32 := spec1_3.stage ((cfg1 a).slots t 3)

theorem flush1_3 (t : Fin (cfg1 a).N) : ((cfg1 a).win 3).flush t = decide (t.val + 1 = grid0.N) := by
  unfold Pipeline.Window.flush
  have hno : ¬ ∃ h : t.val + 1 < grid0.N, ((cfg1 a).win 3).index ⟨t.val + 1, h⟩ ≠ ((cfg1 a).win 3).index t := fun ⟨h, hne⟩ => hne rfl
  rw [decide_eq_false hno, Bool.or_false]
  exact Bool.true_and _

theorem noflush1_3 (t : Fin (cfg1 a).N) (h : t.val ≠ 32767) : ((cfg1 a).win 3).flush t = false := by
  rw [flush1_3, decide_eq_false]; rw [N_0]; omega

theorem idle1_3 (t : Fin (cfg1 a).N) (h : t.val ≠ 32767) : (cfg1 a).idle 3 ((cfg1 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live1_3 (t : Fin (cfg1 a).N) (h : t.val = 32767) : (cfg1 a).idle 3 ((cfg1 a).grid.coords t) = false := by
  have h2 : k0_cond2 (grid0.coords t) = 1#1 := (last_iff t).mpr h
  show (!(k0_cond2 (grid0.coords t) == 1#1)) = false
  rw [h2]; rfl

theorem acc1_zero (c : Dev nD) (n : ℕ) (h : n ≤ (cfg1 a).N) (hz : n = 0) : acc1 a V c n h = k0_pay1 (F := F) := by
  subst hz; rfl

def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d)))

def bodyPost1 (c : Dev nD) (t : Fin (cfg1 a).N) : sProp 𝕄 :=
  iprop((dat1 a V c).Φ t.succ ∗ (dat1 a V c).owesAt () t.succ
    ∗ (dat1 a V c).leavesExact 0 t ∗ (dat1 a V c).leavesExact 1 t ∗ (dat1 a V c).leavesExact 2 t ∗ (dat1 a V c).leavesExact 3 t)

/-- At every point the body turns the invariant before the point into the invariant after it, by the point's position: first, last or in between. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [(before1 a V c t).1, (before1 a V c t).2.1, (before1 a V c t).2.2]
  rw [show (dat1 a V c).owesAt () t.succ = (dat1 a V c).owesAt () t.castSucc from rfl]
  rw [show (dat1 a V c).Φ t.succ = Phi1 a V c (t.val + 1) t.isLt from rfl]
  rw [show (dat1 a V c).Φ t.castSucc = Phi1 a V c t.val (Nat.le_of_lt t.isLt) from by dsimp only [dat1]; simp only [Fin.coe_castSucc]]
  rw [show (dat1 a V c).leavesExact 0 t = owns (c : Thread nD τ) (ms1_0 a t) fullShare (iblk1 a V c 0 t) from by
    unfold Dat.leavesExact; rw [show (cfg1 a).idle 0 ((cfg1 a).grid.coords t) = false from rfl, after1_0]; rfl]
  rw [show (dat1 a V c).leavesExact 1 t = owns (c : Thread nD τ) (ms1_1 a t) fullShare (iblk1 a V c 1 t) from by
    unfold Dat.leavesExact; rw [show (cfg1 a).idle 1 ((cfg1 a).grid.coords t) = false from rfl, after1_1]; rfl]
  rw [show (dat1 a V c).leavesExact 2 t = owns (c : Thread nD τ) (ms1_2 a t) fullShare (iblk1 a V c 2 t) from by
    unfold Dat.leavesExact; rw [show (cfg1 a).idle 2 ((cfg1 a).grid.coords t) = false from rfl, after1_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat1 a V c) 3 t (idle1_3 a t (by omega)) (noflush1_3 a t (by omega))]
    rw [Phi1_zero a V c _ _ hz, Phi1_pos a V c _ _ (Nat.succ_ne_zero _), acc1_succ, acc1_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc1_scratch0) (Memref.isWhole_whole _) (iblk1 a V c 0 t) (iblk1 a V c 1 t) (iblk1 a V c 2 t) Set.univ _ h1 h2)
    iframe H0 H1 H2
    isplitl [HS]
    · iexists (Memref.whole cc1_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat1 a V c).leavesExact 3 t = owns (c : Thread nD τ) (ms1_3 a t) fullShare (acc1 a V c (t.val + 1) t.isLt) from by
        unfold Dat.leavesExact; rw [live1_3 a t hl, after1_3]; rfl]
      rw [Phi1_pos a V c _ _ hz, Phi1_pos a V c _ _ (Nat.succ_ne_zero _), acc1_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc1_scratch0) (Memref.isWhole_whole _) (iblk1 a V c 0 t) (iblk1 a V c 1 t) (iblk1 a V c 2 t) Set.univ _ (acc1 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat1 a V c) 3 t (idle1_3 a t hl) (noflush1_3 a t hl)]
      rw [Phi1_pos a V c _ _ hz, Phi1_pos a V c _ _ (Nat.succ_ne_zero _), acc1_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc1_scratch0) (Memref.isWhole_whole _) (iblk1 a V c 0 t) (iblk1 a V c 1 t) (iblk1 a V c 2 t) Set.univ _ (acc1 a V c t.val (Nat.le_of_lt t.isLt)) h1 h2)
      iframe H0 H1 H2
      isplitl [HS]; · iexact HS
      iintro ⟨H0, H1, H2, HS⟩
      iframe
      iexact H3

theorem body_obligation1 (c : Dev nD) : BodyObligation (dat1 (F := F) a V c) (defs₀ (F := F)) Variants.none () Set.univ := fun t => by
  rw [bigSep_W1, bigSep_W1]
  exact sound_body1 a V c t

end Cert.KernelIdeal.Hand

end
-- ==== Proof.KI.Seg1.lean ====
import proofs.«407368_j10496900071476_2_alg».proof.Proof.KI.LaunchP
import proofs.«407368_j10496900071476_2_alg».proof.Proof.Gen.KernelIdeal.Skeleton
import proofs.«407368_j10496900071476_2_alg».proof.Proof.KI.ChainT
import proofs.«407368_j10496900071476_2_alg».proof.Proof.KI.Oblig1
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg1 (F := F)).Adm)
variable (V : (c : Dev nD) → (b : Ref sig .tc) → Buf (Elt F) ((c : Thread nD τ).loc b))

theorem himg1 : (Finset.univ.image (Pipeline.arrRef spec1) : Finset (Ref sig .tc)) = {main_v1, main_v3, main_v43} := by decide

/-- The call's arrays are three buffers: the second feature table is read through two windows, each holding half of it. -/
theorem arrs1_iff (c : Dev nD) (Vb : (b : Ref sig .tc) → Buf (Elt F) ((c : Thread nD τ).loc b))
    (Fw : (w : Fin (cfg1 a).W) → Buf (Elt F) (((cfg1 a).win w).arr.view.loc (c.tc : Thread nD τ)))
    (hF : ∀ w, Fw w = Vb (Pipeline.arrRef spec1 w)) :
    (Pipeline.arrBufs spec1 c Vb : sProp 𝕄) ⊣⊢ (dat1 a V c).arrays Fw := by
  unfold Pipeline.arrBufs Dat.arrays
  rw [himg1, bigSep_insert (by decide), bigSep_insert (by decide), bigSep_singleton, bigSep_W1]
  simp only [hF]
  rw [show (dat1 a V c).share 0 = fullShare from rfl, show (dat1 a V c).share 1 = fullShare.left from rfl,
    show (dat1 a V c).share 2 = fullShare.right from rfl, show (dat1 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v43) ↦{fullShare} Vb main_v43)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub1_split (c : Dev nD) (Vb : (b : Ref sig .tc) → Buf (Elt F) ((c : Thread nD τ).loc b)) :
    (unscopedBufs c Vb : sProp 𝕄)
      = iprop(Pipeline.arrBufs spec1 c Vb ∗ Pipeline.unscopedRest spec1 c Vb) :=
  Pipeline.unscopedBufs_split₀ (fun _ : Unit => cfg1 a) () winFacts₀1.arr_unscoped c Vb

end Arrays

variable (m : (ℓ : Loc nD τ sig) → Buf (Elt F) ℓ) (hO : Oks m)

theorem hexit1_arr (c : Dev nD) : ∀ w : Fin 4, (pdats m hO (⟨1, by decide⟩ : Fin 4) c).arrAt w (cfg1 (adm1 m hO)).N = Vx1 m hO c (Pipeline.arrRef spec1 w)
  | ⟨0, _⟩ => (((dat1 (adm1 m hO) (W1 m) c).arrAt_in 0 rfl _).trans (A1_eq (adm1 m hO) (W1 m) c 0)).trans (((Vx1_rest m hO c main_v1 (by decide)).trans (Ve1_arr m hO c 0)).symm)
  | ⟨1, _⟩ => (((dat1 (adm1 m hO) (W1 m) c).arrAt_in 1 rfl _).trans (A1_eq (adm1 m hO) (W1 m) c 1)).trans (((Vx1_rest m hO c main_v3 (by decide)).trans (Ve1_arr m hO c 1)).symm)
  | ⟨2, _⟩ => (((dat1 (adm1 m hO) (W1 m) c).arrAt_in 2 rfl _).trans (A1_eq (adm1 m hO) (W1 m) c 2)).trans (((Vx1_rest m hO c main_v3 (by decide)).trans (Ve1_arr m hO c 2)).symm)
  | ⟨3, _⟩ => (Vx1_out m hO c).symm

set_option backward.isDefEq.respectTransparency.types false in
/-- The call as one item of the program: it finds every buffer as the host operations before it left them and changes its output array only. -/
def reg1 : Pipeline.RegionSeg (pcfgs (F := F)) (adm m hO) (pdats m hO) () defs₀ Variants.none (fun _ => (∅ : Finset Unit)) (fun _ _ => (0 : ℕ)) (⟨1, by decide⟩ : Fin 4) where
  win := winFacts₀1
  block_pos := block_pos1
  stage_whole := stage_whole1
  K := PEmpty
  osem k := k.elim
  ho := Pipeline.OwnSemFacts.none _
  hbody c := (body_obligation1 (adm1 m hO) (W1 m) c).loose
  hwaits := Pipeline.hwaits_of_owed_zero _ _ _ _ _ _ _ fun _ _ => rfl
  pre c := iprop(StableHlo.held (c : Thread nD τ) (Pipeline.ucRefs τ sig) (Ve1 m hO c) ∗ Rst c)
  post c := iprop(StableHlo.held (c : Thread nD τ) (Pipeline.ucRefs τ sig) (Vx1 m hO c) ∗ Rst c)
  X c := iprop(∃ r, prngReg c r)
  Y c := iprop((∃ r, prngReg c r) ∗ Pipeline.prefHeld pre1 c (fun _ => fullShare) (tbl1 m))
  Z c := Pipeline.unscopedRestP pre1 spec1 c (fun b => Ve1 m hO c b)
  hentry c := by
    rw [Pipeline.ownSems0_none]
    rw [show StableHlo.held (c : Thread nD τ) (Pipeline.ucRefs τ sig) (Ve1 m hO c) = (unscopedBufs c (fun b => Ve1 m hO c b) : sProp 𝕄)
      from (Pipeline.unscopedBufs_held c (Ve1 m hO c)).symm]
    rw [ub1_split (adm1 m hO) c (fun b => Ve1 m hO c b), Pipeline.unscopedRest_split preFacts1 c (fun b => Ve1 m hO c b)]
    rw [show (fun k => Ve1 m hO c (pre1.ref k)) = tbl1 m from funext fun k => Ve1_tbl m hO c k]
    iintro ⟨⟨⟨Harr, HT, Hrest⟩, Hp, HO⟩, -, -⟩
    imodintro
    isplitl [Harr]
    · iapply (arrs1_iff (adm1 m hO) (W1 m) c (fun b => Ve1 m hO c b) _ (fun w => (Ve1_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨1, by decide⟩ : Fin 4) c).Φ 0 = Phi1 (adm1 m hO) (W1 m) c 0 (Nat.zero_le _) from rfl, Phi1_zero _ _ _ _ _ rfl]
    unfold rest1
    rw [show Pipeline.scopedRest (Pipeline.pin (pcfgs (F := F)) (adm m hO) (⟨1, by decide⟩ : Fin 4)).spec c
      = _ from scopedRest1_split c]
    iintro ⟨Hp, HT, Hs, Hb⟩
    iframe
  hout c := by
    rw [Pipeline.ownSems0_none]
    rw [show (pdats m hO (⟨1, by decide⟩ : Fin 4) c).Φ (Fin.last _) = Phi1 (adm1 m hO) (W1 m) c (cfg1 (adm1 m hO)).N (le_refl _) from rfl,
      Phi1_pos _ _ _ _ _ (by rw [show (cfg1 (adm1 m hO)).N = 32768 from N_0]; decide)]
    rw [show Pipeline.scopedRest (Pipeline.pin (pcfgs (F := F)) (adm m hO) (⟨1, by decide⟩ : Fin 4)).spec c
      = _ from scopedRest1_split c]
    unfold owns rest1
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx1 m hO c) = (unscopedBufs c (fun b => Vx1 m hO c b) : sProp 𝕄)
      from (Pipeline.unscopedBufs_held c (Vx1 m hO c)).symm]
    rw [ub1_split (adm1 m hO) c (fun b => Vx1 m hO c b), Pipeline.unscopedRest_split preFacts1 c (fun b => Vx1 m hO c b)]
    rw [show (fun k => Vx1 m hO c (pre1.ref k)) = tbl1 m from funext fun k => (Vx1_rest m hO c (pre1.ref k) (by revert k; decide)).trans (Ve1_tbl m hO c k)]
    rw [show (Pipeline.unscopedRestP pre1 spec1 c (fun b => Vx1 m hO c b) : sProp 𝕄)
        = Pipeline.unscopedRestP pre1 spec1 c (fun b => Ve1 m hO c b) from by
      unfold Pipeline.unscopedRestP
      exact bigSep_congr fun b hb => by
        dsimp only
        rw [Vx1_rest m hO c b (fun e => (Finset.mem_sdiff.mp (Finset.mem_sdiff.mp hb).1).2 (e ▸ (by decide : main_v43 ∈ Finset.univ.image (Pipeline.arrRef spec1))))]]
    iintro ⟨Ha, HO, ⟨Hp, HT⟩, Hrest⟩
    imodintro
    isplitl [Ha HT Hrest]
    · isplitl [Ha]
      · iapply (arrs1_iff (adm1 m hO) (W1 m) c (fun b => Vx1 m hO c b) _ (hexit1_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.KernelIdeal.Hand

end
-- ==== Proof.KI.Oblig2.lean ====
import proofs.«407368_j10496900071476_2_alg».proof.Proof.KI.LaunchP
import proofs.«407368_j10496900071476_2_alg».proof.Proof.Gen.KernelIdeal.Skeleton
import proofs.«407368_j10496900071476_2_alg».proof.Proof.KI.Data2
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

abbrev bodyAt2 (t : Fin (cfg2 a).N) : Prog (TpuEff nD τ sig (Elt F) Λ₀ .tc) PUnit :=
  cc0__triplet_chunk_kernel (grid0.coords t) (Memref.whole main_v46) (Memref.isWhole_whole _) (Memref.whole main_v47) (Memref.isWhole_whole _) (Memref.whole main_v48) (Memref.isWhole_whole _)
    (spec2_0.stage ((cfg2 a).slots t 0)) (hstage2_0 (((cfg2 a).slots t 0).cast nbuf2_0)) (spec2_1.stage ((cfg2 a).slots t 1)) (hstage2_1 (((cfg2 a).slots t 1).cast nbuf2_1))
    (spec2_2.stage ((cfg2 a).slots t 2)) (hstage2_2 (((cfg2 a).slots t 2).cast nbuf2_2)) (spec2_3.stage ((cfg2 a).slots t 3)) (hstage2_3 (((cfg2 a).slots t 3).cast nbuf2_3))
    (Memref.whole cc2_scratch0) (Memref.isWhole_whole _)

abbrev ms2_0 (t : Fin (cfg2 a).N) : Memref sig .tc .vmem S1x1x256 .f32 := spec2_0.stage ((cfg2 a).slots t 0)
abbrev ms2_1 (t : Fin (cfg2 a).N) : Memref sig .tc .vmem S1x1x256 .f32 := spec2_1.stage ((cfg2 a).slots t 1)
abbrev ms2_2 (t : Fin (cfg2 a).N) : Memref sig .tc .vmem S1x1x256 .f32 := spec2_2.stage ((cfg2 a).slots t 2)
abbrev ms2_3 (t : Fin (cfg2 a).N) : Memref sig .tc .vmem S1x1 .f32 := spec2_3.stage ((cfg2 a).slots t 3)

theorem flush2_3 (t : Fin (cfg2 a).N) : ((cfg2 a).win 3).flush t = decide (t.val + 1 = grid0.N) := by
  unfold Pipeline.Window.flush
  have hno : ¬ ∃ h : t.val + 1 < grid0.N, ((cfg2 a).win 3).index ⟨t.val + 1, h⟩ ≠ ((cfg2 a).win 3).index t := fun ⟨h, hne⟩ => hne rfl
  rw [decide_eq_false hno, Bool.or_false]
  exact Bool.true_and _

theorem noflush2_3 (t : Fin (cfg2 a).N) (h : t.val ≠ 32767) : ((cfg2 a).win 3).flush t = false := by
  rw [flush2_3, decide_eq_false]; rw [N_0]; omega

theorem idle2_3 (t : Fin (cfg2 a).N) (h : t.val ≠ 32767) : (cfg2 a).idle 3 ((cfg2 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live2_3 (t : Fin (cfg2 a).N) (h : t.val = 32767) : (cfg2 a).idle 3 ((cfg2 a).grid.coords t) = false := by
  have h2 : k0_cond2 (grid0.coords t) = 1#1 := (last_iff t).mpr h
  show (!(k0_cond2 (grid0.coords t) == 1#1)) = false
  rw [h2]; rfl

theorem acc2_zero (c : Dev nD) (n : ℕ) (h : n ≤ (cfg2 a).N) (hz : n = 0) : acc2 a V c n h = k0_pay1 (F := F) := by
  subst hz; rfl

def bodyPre2 (c : Dev nD) (t : Fin (cfg2 a).N) : sProp 𝕄 :=
  iprop((dat2 a V c).Φ t.castSucc ∗ (dat2 a V c).owesAt () t.castSucc
    ∗ (∃ d, owns (c : Thread nD τ) (ms2_0 a t) fullShare ((dat2 a V c).before 0 t d))
    ∗ (∃ d, owns (c : Thread nD τ) (ms2_1 a t) fullShare ((dat2 a V c).before 1 t d))
    ∗ (∃ d, owns (c : Thread nD τ) (ms2_2 a t) fullShare ((dat2 a V c).before 2 t d))
    ∗ (∃ d, owns (c : Thread nD τ) (ms2_3 a t) fullShare ((dat2 a V c).before 3 t d)))

def bodyPost2 (c : Dev nD) (t : Fin (cfg2 a).N) : sProp 𝕄 :=
  iprop((dat2 a V c).Φ t.succ ∗ (dat2 a V c).owesAt () t.succ
    ∗ (dat2 a V c).leavesExact 0 t ∗ (dat2 a V c).leavesExact 1 t ∗ (dat2 a V c).leavesExact 2 t ∗ (dat2 a V c).leavesExact 3 t)

/-- At every point the body turns the invariant before the point into the invariant after it, by the point's position: first, last or in between. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [(before2 a V c t).1, (before2 a V c t).2.1, (before2 a V c t).2.2]
  rw [show (dat2 a V c).owesAt () t.succ = (dat2 a V c).owesAt () t.castSucc from rfl]
  rw [show (dat2 a V c).Φ t.succ = Phi2 a V c (t.val + 1) t.isLt from rfl]
  rw [show (dat2 a V c).Φ t.castSucc = Phi2 a V c t.val (Nat.le_of_lt t.isLt) from by dsimp only [dat2]; simp only [Fin.coe_castSucc]]
  rw [show (dat2 a V c).leavesExact 0 t = owns (c : Thread nD τ) (ms2_0 a t) fullShare (iblk2 a V c 0 t) from by
    unfold Dat.leavesExact; rw [show (cfg2 a).idle 0 ((cfg2 a).grid.coords t) = false from rfl, after2_0]; rfl]
  rw [show (dat2 a V c).leavesExact 1 t = owns (c : Thread nD τ) (ms2_1 a t) fullShare (iblk2 a V c 1 t) from by
    unfold Dat.leavesExact; rw [show (cfg2 a).idle 1 ((cfg2 a).grid.coords t) = false from rfl, after2_1]; rfl]
  rw [show (dat2 a V c).leavesExact 2 t = owns (c : Thread nD τ) (ms2_2 a t) fullShare (iblk2 a V c 2 t) from by
    unfold Dat.leavesExact; rw [show (cfg2 a).idle 2 ((cfg2 a).grid.coords t) = false from rfl, after2_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat2 a V c) 3 t (idle2_3 a t (by omega)) (noflush2_3 a t (by omega))]
    rw [Phi2_zero a V c _ _ hz, Phi2_pos a V c _ _ (Nat.succ_ne_zero _), acc2_succ, acc2_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc2_scratch0) (Memref.isWhole_whole _) (iblk2 a V c 0 t) (iblk2 a V c 1 t) (iblk2 a V c 2 t) Set.univ _ h1 h2)
    iframe H0 H1 H2
    isplitl [HS]
    · iexists (Memref.whole cc2_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat2 a V c).leavesExact 3 t = owns (c : Thread nD τ) (ms2_3 a t) fullShare (acc2 a V c (t.val + 1) t.isLt) from by
        unfold Dat.leavesExact; rw [live2_3 a t hl, after2_3]; rfl]
      rw [Phi2_pos a V c _ _ hz, Phi2_pos a V c _ _ (Nat.succ_ne_zero _), acc2_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc2_scratch0) (Memref.isWhole_whole _) (iblk2 a V c 0 t) (iblk2 a V c 1 t) (iblk2 a V c 2 t) Set.univ _ (acc2 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat2 a V c) 3 t (idle2_3 a t hl) (noflush2_3 a t hl)]
      rw [Phi2_pos a V c _ _ hz, Phi2_pos a V c _ _ (Nat.succ_ne_zero _), acc2_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc2_scratch0) (Memref.isWhole_whole _) (iblk2 a V c 0 t) (iblk2 a V c 1 t) (iblk2 a V c 2 t) Set.univ _ (acc2 a V c t.val (Nat.le_of_lt t.isLt)) h1 h2)
      iframe H0 H1 H2
      isplitl [HS]; · iexact HS
      iintro ⟨H0, H1, H2, HS⟩
      iframe
      iexact H3

theorem body_obligation2 (c : Dev nD) : BodyObligation (dat2 (F := F) a V c) (defs₀ (F := F)) Variants.none () Set.univ := fun t => by
  rw [bigSep_W2, bigSep_W2]
  exact sound_body2 a V c t

end Cert.KernelIdeal.Hand

end
-- ==== Proof.KI.Seg2.lean ====
import proofs.«407368_j10496900071476_2_alg».proof.Proof.KI.LaunchP
import proofs.«407368_j10496900071476_2_alg».proof.Proof.Gen.KernelIdeal.Skeleton
import proofs.«407368_j10496900071476_2_alg».proof.Proof.KI.ChainT
import proofs.«407368_j10496900071476_2_alg».proof.Proof.KI.Oblig2
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg2 (F := F)).Adm)
variable (V : (c : Dev nD) → (b : Ref sig .tc) → Buf (Elt F) ((c : Thread nD τ).loc b))

theorem himg2 : (Finset.univ.image (Pipeline.arrRef spec2) : Finset (Ref sig .tc)) = {main_v1, main_v3, main_v49} := by decide

/-- The call's arrays are three buffers: the second feature table is read through two windows, each holding half of it. -/
theorem arrs2_iff (c : Dev nD) (Vb : (b : Ref sig .tc) → Buf (Elt F) ((c : Thread nD τ).loc b))
    (Fw : (w : Fin (cfg2 a).W) → Buf (Elt F) (((cfg2 a).win w).arr.view.loc (c.tc : Thread nD τ)))
    (hF : ∀ w, Fw w = Vb (Pipeline.arrRef spec2 w)) :
    (Pipeline.arrBufs spec2 c Vb : sProp 𝕄) ⊣⊢ (dat2 a V c).arrays Fw := by
  unfold Pipeline.arrBufs Dat.arrays
  rw [himg2, bigSep_insert (by decide), bigSep_insert (by decide), bigSep_singleton, bigSep_W2]
  simp only [hF]
  rw [show (dat2 a V c).share 0 = fullShare from rfl, show (dat2 a V c).share 1 = fullShare.left from rfl,
    show (dat2 a V c).share 2 = fullShare.right from rfl, show (dat2 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v49) ↦{fullShare} Vb main_v49)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub2_split (c : Dev nD) (Vb : (b : Ref sig .tc) → Buf (Elt F) ((c : Thread nD τ).loc b)) :
    (unscopedBufs c Vb : sProp 𝕄)
      = iprop(Pipeline.arrBufs spec2 c Vb ∗ Pipeline.unscopedRest spec2 c Vb) :=
  Pipeline.unscopedBufs_split₀ (fun _ : Unit => cfg2 a) () winFacts₀2.arr_unscoped c Vb

end Arrays

variable (m : (ℓ : Loc nD τ sig) → Buf (Elt F) ℓ) (hO : Oks m)

theorem hexit2_arr (c : Dev nD) : ∀ w : Fin 4, (pdats m hO (⟨2, by decide⟩ : Fin 4) c).arrAt w (cfg2 (adm2 m hO)).N = Vx2 m hO c (Pipeline.arrRef spec2 w)
  | ⟨0, _⟩ => (((dat2 (adm2 m hO) (W1 m) c).arrAt_in 0 rfl _).trans (A2_eq (adm2 m hO) (W1 m) c 0)).trans (((Vx2_rest m hO c main_v1 (by decide)).trans (Ve2_arr m hO c 0)).symm)
  | ⟨1, _⟩ => (((dat2 (adm2 m hO) (W1 m) c).arrAt_in 1 rfl _).trans (A2_eq (adm2 m hO) (W1 m) c 1)).trans (((Vx2_rest m hO c main_v3 (by decide)).trans (Ve2_arr m hO c 1)).symm)
  | ⟨2, _⟩ => (((dat2 (adm2 m hO) (W1 m) c).arrAt_in 2 rfl _).trans (A2_eq (adm2 m hO) (W1 m) c 2)).trans (((Vx2_rest m hO c main_v3 (by decide)).trans (Ve2_arr m hO c 2)).symm)
  | ⟨3, _⟩ => (Vx2_out m hO c).symm

set_option backward.isDefEq.respectTransparency.types false in
/-- The call as one item of the program: it finds every buffer as the host operations before it left them and changes its output array only. -/
def reg2 : Pipeline.RegionSeg (pcfgs (F := F)) (adm m hO) (pdats m hO) () defs₀ Variants.none (fun _ => (∅ : Finset Unit)) (fun _ _ => (0 : ℕ)) (⟨2, by decide⟩ : Fin 4) where
  win := winFacts₀2
  block_pos := block_pos2
  stage_whole := stage_whole2
  K := PEmpty
  osem k := k.elim
  ho := Pipeline.OwnSemFacts.none _
  hbody c := (body_obligation2 (adm2 m hO) (W1 m) c).loose
  hwaits := Pipeline.hwaits_of_owed_zero _ _ _ _ _ _ _ fun _ _ => rfl
  pre c := iprop(StableHlo.held (c : Thread nD τ) (Pipeline.ucRefs τ sig) (Ve2 m hO c) ∗ Rst c)
  post c := iprop(StableHlo.held (c : Thread nD τ) (Pipeline.ucRefs τ sig) (Vx2 m hO c) ∗ Rst c)
  X c := iprop(∃ r, prngReg c r)
  Y c := iprop((∃ r, prngReg c r) ∗ Pipeline.prefHeld pre2 c (fun _ => fullShare) (tbl2 m))
  Z c := Pipeline.unscopedRestP pre2 spec2 c (fun b => Ve2 m hO c b)
  hentry c := by
    rw [Pipeline.ownSems0_none]
    rw [show StableHlo.held (c : Thread nD τ) (Pipeline.ucRefs τ sig) (Ve2 m hO c) = (unscopedBufs c (fun b => Ve2 m hO c b) : sProp 𝕄)
      from (Pipeline.unscopedBufs_held c (Ve2 m hO c)).symm]
    rw [ub2_split (adm2 m hO) c (fun b => Ve2 m hO c b), Pipeline.unscopedRest_split preFacts2 c (fun b => Ve2 m hO c b)]
    rw [show (fun k => Ve2 m hO c (pre2.ref k)) = tbl2 m from funext fun k => Ve2_tbl m hO c k]
    iintro ⟨⟨⟨Harr, HT, Hrest⟩, Hp, HO⟩, -, -⟩
    imodintro
    isplitl [Harr]
    · iapply (arrs2_iff (adm2 m hO) (W1 m) c (fun b => Ve2 m hO c b) _ (fun w => (Ve2_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨2, by decide⟩ : Fin 4) c).Φ 0 = Phi2 (adm2 m hO) (W1 m) c 0 (Nat.zero_le _) from rfl, Phi2_zero _ _ _ _ _ rfl]
    unfold rest2
    rw [show Pipeline.scopedRest (Pipeline.pin (pcfgs (F := F)) (adm m hO) (⟨2, by decide⟩ : Fin 4)).spec c
      = _ from scopedRest2_split c]
    iintro ⟨Hp, HT, Hs, Hb⟩
    iframe
  hout c := by
    rw [Pipeline.ownSems0_none]
    rw [show (pdats m hO (⟨2, by decide⟩ : Fin 4) c).Φ (Fin.last _) = Phi2 (adm2 m hO) (W1 m) c (cfg2 (adm2 m hO)).N (le_refl _) from rfl,
      Phi2_pos _ _ _ _ _ (by rw [show (cfg2 (adm2 m hO)).N = 32768 from N_0]; decide)]
    rw [show Pipeline.scopedRest (Pipeline.pin (pcfgs (F := F)) (adm m hO) (⟨2, by decide⟩ : Fin 4)).spec c
      = _ from scopedRest2_split c]
    unfold owns rest2
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx2 m hO c) = (unscopedBufs c (fun b => Vx2 m hO c b) : sProp 𝕄)
      from (Pipeline.unscopedBufs_held c (Vx2 m hO c)).symm]
    rw [ub2_split (adm2 m hO) c (fun b => Vx2 m hO c b), Pipeline.unscopedRest_split preFacts2 c (fun b => Vx2 m hO c b)]
    rw [show (fun k => Vx2 m hO c (pre2.ref k)) = tbl2 m from funext fun k => (Vx2_rest m hO c (pre2.ref k) (by revert k; decide)).trans (Ve2_tbl m hO c k)]
    rw [show (Pipeline.unscopedRestP pre2 spec2 c (fun b => Vx2 m hO c b) : sProp 𝕄)
        = Pipeline.unscopedRestP pre2 spec2 c (fun b => Ve2 m hO c b) from by
      unfold Pipeline.unscopedRestP
      exact bigSep_congr fun b hb => by
        dsimp only
        rw [Vx2_rest m hO c b (fun e => (Finset.mem_sdiff.mp (Finset.mem_sdiff.mp hb).1).2 (e ▸ (by decide : main_v49 ∈ Finset.univ.image (Pipeline.arrRef spec2))))]]
    iintro ⟨Ha, HO, ⟨Hp, HT⟩, Hrest⟩
    imodintro
    isplitl [Ha HT Hrest]
    · isplitl [Ha]
      · iapply (arrs2_iff (adm2 m hO) (W1 m) c (fun b => Vx2 m hO c b) _ (hexit2_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.KernelIdeal.Hand

end
-- ==== Proof.KI.Oblig3.lean ====
import proofs.«407368_j10496900071476_2_alg».proof.Proof.KI.LaunchP
import proofs.«407368_j10496900071476_2_alg».proof.Proof.Gen.KernelIdeal.Skeleton
import proofs.«407368_j10496900071476_2_alg».proof.Proof.KI.Data3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

abbrev bodyAt3 (t : Fin (cfg3 a).N) : Prog (TpuEff nD τ sig (Elt F) Λ₀ .tc) PUnit :=
  cc0__triplet_chunk_kernel (grid0.coords t) (Memref.whole main_v52) (Memref.isWhole_whole _) (Memref.whole main_v53) (Memref.isWhole_whole _) (Memref.whole main_v54) (Memref.isWhole_whole _)
    (spec3_0.stage ((cfg3 a).slots t 0)) (hstage3_0 (((cfg3 a).slots t 0).cast nbuf3_0)) (spec3_1.stage ((cfg3 a).slots t 1)) (hstage3_1 (((cfg3 a).slots t 1).cast nbuf3_1))
    (spec3_2.stage ((cfg3 a).slots t 2)) (hstage3_2 (((cfg3 a).slots t 2).cast nbuf3_2)) (spec3_3.stage ((cfg3 a).slots t 3)) (hstage3_3 (((cfg3 a).slots t 3).cast nbuf3_3))
    (Memref.whole cc3_scratch0) (Memref.isWhole_whole _)

abbrev ms3_0 (t : Fin (cfg3 a).N) : Memref sig .tc .vmem S1x1x256 .f32 := spec3_0.stage ((cfg3 a).slots t 0)
abbrev ms3_1 (t : Fin (cfg3 a).N) : Memref sig .tc .vmem S1x1x256 .f32 := spec3_1.stage ((cfg3 a).slots t 1)
abbrev ms3_2 (t : Fin (cfg3 a).N) : Memref sig .tc .vmem S1x1x256 .f32 := spec3_2.stage ((cfg3 a).slots t 2)
abbrev ms3_3 (t : Fin (cfg3 a).N) : Memref sig .tc .vmem S1x1 .f32 := spec3_3.stage ((cfg3 a).slots t 3)

theorem flush3_3 (t : Fin (cfg3 a).N) : ((cfg3 a).win 3).flush t = decide (t.val + 1 = grid0.N) := by
  unfold Pipeline.Window.flush
  have hno : ¬ ∃ h : t.val + 1 < grid0.N, ((cfg3 a).win 3).index ⟨t.val + 1, h⟩ ≠ ((cfg3 a).win 3).index t := fun ⟨h, hne⟩ => hne rfl
  rw [decide_eq_false hno, Bool.or_false]
  exact Bool.true_and _

theorem noflush3_3 (t : Fin (cfg3 a).N) (h : t.val ≠ 32767) : ((cfg3 a).win 3).flush t = false := by
  rw [flush3_3, decide_eq_false]; rw [N_0]; omega

theorem idle3_3 (t : Fin (cfg3 a).N) (h : t.val ≠ 32767) : (cfg3 a).idle 3 ((cfg3 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live3_3 (t : Fin (cfg3 a).N) (h : t.val = 32767) : (cfg3 a).idle 3 ((cfg3 a).grid.coords t) = false := by
  have h2 : k0_cond2 (grid0.coords t) = 1#1 := (last_iff t).mpr h
  show (!(k0_cond2 (grid0.coords t) == 1#1)) = false
  rw [h2]; rfl

theorem acc3_zero (c : Dev nD) (n : ℕ) (h : n ≤ (cfg3 a).N) (hz : n = 0) : acc3 a V c n h = k0_pay1 (F := F) := by
  subst hz; rfl

def bodyPre3 (c : Dev nD) (t : Fin (cfg3 a).N) : sProp 𝕄 :=
  iprop((dat3 a V c).Φ t.castSucc ∗ (dat3 a V c).owesAt () t.castSucc
    ∗ (∃ d, owns (c : Thread nD τ) (ms3_0 a t) fullShare ((dat3 a V c).before 0 t d))
    ∗ (∃ d, owns (c : Thread nD τ) (ms3_1 a t) fullShare ((dat3 a V c).before 1 t d))
    ∗ (∃ d, owns (c : Thread nD τ) (ms3_2 a t) fullShare ((dat3 a V c).before 2 t d))
    ∗ (∃ d, owns (c : Thread nD τ) (ms3_3 a t) fullShare ((dat3 a V c).before 3 t d)))

def bodyPost3 (c : Dev nD) (t : Fin (cfg3 a).N) : sProp 𝕄 :=
  iprop((dat3 a V c).Φ t.succ ∗ (dat3 a V c).owesAt () t.succ
    ∗ (dat3 a V c).leavesExact 0 t ∗ (dat3 a V c).leavesExact 1 t ∗ (dat3 a V c).leavesExact 2 t ∗ (dat3 a V c).leavesExact 3 t)

/-- At every point the body turns the invariant before the point into the invariant after it, by the point's position: first, last or in between. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [(before3 a V c t).1, (before3 a V c t).2.1, (before3 a V c t).2.2]
  rw [show (dat3 a V c).owesAt () t.succ = (dat3 a V c).owesAt () t.castSucc from rfl]
  rw [show (dat3 a V c).Φ t.succ = Phi3 a V c (t.val + 1) t.isLt from rfl]
  rw [show (dat3 a V c).Φ t.castSucc = Phi3 a V c t.val (Nat.le_of_lt t.isLt) from by dsimp only [dat3]; simp only [Fin.coe_castSucc]]
  rw [show (dat3 a V c).leavesExact 0 t = owns (c : Thread nD τ) (ms3_0 a t) fullShare (iblk3 a V c 0 t) from by
    unfold Dat.leavesExact; rw [show (cfg3 a).idle 0 ((cfg3 a).grid.coords t) = false from rfl, after3_0]; rfl]
  rw [show (dat3 a V c).leavesExact 1 t = owns (c : Thread nD τ) (ms3_1 a t) fullShare (iblk3 a V c 1 t) from by
    unfold Dat.leavesExact; rw [show (cfg3 a).idle 1 ((cfg3 a).grid.coords t) = false from rfl, after3_1]; rfl]
  rw [show (dat3 a V c).leavesExact 2 t = owns (c : Thread nD τ) (ms3_2 a t) fullShare (iblk3 a V c 2 t) from by
    unfold Dat.leavesExact; rw [show (cfg3 a).idle 2 ((cfg3 a).grid.coords t) = false from rfl, after3_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat3 a V c) 3 t (idle3_3 a t (by omega)) (noflush3_3 a t (by omega))]
    rw [Phi3_zero a V c _ _ hz, Phi3_pos a V c _ _ (Nat.succ_ne_zero _), acc3_succ, acc3_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc3_scratch0) (Memref.isWhole_whole _) (iblk3 a V c 0 t) (iblk3 a V c 1 t) (iblk3 a V c 2 t) Set.univ _ h1 h2)
    iframe H0 H1 H2
    isplitl [HS]
    · iexists (Memref.whole cc3_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat3 a V c).leavesExact 3 t = owns (c : Thread nD τ) (ms3_3 a t) fullShare (acc3 a V c (t.val + 1) t.isLt) from by
        unfold Dat.leavesExact; rw [live3_3 a t hl, after3_3]; rfl]
      rw [Phi3_pos a V c _ _ hz, Phi3_pos a V c _ _ (Nat.succ_ne_zero _), acc3_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc3_scratch0) (Memref.isWhole_whole _) (iblk3 a V c 0 t) (iblk3 a V c 1 t) (iblk3 a V c 2 t) Set.univ _ (acc3 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat3 a V c) 3 t (idle3_3 a t hl) (noflush3_3 a t hl)]
      rw [Phi3_pos a V c _ _ hz, Phi3_pos a V c _ _ (Nat.succ_ne_zero _), acc3_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc3_scratch0) (Memref.isWhole_whole _) (iblk3 a V c 0 t) (iblk3 a V c 1 t) (iblk3 a V c 2 t) Set.univ _ (acc3 a V c t.val (Nat.le_of_lt t.isLt)) h1 h2)
      iframe H0 H1 H2
      isplitl [HS]; · iexact HS
      iintro ⟨H0, H1, H2, HS⟩
      iframe
      iexact H3

theorem body_obligation3 (c : Dev nD) : BodyObligation (dat3 (F := F) a V c) (defs₀ (F := F)) Variants.none () Set.univ := fun t => by
  rw [bigSep_W3, bigSep_W3]
  exact sound_body3 a V c t

end Cert.KernelIdeal.Hand

end
-- ==== Proof.KI.Seg3.lean ====
import proofs.«407368_j10496900071476_2_alg».proof.Proof.KI.LaunchP
import proofs.«407368_j10496900071476_2_alg».proof.Proof.Gen.KernelIdeal.Skeleton
import proofs.«407368_j10496900071476_2_alg».proof.Proof.KI.ChainT
import proofs.«407368_j10496900071476_2_alg».proof.Proof.KI.Oblig3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg3 (F := F)).Adm)
variable (V : (c : Dev nD) → (b : Ref sig .tc) → Buf (Elt F) ((c : Thread nD τ).loc b))

theorem himg3 : (Finset.univ.image (Pipeline.arrRef spec3) : Finset (Ref sig .tc)) = {main_v1, main_v3, main_v55} := by decide

/-- The call's arrays are three buffers: the second feature table is read through two windows, each holding half of it. -/
theorem arrs3_iff (c : Dev nD) (Vb : (b : Ref sig .tc) → Buf (Elt F) ((c : Thread nD τ).loc b))
    (Fw : (w : Fin (cfg3 a).W) → Buf (Elt F) (((cfg3 a).win w).arr.view.loc (c.tc : Thread nD τ)))
    (hF : ∀ w, Fw w = Vb (Pipeline.arrRef spec3 w)) :
    (Pipeline.arrBufs spec3 c Vb : sProp 𝕄) ⊣⊢ (dat3 a V c).arrays Fw := by
  unfold Pipeline.arrBufs Dat.arrays
  rw [himg3, bigSep_insert (by decide), bigSep_insert (by decide), bigSep_singleton, bigSep_W3]
  simp only [hF]
  rw [show (dat3 a V c).share 0 = fullShare from rfl, show (dat3 a V c).share 1 = fullShare.left from rfl,
    show (dat3 a V c).share 2 = fullShare.right from rfl, show (dat3 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v55) ↦{fullShare} Vb main_v55)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub3_split (c : Dev nD) (Vb : (b : Ref sig .tc) → Buf (Elt F) ((c : Thread nD τ).loc b)) :
    (unscopedBufs c Vb : sProp 𝕄)
      = iprop(Pipeline.arrBufs spec3 c Vb ∗ Pipeline.unscopedRest spec3 c Vb) :=
  Pipeline.unscopedBufs_split₀ (fun _ : Unit => cfg3 a) () winFacts₀3.arr_unscoped c Vb

end Arrays

variable (m : (ℓ : Loc nD τ sig) → Buf (Elt F) ℓ) (hO : Oks m)

theorem hexit3_arr (c : Dev nD) : ∀ w : Fin 4, (pdats m hO (⟨3, by decide⟩ : Fin 4) c).arrAt w (cfg3 (adm3 m hO)).N = Vx3 m hO c (Pipeline.arrRef spec3 w)
  | ⟨0, _⟩ => (((dat3 (adm3 m hO) (W1 m) c).arrAt_in 0 rfl _).trans (A3_eq (adm3 m hO) (W1 m) c 0)).trans (((Vx3_rest m hO c main_v1 (by decide)).trans (Ve3_arr m hO c 0)).symm)
  | ⟨1, _⟩ => (((dat3 (adm3 m hO) (W1 m) c).arrAt_in 1 rfl _).trans (A3_eq (adm3 m hO) (W1 m) c 1)).trans (((Vx3_rest m hO c main_v3 (by decide)).trans (Ve3_arr m hO c 1)).symm)
  | ⟨2, _⟩ => (((dat3 (adm3 m hO) (W1 m) c).arrAt_in 2 rfl _).trans (A3_eq (adm3 m hO) (W1 m) c 2)).trans (((Vx3_rest m hO c main_v3 (by decide)).trans (Ve3_arr m hO c 2)).symm)
  | ⟨3, _⟩ => (Vx3_out m hO c).symm

set_option backward.isDefEq.respectTransparency.types false in
/-- The call as one item of the program: it finds every buffer as the host operations before it left them and changes its output array only. -/
def reg3 : Pipeline.RegionSeg (pcfgs (F := F)) (adm m hO) (pdats m hO) () defs₀ Variants.none (fun _ => (∅ : Finset Unit)) (fun _ _ => (0 : ℕ)) (⟨3, by decide⟩ : Fin 4) where
  win := winFacts₀3
  block_pos := block_pos3
  stage_whole := stage_whole3
  K := PEmpty
  osem k := k.elim
  ho := Pipeline.OwnSemFacts.none _
  hbody c := (body_obligation3 (adm3 m hO) (W1 m) c).loose
  hwaits := Pipeline.hwaits_of_owed_zero _ _ _ _ _ _ _ fun _ _ => rfl
  pre c := iprop(StableHlo.held (c : Thread nD τ) (Pipeline.ucRefs τ sig) (Ve3 m hO c) ∗ Rst c)
  post c := iprop(StableHlo.held (c : Thread nD τ) (Pipeline.ucRefs τ sig) (Vx3 m hO c) ∗ Rst c)
  X c := iprop(∃ r, prngReg c r)
  Y c := iprop((∃ r, prngReg c r) ∗ Pipeline.prefHeld pre3 c (fun _ => fullShare) (tbl3 m))
  Z c := Pipeline.unscopedRestP pre3 spec3 c (fun b => Ve3 m hO c b)
  hentry c := by
    rw [Pipeline.ownSems0_none]
    rw [show StableHlo.held (c : Thread nD τ) (Pipeline.ucRefs τ sig) (Ve3 m hO c) = (unscopedBufs c (fun b => Ve3 m hO c b) : sProp 𝕄)
      from (Pipeline.unscopedBufs_held c (Ve3 m hO c)).symm]
    rw [ub3_split (adm3 m hO) c (fun b => Ve3 m hO c b), Pipeline.unscopedRest_split preFacts3 c (fun b => Ve3 m hO c b)]
    rw [show (fun k => Ve3 m hO c (pre3.ref k)) = tbl3 m from funext fun k => Ve3_tbl m hO c k]
    iintro ⟨⟨⟨Harr, HT, Hrest⟩, Hp, HO⟩, -, -⟩
    imodintro
    isplitl [Harr]
    · iapply (arrs3_iff (adm3 m hO) (W1 m) c (fun b => Ve3 m hO c b) _ (fun w => (Ve3_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨3, by decide⟩ : Fin 4) c).Φ 0 = Phi3 (adm3 m hO) (W1 m) c 0 (Nat.zero_le _) from rfl, Phi3_zero _ _ _ _ _ rfl]
    unfold rest3
    rw [show Pipeline.scopedRest (Pipeline.pin (pcfgs (F := F)) (adm m hO) (⟨3, by decide⟩ : Fin 4)).spec c
      = _ from scopedRest3_split c]
    iintro ⟨Hp, HT, Hs, Hb⟩
    iframe
  hout c := by
    rw [Pipeline.ownSems0_none]
    rw [show (pdats m hO (⟨3, by decide⟩ : Fin 4) c).Φ (Fin.last _) = Phi3 (adm3 m hO) (W1 m) c (cfg3 (adm3 m hO)).N (le_refl _) from rfl,
      Phi3_pos _ _ _ _ _ (by rw [show (cfg3 (adm3 m hO)).N = 32768 from N_0]; decide)]
    rw [show Pipeline.scopedRest (Pipeline.pin (pcfgs (F := F)) (adm m hO) (⟨3, by decide⟩ : Fin 4)).spec c
      = _ from scopedRest3_split c]
    unfold owns rest3
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx3 m hO c) = (unscopedBufs c (fun b => Vx3 m hO c b) : sProp 𝕄)
      from (Pipeline.unscopedBufs_held c (Vx3 m hO c)).symm]
    rw [ub3_split (adm3 m hO) c (fun b => Vx3 m hO c b), Pipeline.unscopedRest_split preFacts3 c (fun b => Vx3 m hO c b)]
    rw [show (fun k => Vx3 m hO c (pre3.ref k)) = tbl3 m from funext fun k => (Vx3_rest m hO c (pre3.ref k) (by revert k; decide)).trans (Ve3_tbl m hO c k)]
    rw [show (Pipeline.unscopedRestP pre3 spec3 c (fun b => Vx3 m hO c b) : sProp 𝕄)
        = Pipeline.unscopedRestP pre3 spec3 c (fun b => Ve3 m hO c b) from by
      unfold Pipeline.unscopedRestP
      exact bigSep_congr fun b hb => by
        dsimp only
        rw [Vx3_rest m hO c b (fun e => (Finset.mem_sdiff.mp (Finset.mem_sdiff.mp hb).1).2 (e ▸ (by decide : main_v55 ∈ Finset.univ.image (Pipeline.arrRef spec3))))]]
    iintro ⟨Ha, HO, ⟨Hp, HT⟩, Hrest⟩
    imodintro
    isplitl [Ha HT Hrest]
    · isplitl [Ha]
      · iapply (arrs3_iff (adm3 m hO) (W1 m) c (fun b => Vx3 m hO c b) _ (hexit3_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.KernelIdeal.Hand

end
-- ==== Proof.KI.Run.lean ====
import proofs.«407368_j10496900071476_2_alg».proof.Proof.KI.LaunchP
import proofs.«407368_j10496900071476_2_alg».proof.Proof.Gen.KernelIdeal.Skeleton
import proofs.«407368_j10496900071476_2_alg».proof.Proof.KI.Seg0
import proofs.«407368_j10496900071476_2_alg».proof.Proof.KI.Seg1
import proofs.«407368_j10496900071476_2_alg».proof.Proof.KI.Seg2
import proofs.«407368_j10496900071476_2_alg».proof.Proof.KI.Seg3
import Idealize.ShloMosaic.Lib.Pipeline.Kit
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (hO : Oks m) (ρ : Dev nD → PrngReg)

abbrev endsAt (c : Dev nD) (μ : (ℓ : Loc nD τ sig) → Buf (Elt F) ℓ) : Prop :=
  μ ((c.tc : Thread nD τ).loc main_v58) = V9 m (outs m hO) c main_v58
      ∧ μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)

abbrev u0 := initOf (Pipeline.cells (Pipeline.pin (pcfgs (F := F)) (adm m hO)) (cellOf_inj (adm m hO))) (Pipeline.launchToks (Pipeline.pin (pcfgs (F := F)) (adm m hO)) (cellOf_inj (adm m hO)))

abbrev theSegs := segs m (outs m hO) Variants.none (fun _ => (∅ : Finset Unit)) (fun _ _ => (0 : ℕ)) (fun _ c => Rst c) () (adm m hO) (pdats m hO) (reg0 m hO) (reg1 m hO) (reg2 m hO) (reg3 m hO)

set_option backward.isDefEq.respectTransparency.types false in
theorem run_main : θ_run defs (onTc (τ := τ) (main (F := F))) ⟨m, fun _ => 0, ρ⟩ (fun r => ∀ c : Dev nD,
      endsAt m hO c r.2.mem) := by
  refine Pipeline.θ_run_regions_kit_dev (pcfgs (F := F)) (adm m hO) (pdats m hO) () (cellOf_inj (adm m hO)) emb₁ defs₀ Variants.none
    (fun _ => (∅ : Finset Unit)) (fun _ _ => (0 : ℕ)) m ρ main
    (theSegs m hO)
    (fun c Q => by
      rewrite [main_chain c, Seg.run_eq_chain,
        show (theSegs m hO c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [theSegs, segs, Seg.pipes_host, Seg.pipes_region, Seg.pipes_nil]; decide)
    (O₀ := 0) (hL := fun _ _ => rfl) (G := fun _ => iprop(emp))
    (u₀ := u0 m hO)
    (hu₀ := by
      iintro Hu; imodintro
      isplitl [Hu]
      · iapply (show (ownU (u0 m hO) : sProp 𝕄)
            ⊢ BI.own (emb₁ (u0 m hO)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V9 m (outs m hO) c))
    (hch := fun c => ⟨.rfl, .rfl, .rfl, .rfl, .rfl, .rfl, .rfl, .rfl, .rfl, sep_mono .rfl (by iintro ⟨-, H⟩; iexact H)⟩)
    (hinit := ?_)
    (QY := fun c s => endsAt m hO c s.mem)
    (hfin := fun c s' => ?_) (hQ := fun _ h => h)
  · refine Pipeline.initEach _ _ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V9 m (outs m hO) c) s') $$ [Hh HSI]
    · isplitl [Hh] <;> iassumption
    icases Hr with ⟨%h, HSI⟩
    imodintro
    isplitr
    · ipureintro
      exact ⟨h (Proc.devRef .tc main_v58) (Finset.mem_filter.mpr ⟨StableHlo.devRef_mem_tcRefs main_v58, by decide⟩),
        (h (Proc.devRef .tc main_arg0) (Finset.mem_filter.mpr ⟨StableHlo.devRef_mem_tcRefs main_arg0, by decide⟩)).trans (V9_main_arg0 m (outs m hO) c),
        (h (Proc.devRef .tc main_arg1) (Finset.mem_filter.mpr ⟨StableHlo.devRef_mem_tcRefs main_arg1, by decide⟩)).trans (V9_main_arg1 m (outs m hO) c),
        (h (Proc.devRef .tc main_arg2) (Finset.mem_filter.mpr ⟨StableHlo.devRef_mem_tcRefs main_arg2, by decide⟩)).trans (V9_main_arg2 m (outs m hO) c),
        (h (Proc.devRef .tc main_arg3) (Finset.mem_filter.mpr ⟨StableHlo.devRef_mem_tcRefs main_arg3, by decide⟩)).trans (V9_main_arg3 m (outs m hO) c),
        (h (Proc.devRef .tc main_arg4) (Finset.mem_filter.mpr ⟨StableHlo.devRef_mem_tcRefs main_arg4, by decide⟩)).trans (V9_main_arg4 m (outs m hO) c),
        (h (Proc.devRef .tc main_arg5) (Finset.mem_filter.mpr ⟨StableHlo.devRef_mem_tcRefs main_arg5, by decide⟩)).trans (V9_main_arg5 m (outs m hO) c)⟩
    · iexact HSI

end Cert.KernelIdeal.Hand

end
-- ==== Proof.KI.Tables.lean ====
import proofs.«407368_j10496900071476_2_alg».proof.Proof.KI.RegionsP
import proofs.«407368_j10496900071476_2_alg».proof.Proof.Spec
import Idealize.ShloMosaic.Lib.StableHlo.Run
import Idealize.ShloMosaic.Lib.ValueIdx
import Idealize.ShloMosaic.Lib.Pipeline.Value
import Idealize.ShloMosaic.Lib.ValueLayout
import proofs.«407368_j10496900071476_2_alg».proof.Proof.Gen.KernelIdeal.Skeleton
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def featTable (x : FVec F S8x256x64x64 .f32) : FVec F S32768x1x256 .f32 :=
  shapeCast S32768x1x256 (transpose S8x64x64x256 [0, 2, 3, 1] x transposes_S8x256x64x64_S8x64x64x256_0_2_3_1)
    shapeCasts_S8x64x64x256_S32768x1x256

def rowTable (b : IVec S131072 32) (yx : IVec S131072x2 32) : IVec S131072 32 :=
  addi
    (addi (muli b (broadcastInDim S131072 ![] bcast_S_S131072 (constantI S_ 32 4096#32)))
          (muli (shapeCast S131072 (extractStridedSlice S131072x1 ![0, 0] yx slices_S131072x2_S131072x1_0_0) shapeCasts_S131072x1_S131072)
                (broadcastInDim S131072 ![] bcast_S_S131072 (constantI S_ 32 64#32))))
    (shapeCast S131072 (extractStridedSlice S131072x1 ![0, 1] yx slices_S131072x2_S131072x1_0_1) shapeCasts_S131072x1_S131072)

theorem V1_main_v1 (c : Dev nD) : V1 m c main_v1 = featTable (m ((c : Thread nD τ).loc main_arg0)) := by
  show StableHlo.after hostOps0 (fun b => m (c, b)) (Proc.devRef .tc main_v1) = _
  after_results
  rfl

theorem V1_main_v3 (c : Dev nD) : V1 m c main_v3 = featTable (m ((c : Thread nD τ).loc main_arg1)) := by
  show StableHlo.after hostOps0 (fun b => m (c, b)) (Proc.devRef .tc main_v3) = _
  after_results_simp
  rfl

theorem V1_main_v13 (c : Dev nD) :
    V1 m c main_v13 = rowTable (m ((c : Thread nD τ).loc main_arg2)) (m ((c : Thread nD τ).loc main_arg3)) := by
  show StableHlo.after hostOps0 (fun b => m (c, b)) (Proc.devRef .tc main_v13) = _
  after_results_simp
  rfl

theorem V1_main_v23 (c : Dev nD) :
    V1 m c main_v23 = rowTable (m ((c : Thread nD τ).loc main_arg2)) (m ((c : Thread nD τ).loc main_arg4)) := by
  show StableHlo.after hostOps0 (fun b => m (c, b)) (Proc.devRef .tc main_v23) = _
  after_results_simp
  rfl

theorem V1_main_v33 (c : Dev nD) :
    V1 m c main_v33 = rowTable (m ((c : Thread nD τ).loc main_arg2)) (m ((c : Thread nD τ).loc main_arg5)) := by
  show StableHlo.after hostOps0 (fun b => m (c, b)) (Proc.devRef .tc main_v33) = _
  after_results_simp
  rfl

theorem V1_main_v34 (c : Dev nD) :
    V1 m c main_v34 = extractStridedSlice S32768 ![0]
      (rowTable (m ((c : Thread nD τ).loc main_arg2)) (m ((c : Thread nD τ).loc main_arg3))) slices_S131072_S32768_0 := by
  show StableHlo.after hostOps0 (fun b => m (c, b)) (Proc.devRef .tc main_v34) = _
  after_results_simp
  rfl

theorem V1_main_v35 (c : Dev nD) :
    V1 m c main_v35 = extractStridedSlice S32768 ![0]
      (rowTable (m ((c : Thread nD τ).loc main_arg2)) (m ((c : Thread nD τ).loc main_arg4))) slices_S131072_S32768_0 := by
  show StableHlo.after hostOps0 (fun b => m (c, b)) (Proc.devRef .tc main_v35) = _
  after_results_simp
  rfl

theorem V1_main_v36 (c : Dev nD) :
    V1 m c main_v36 = extractStridedSlice S32768 ![0]
      (rowTable (m ((c : Thread nD τ).loc main_arg2)) (m ((c : Thread nD τ).loc main_arg5))) slices_S131072_S32768_0 := by
  show StableHlo.after hostOps0 (fun b => m (c, b)) (Proc.devRef .tc main_v36) = _
  after_results_simp
  rfl

theorem featTable_apply (x : FVec F S8x256x64x64 .f32) (b : Fin 8) (r q : Fin 64) (k : Fin 256) :
    featTable x (ValueIdx.ix3 ⟨b.val * 4096 + r.val * 64 + q.val, by omega⟩ 0 k) = x (ValueIdx.ix4 b k r q) := by
  unfold featTable
  refine (shapeCast_apply _ _ _ (ValueIdx.ix4 b r q k) ?_).trans ?_
  · rw [Shape.rowMajor_val_four, Shape.rowMajor_val_three]
    show ((b.val * 64 + r.val) * 64 + q.val) * 256 + k.val = ((b.val * 4096 + r.val * 64 + q.val) * 1 + 0) * 256 + k.val
    omega
  · exact transpose_apply _ _ _ _ _ fun a => match a with
      | ⟨0, _⟩ => rfl
      | ⟨1, _⟩ => rfl
      | ⟨2, _⟩ => rfl
      | ⟨3, _⟩ => rfl

theorem col0_apply (yx : IVec S131072x2 32) (i : Fin 131072) :
    shapeCast S131072 (extractStridedSlice S131072x1 ![0, 0] yx slices_S131072x2_S131072x1_0_0) shapeCasts_S131072x1_S131072 (ValueIdx.ix1 i)
      = yx (ValueIdx.ix2 i 0) := by
  refine (shapeCast_apply _ _ _ (ValueIdx.ix2 i 0) ?_).trans ?_
  · rw [Shape.rowMajor_val_two, Shape.rowMajor_val_one]
    show i.val * 1 + 0 = i.val
    omega
  · exact extractStridedSlice_apply _ _ _ _ _ fun a => match a with
      | ⟨0, _⟩ => by show i.val = 0 + i.val; omega
      | ⟨1, _⟩ => rfl

theorem col1_apply (yx : IVec S131072x2 32) (i : Fin 131072) :
    shapeCast S131072 (extractStridedSlice S131072x1 ![0, 1] yx slices_S131072x2_S131072x1_0_1) shapeCasts_S131072x1_S131072 (ValueIdx.ix1 i)
      = yx (ValueIdx.ix2 i 1) := by
  refine (shapeCast_apply _ _ _ (ValueIdx.ix2 i 0) ?_).trans ?_
  · rw [Shape.rowMajor_val_two, Shape.rowMajor_val_one]
    show i.val * 1 + 0 = i.val
    omega
  · exact extractStridedSlice_apply _ _ _ _ _ fun a => match a with
      | ⟨0, _⟩ => by show i.val = 0 + i.val; omega
      | ⟨1, _⟩ => rfl

theorem rowTable_apply (b : IVec S131072 32) (yx : IVec S131072x2 32) (i : Fin 131072) :
    rowTable b yx (ValueIdx.ix1 i) = b (ValueIdx.ix1 i) * 4096#32 + yx (ValueIdx.ix2 i 0) * 64#32 + yx (ValueIdx.ix2 i 1) := by
  rw [← col0_apply yx i, ← col1_apply yx i]
  rfl

theorem rowTable_toNat (b : IVec S131072 32) (yx : IVec S131072x2 32) (i : Fin 131072)
    (hb : (b (ValueIdx.ix1 i)).toNat < 8) (h0 : (yx (ValueIdx.ix2 i 0)).toNat < 64) (h1 : (yx (ValueIdx.ix2 i 1)).toNat < 64) :
    (rowTable b yx (ValueIdx.ix1 i)).toNat = (b (ValueIdx.ix1 i)).toNat * 4096 + (yx (ValueIdx.ix2 i 0)).toNat * 64 + (yx (ValueIdx.ix2 i 1)).toNat := by
  rw [rowTable_apply, BitVec.toNat_add, BitVec.toNat_add, BitVec.toNat_mul, BitVec.toNat_mul,
    show (4096#32 : BitVec 32).toNat = 4096 from rfl, show (64#32 : BitVec 32).toNat = 64 from rfl]
  omega

theorem slice_rowTable_0 (t : IVec S131072 32) (i : Fin 32768) :
    extractStridedSlice S32768 ![0] t slices_S131072_S32768_0 (ValueIdx.ix1 i) = t (ValueIdx.ix1 ⟨i.val, by omega⟩) :=
  extractStridedSlice_apply _ _ _ _ _ fun a => match a with
    | ⟨0, _⟩ => by show i.val = 0 + i.val; omega

theorem slice_rowTable_1 (t : IVec S131072 32) (i : Fin 32768) :
    extractStridedSlice S32768 ![32768] t slices_S131072_S32768_32768 (ValueIdx.ix1 i) = t (ValueIdx.ix1 ⟨32768 + i.val, by omega⟩) :=
  extractStridedSlice_apply _ _ _ _ _ fun a => match a with
    | ⟨0, _⟩ => rfl

theorem slice_rowTable_2 (t : IVec S131072 32) (i : Fin 32768) :
    extractStridedSlice S32768 ![65536] t slices_S131072_S32768_65536 (ValueIdx.ix1 i) = t (ValueIdx.ix1 ⟨65536 + i.val, by omega⟩) :=
  extractStridedSlice_apply _ _ _ _ _ fun a => match a with
    | ⟨0, _⟩ => rfl

theorem slice_rowTable_3 (t : IVec S131072 32) (i : Fin 32768) :
    extractStridedSlice S32768 ![98304] t slices_S131072_S32768_98304 (ValueIdx.ix1 i) = t (ValueIdx.ix1 ⟨98304 + i.val, by omega⟩) :=
  extractStridedSlice_apply _ _ _ _ _ fun a => match a with
    | ⟨0, _⟩ => rfl

end Cert.KernelIdeal.Hand

end
-- ==== Proof.KI.Ok0.lean ====
import proofs.«407368_j10496900071476_2_alg».proof.Proof.KI.LaunchP
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at0 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k0_off1_eq i) 0))

theorem word0_0 (pf : pre0.Contents (Elt F)) (i : grid0.Coords) :
    cc0_transform_0 k0_off1_inb numel1_S1 pf i
      = ![((pf 0 : IVec S32768 32) (ValueIdx.ix1 ⟨(i 0).val, (i 0).isLt⟩)).toNat, 0, 0] :=
  congrArg (fun w : BitVec 32 => ![w.toNat, 0, 0]) (at0 (pf 0) i _ rfl)

theorem word0_1 (pf : pre0.Contents (Elt F)) (i : grid0.Coords) :
    cc0_transform_1 k0_off1_inb numel1_S1 pf i
      = ![((pf 1 : IVec S32768 32) (ValueIdx.ix1 ⟨(i 0).val, (i 0).isLt⟩)).toNat, 0, 0] :=
  congrArg (fun w : BitVec 32 => ![w.toNat, 0, 0]) (at0 (pf 1) i _ rfl)

theorem word0_2 (pf : pre0.Contents (Elt F)) (i : grid0.Coords) :
    cc0_transform_2 k0_off1_inb numel1_S1 pf i
      = ![((pf 2 : IVec S32768 32) (ValueIdx.ix1 ⟨(i 0).val, (i 0).isLt⟩)).toNat, 0, 0] :=
  congrArg (fun w : BitVec 32 => ![w.toNat, 0, 0]) (at0 (pf 2) i _ rfl)

/-- Row numbers below 32768 in all three tables name blocks that lie inside the feature tables. -/
theorem ok0_of (pf : pre0.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok0 (F := F) pf := by
  unfold ok0
  refine ⟨fun i => ⟨?_, .inl rfl⟩, fun i => ⟨?_, .inl rfl⟩, fun i => ⟨?_, .inl rfl⟩⟩
  · rw [word0_0]; exact inb_of _ (h0 ⟨(i 0).val, (i 0).isLt⟩)
  · rw [word0_1]; exact inb_of _ (h1 ⟨(i 0).val, (i 0).isLt⟩)
  · rw [word0_2]; exact inb_of _ (h2 ⟨(i 0).val, (i 0).isLt⟩)

end Cert.KernelIdeal.Hand

end
-- ==== Proof.KI.Ok1.lean ====
import proofs.«407368_j10496900071476_2_alg».proof.Proof.KI.LaunchP
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at1 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k1_off1_eq i) 0))

theorem word1_0 (pf : pre1.Contents (Elt F)) (i : grid0.Coords) :
    cc1_transform_0 k1_off1_inb numel1_S1 pf i
      = ![((pf 0 : IVec S32768 32) (ValueIdx.ix1 ⟨(i 0).val, (i 0).isLt⟩)).toNat, 0, 0] :=
  congrArg (fun w : BitVec 32 => ![w.toNat, 0, 0]) (at1 (pf 0) i _ rfl)

theorem word1_1 (pf : pre1.Contents (Elt F)) (i : grid0.Coords) :
    cc1_transform_1 k1_off1_inb numel1_S1 pf i
      = ![((pf 1 : IVec S32768 32) (ValueIdx.ix1 ⟨(i 0).val, (i 0).isLt⟩)).toNat, 0, 0] :=
  congrArg (fun w : BitVec 32 => ![w.toNat, 0, 0]) (at1 (pf 1) i _ rfl)

theorem word1_2 (pf : pre1.Contents (Elt F)) (i : grid0.Coords) :
    cc1_transform_2 k1_off1_inb numel1_S1 pf i
      = ![((pf 2 : IVec S32768 32) (ValueIdx.ix1 ⟨(i 0).val, (i 0).isLt⟩)).toNat, 0, 0] :=
  congrArg (fun w : BitVec 32 => ![w.toNat, 0, 0]) (at1 (pf 2) i _ rfl)

/-- Row numbers below 32768 in all three tables name blocks that lie inside the feature tables. -/
theorem ok1_of (pf : pre1.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok1 (F := F) pf := by
  unfold ok1
  refine ⟨fun i => ⟨?_, .inl rfl⟩, fun i => ⟨?_, .inl rfl⟩, fun i => ⟨?_, .inl rfl⟩⟩
  · rw [word1_0]; exact inb_of _ (h0 ⟨(i 0).val, (i 0).isLt⟩)
  · rw [word1_1]; exact inb_of _ (h1 ⟨(i 0).val, (i 0).isLt⟩)
  · rw [word1_2]; exact inb_of _ (h2 ⟨(i 0).val, (i 0).isLt⟩)

end Cert.KernelIdeal.Hand

end
-- ==== Proof.KI.Ok2.lean ====
import proofs.«407368_j10496900071476_2_alg».proof.Proof.KI.LaunchP
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at2 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k2_off1_eq i) 0))

theorem word2_0 (pf : pre2.Contents (Elt F)) (i : grid0.Coords) :
    cc2_transform_0 k2_off1_inb numel1_S1 pf i
      = ![((pf 0 : IVec S32768 32) (ValueIdx.ix1 ⟨(i 0).val, (i 0).isLt⟩)).toNat, 0, 0] :=
  congrArg (fun w : BitVec 32 => ![w.toNat, 0, 0]) (at2 (pf 0) i _ rfl)

theorem word2_1 (pf : pre2.Contents (Elt F)) (i : grid0.Coords) :
    cc2_transform_1 k2_off1_inb numel1_S1 pf i
      = ![((pf 1 : IVec S32768 32) (ValueIdx.ix1 ⟨(i 0).val, (i 0).isLt⟩)).toNat, 0, 0] :=
  congrArg (fun w : BitVec 32 => ![w.toNat, 0, 0]) (at2 (pf 1) i _ rfl)

theorem word2_2 (pf : pre2.Contents (Elt F)) (i : grid0.Coords) :
    cc2_transform_2 k2_off1_inb numel1_S1 pf i
      = ![((pf 2 : IVec S32768 32) (ValueIdx.ix1 ⟨(i 0).val, (i 0).isLt⟩)).toNat, 0, 0] :=
  congrArg (fun w : BitVec 32 => ![w.toNat, 0, 0]) (at2 (pf 2) i _ rfl)

/-- Row numbers below 32768 in all three tables name blocks that lie inside the feature tables. -/
theorem ok2_of (pf : pre2.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok2 (F := F) pf := by
  unfold ok2
  refine ⟨fun i => ⟨?_, .inl rfl⟩, fun i => ⟨?_, .inl rfl⟩, fun i => ⟨?_, .inl rfl⟩⟩
  · rw [word2_0]; exact inb_of _ (h0 ⟨(i 0).val, (i 0).isLt⟩)
  · rw [word2_1]; exact inb_of _ (h1 ⟨(i 0).val, (i 0).isLt⟩)
  · rw [word2_2]; exact inb_of _ (h2 ⟨(i 0).val, (i 0).isLt⟩)

end Cert.KernelIdeal.Hand

end
-- ==== Proof.KI.Ok3.lean ====
import proofs.«407368_j10496900071476_2_alg».proof.Proof.KI.LaunchP
import proofs.«407368_j10496900071476_2_alg».proof.Proof.KI.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at3 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k3_off1_eq i) 0))

theorem word3_0 (pf : pre3.Contents (Elt F)) (i : grid0.Coords) :
    cc3_transform_0 k3_off1_inb numel1_S1 pf i
      = ![((pf 0 : IVec S32768 32) (ValueIdx.ix1 ⟨(i 0).val, (i 0).isLt⟩)).toNat, 0, 0] :=
  congrArg (fun w : BitVec 32 => ![w.toNat, 0, 0]) (at3 (pf 0) i _ rfl)

theorem word3_1 (pf : pre3.Contents (Elt F)) (i : grid0.Coords) :
    cc3_transform_1 k3_off1_inb numel1_S1 pf i
      = ![((pf 1 : IVec S32768 32) (ValueIdx.ix1 ⟨(i 0).val, (i 0).isLt⟩)).toNat, 0, 0] :=
  congrArg (fun w : BitVec 32 => ![w.toNat, 0, 0]) (at3 (pf 1) i _ rfl)

theorem word3_2 (pf : pre3.Contents (Elt F)) (i : grid0.Coords) :
    cc3_transform_2 k3_off1_inb numel1_S1 pf i
      = ![((pf 2 : IVec S32768 32) (ValueIdx.ix1 ⟨(i 0).val, (i 0).isLt⟩)).toNat, 0, 0] :=
  congrArg (fun w : BitVec 32 => ![w.toNat, 0, 0]) (at3 (pf 2) i _ rfl)

/-- Row numbers below 32768 in all three tables name blocks that lie inside the feature tables. -/
theorem ok3_of (pf : pre3.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok3 (F := F) pf := by
  unfold ok3
  refine ⟨fun i => ⟨?_, .inl rfl⟩, fun i => ⟨?_, .inl rfl⟩, fun i => ⟨?_, .inl rfl⟩⟩
  · rw [word3_0]; exact inb_of _ (h0 ⟨(i 0).val, (i 0).isLt⟩)
  · rw [word3_1]; exact inb_of _ (h1 ⟨(i 0).val, (i 0).isLt⟩)
  · rw [word3_2]; exact inb_of _ (h2 ⟨(i 0).val, (i 0).isLt⟩)

end Cert.KernelIdeal.Hand

end
-- ==== Proof.KI.TblRows.lean ====
import proofs.«407368_j10496900071476_2_alg».proof.Proof.KI.LaunchP
import proofs.«407368_j10496900071476_2_alg».proof.Proof.Gen.KernelIdeal.Skeleton
import proofs.«407368_j10496900071476_2_alg».proof.Proof.KI.Family
import proofs.«407368_j10496900071476_2_alg».proof.Proof.KI.Tables
import proofs.«407368_j10496900071476_2_alg».proof.Proof.KI.Cuts
import proofs.«407368_j10496900071476_2_alg».proof.Proof.KI.Ok0
import proofs.«407368_j10496900071476_2_alg».proof.Proof.KI.Ok1
import proofs.«407368_j10496900071476_2_alg».proof.Proof.KI.Ok2
import proofs.«407368_j10496900071476_2_alg».proof.Proof.KI.Ok3
import proofs.«407368_j10496900071476_2_alg».proof.Proof.Spec
import Idealize.ShloMosaic.Lib.StableHlo.Run
import Idealize.ShloMosaic.Lib.ValueIdx
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev bi : IVec S131072 32 := m (((0 : Dev nD) : Thread nD τ).loc main_arg2)

abbrev ayx : IVec S131072x2 32 := m (((0 : Dev nD) : Thread nD τ).loc main_arg3)

abbrev pyx : IVec S131072x2 32 := m (((0 : Dev nD) : Thread nD τ).loc main_arg4)

abbrev nyx : IVec S131072x2 32 := m (((0 : Dev nD) : Thread nD τ).loc main_arg5)

theorem rowTable_lt (b : IVec S131072 32) (yx : IVec S131072x2 32) (i : Fin 131072)
    (hb : (b (ValueIdx.ix1 i)).toNat < 8) (h0 : (yx (ValueIdx.ix2 i 0)).toNat < 64) (h1 : (yx (ValueIdx.ix2 i 1)).toNat < 64) :
    (rowTable b yx (ValueIdx.ix1 i)).toNat < 32768 := by
  rw [rowTable_toNat b yx i hb h0 h1]; omega

/-- Call K's table j is chunk K of the full row-number table j. -/
theorem tbl0_0 (i : Fin 32768) :
    (tbl0 m 0 : IVec S32768 32) (ValueIdx.ix1 i)
      = rowTable (bi m) (ayx m) (ValueIdx.ix1 ⟨32768 * 0 + i.val, by omega⟩) := by
  show (V1 m (0 : Dev nD) main_v34 : IVec S32768 32) (ValueIdx.ix1 i) = _
  rw [V1_main_v34, slice_rowTable_0]
  exact congrArg (fun k => rowTable (bi m) (ayx m) (ValueIdx.ix1 k)) (Fin.ext (by show i.val = 32768 * 0 + i.val; omega))

theorem tbl0_1 (i : Fin 32768) :
    (tbl0 m 1 : IVec S32768 32) (ValueIdx.ix1 i)
      = rowTable (bi m) (pyx m) (ValueIdx.ix1 ⟨32768 * 0 + i.val, by omega⟩) := by
  show (V1 m (0 : Dev nD) main_v35 : IVec S32768 32) (ValueIdx.ix1 i) = _
  rw [V1_main_v35, slice_rowTable_0]
  exact congrArg (fun k => rowTable (bi m) (pyx m) (ValueIdx.ix1 k)) (Fin.ext (by show i.val = 32768 * 0 + i.val; omega))

theorem tbl0_2 (i : Fin 32768) :
    (tbl0 m 2 : IVec S32768 32) (ValueIdx.ix1 i)
      = rowTable (bi m) (nyx m) (ValueIdx.ix1 ⟨32768 * 0 + i.val, by omega⟩) := by
  show (V1 m (0 : Dev nD) main_v36 : IVec S32768 32) (ValueIdx.ix1 i) = _
  rw [V1_main_v36, slice_rowTable_0]
  exact congrArg (fun k => rowTable (bi m) (nyx m) (ValueIdx.ix1 k)) (Fin.ext (by show i.val = 32768 * 0 + i.val; omega))

theorem tbl1_0 (i : Fin 32768) :
    (tbl1 m 0 : IVec S32768 32) (ValueIdx.ix1 i)
      = rowTable (bi m) (ayx m) (ValueIdx.ix1 ⟨32768 * 1 + i.val, by omega⟩) := by
  refine (congrFun (cut1_0 (V1 m (0 : Dev nD))) (ValueIdx.ix1 i)).trans ?_
  rw [V1_main_v13]
  exact slice_rowTable_1 _ i

theorem tbl1_1 (i : Fin 32768) :
    (tbl1 m 1 : IVec S32768 32) (ValueIdx.ix1 i)
      = rowTable (bi m) (pyx m) (ValueIdx.ix1 ⟨32768 * 1 + i.val, by omega⟩) := by
  refine (congrFun (cut1_1 (V1 m (0 : Dev nD))) (ValueIdx.ix1 i)).trans ?_
  rw [V1_main_v23]
  exact slice_rowTable_1 _ i

theorem tbl1_2 (i : Fin 32768) :
    (tbl1 m 2 : IVec S32768 32) (ValueIdx.ix1 i)
      = rowTable (bi m) (nyx m) (ValueIdx.ix1 ⟨32768 * 1 + i.val, by omega⟩) := by
  refine (congrFun (cut1_2 (V1 m (0 : Dev nD))) (ValueIdx.ix1 i)).trans ?_
  rw [V1_main_v33]
  exact slice_rowTable_1 _ i

theorem tbl2_0 (i : Fin 32768) :
    (tbl2 m 0 : IVec S32768 32) (ValueIdx.ix1 i)
      = rowTable (bi m) (ayx m) (ValueIdx.ix1 ⟨32768 * 2 + i.val, by omega⟩) := by
  refine (congrFun (cut2_0 (V1 m (0 : Dev nD))) (ValueIdx.ix1 i)).trans ?_
  rw [V1_main_v13]
  exact slice_rowTable_2 _ i

theorem tbl2_1 (i : Fin 32768) :
    (tbl2 m 1 : IVec S32768 32) (ValueIdx.ix1 i)
      = rowTable (bi m) (pyx m) (ValueIdx.ix1 ⟨32768 * 2 + i.val, by omega⟩) := by
  refine (congrFun (cut2_1 (V1 m (0 : Dev nD))) (ValueIdx.ix1 i)).trans ?_
  rw [V1_main_v23]
  exact slice_rowTable_2 _ i

theorem tbl2_2 (i : Fin 32768) :
    (tbl2 m 2 : IVec S32768 32) (ValueIdx.ix1 i)
      = rowTable (bi m) (nyx m) (ValueIdx.ix1 ⟨32768 * 2 + i.val, by omega⟩) := by
  refine (congrFun (cut2_2 (V1 m (0 : Dev nD))) (ValueIdx.ix1 i)).trans ?_
  rw [V1_main_v33]
  exact slice_rowTable_2 _ i

theorem tbl3_0 (i : Fin 32768) :
    (tbl3 m 0 : IVec S32768 32) (ValueIdx.ix1 i)
      = rowTable (bi m) (ayx m) (ValueIdx.ix1 ⟨32768 * 3 + i.val, by omega⟩) := by
  refine (congrFun (cut3_0 (V1 m (0 : Dev nD))) (ValueIdx.ix1 i)).trans ?_
  rw [V1_main_v13]
  exact slice_rowTable_3 _ i

theorem tbl3_1 (i : Fin 32768) :
    (tbl3 m 1 : IVec S32768 32) (ValueIdx.ix1 i)
      = rowTable (bi m) (pyx m) (ValueIdx.ix1 ⟨32768 * 3 + i.val, by omega⟩) := by
  refine (congrFun (cut3_1 (V1 m (0 : Dev nD))) (ValueIdx.ix1 i)).trans ?_
  rw [V1_main_v23]
  exact slice_rowTable_3 _ i

theorem tbl3_2 (i : Fin 32768) :
    (tbl3 m 2 : IVec S32768 32) (ValueIdx.ix1 i)
      = rowTable (bi m) (nyx m) (ValueIdx.ix1 ⟨32768 * 3 + i.val, by omega⟩) := by
  refine (congrFun (cut3_2 (V1 m (0 : Dev nD))) (ValueIdx.ix1 i)).trans ?_
  rw [V1_main_v33]
  exact slice_rowTable_3 _ i

theorem oks_of_inRange (h : Cert.Triplet.InRange (bi m) (ayx m) (pyx m) (nyx m)) : Oks m where
  o0 := ok0_of _ (fun i => by rw [tbl0_0]; exact rowTable_lt _ _ _ (h.b _) (h.a _ 0) (h.a _ 1))
    (fun i => by rw [tbl0_1]; exact rowTable_lt _ _ _ (h.b _) (h.p _ 0) (h.p _ 1))
    (fun i => by rw [tbl0_2]; exact rowTable_lt _ _ _ (h.b _) (h.n _ 0) (h.n _ 1))
  o1 := ok1_of _ (fun i => by rw [tbl1_0]; exact rowTable_lt _ _ _ (h.b _) (h.a _ 0) (h.a _ 1))
    (fun i => by rw [tbl1_1]; exact rowTable_lt _ _ _ (h.b _) (h.p _ 0) (h.p _ 1))
    (fun i => by rw [tbl1_2]; exact rowTable_lt _ _ _ (h.b _) (h.n _ 0) (h.n _ 1))
  o2 := ok2_of _ (fun i => by rw [tbl2_0]; exact rowTable_lt _ _ _ (h.b _) (h.a _ 0) (h.a _ 1))
    (fun i => by rw [tbl2_1]; exact rowTable_lt _ _ _ (h.b _) (h.p _ 0) (h.p _ 1))
    (fun i => by rw [tbl2_2]; exact rowTable_lt _ _ _ (h.b _) (h.n _ 0) (h.n _ 1))
  o3 := ok3_of _ (fun i => by rw [tbl3_0]; exact rowTable_lt _ _ _ (h.b _) (h.a _ 0) (h.a _ 1))
    (fun i => by rw [tbl3_1]; exact rowTable_lt _ _ _ (h.b _) (h.p _ 0) (h.p _ 1))
    (fun i => by rw [tbl3_2]; exact rowTable_lt _ _ _ (h.b _) (h.n _ 0) (h.n _ 1))

end Cert.KernelIdeal.Hand

end
-- ==== Proof.KI.Loss.lean ====
import proofs.«407368_j10496900071476_2_alg».proof.Proof.Gen.KernelIdeal.Skeleton
import proofs.«407368_j10496900071476_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A block at offset zero with the array's own sizes holds every index of the array. -/
theorem mem_block (r : Ref sig .tc) (i : r.ty.shape.Idx) {off size : Fin r.ty.shape.rank → Nat}
    (inb : ∀ b, off b + size b ≤ r.ty.shape.size b) (hoff : ∀ b, off b = 0) (hsize : ∀ b, size b = r.ty.shape.size b) :
    i ∈ ((View.whole r).slice (Rect.unit off size inb)).set := by
  rw [View.set_slice_whole, Rect.mem_set_unit]
  intro b
  rw [hoff b, hsize b]
  exact ⟨Nat.zero_le _, by rw [Nat.zero_add]; exact (i b).isLt⟩

theorem pay1_ideal : k0_pay1 (F := Ideal) (ValueIdx.ix2 (0 : Fin 1) (0 : Fin 1)) = 0 := by
  unfold k0_pay1
  rw [shapeCast_self]
  exact Ideal.ofBits_zero_f32

theorem lift_lane (u : Fin 1) (k : Fin 256) : reduces_S1x256_S1.lift (ValueIdx.ix1 u) k = ValueIdx.ix2 u k := by
  funext c
  refine Fin.ext ?_
  match c with
  | ⟨0, _⟩ => rfl
  | ⟨1, _⟩ => rfl

/-- The lane sum of the squared difference of two rows is their squared distance. -/
theorem laneSum (x y : Vec Ideal S1x1x256 .f32) :
    shapeCast S1x1 (multiReduction (F := Ideal) .add [1] S1
        (mulf (subf (shapeCast S1x256 x shapeCasts_S1x1x256_S1x256) (shapeCast S1x256 y shapeCasts_S1x1x256_S1x256))
          (subf (shapeCast S1x256 x shapeCasts_S1x1x256_S1x256) (shapeCast S1x256 y shapeCasts_S1x1x256_S1x256)))
        0x00000000#32 reduces_S1x256_S1 (.inl rfl) rfl) shapeCasts_S1_S1x1 (ValueIdx.ix2 (0 : Fin 1) (0 : Fin 1))
      = Cert.Triplet.sqdist (fun k => x (ValueIdx.ix3 (0 : Fin 1) (0 : Fin 1) k)) (fun k => y (ValueIdx.ix3 (0 : Fin 1) (0 : Fin 1) k)) := by
  refine (shapeCast_a_1a_apply _ shapeCasts_S1_S1x1 0 0).trans ?_
  refine (Ideal.multiReduction_add_single _ _ reduces_S1x256_S1 (.inl rfl) rfl (ValueIdx.ix1 (0 : Fin 1))).trans ?_
  unfold Cert.Triplet.sqdist
  show Finset.sum (Finset.univ : Finset (Fin 256)) _ = _
  refine Finset.sum_congr rfl fun k _ => ?_
  rw [lift_lane]
  show (shapeCast S1x256 x shapeCasts_S1x1x256_S1x256 (ValueIdx.ix2 (0 : Fin 1) k) - shapeCast S1x256 y shapeCasts_S1x1x256_S1x256 (ValueIdx.ix2 (0 : Fin 1) k))
      * (shapeCast S1x256 x shapeCasts_S1x1x256_S1x256 (ValueIdx.ix2 (0 : Fin 1) k) - shapeCast S1x256 y shapeCasts_S1x1x256_S1x256 (ValueIdx.ix2 (0 : Fin 1) k)) = _
  rw [shapeCast_1ab_ab_apply x shapeCasts_S1x1x256_S1x256 0 k, shapeCast_1ab_ab_apply y shapeCasts_S1x1x256_S1x256 0 k]

/-- One point's update over the extended reals: the hinge loss of its three rows added to the running sum. -/
theorem pay2_ideal (x0 x1 x2 : Vec Ideal S1x1x256 .f32) (xs : Vec Ideal S1x1 .f32) :
    k0_pay2 x0 x1 x2 xs (ValueIdx.ix2 (0 : Fin 1) (0 : Fin 1))
      = xs (ValueIdx.ix2 (0 : Fin 1) (0 : Fin 1)) + Cert.Triplet.hinge (fun k => x0 (ValueIdx.ix3 (0 : Fin 1) (0 : Fin 1) k)) (fun k => x1 (ValueIdx.ix3 (0 : Fin 1) (0 : Fin 1) k)) (fun k => x2 (ValueIdx.ix3 (0 : Fin 1) (0 : Fin 1) k)) := by
  unfold k0_pay2
  dsimp only
  rw [shapeCast_self]
  unfold Cert.Triplet.hinge Cert.Triplet.margin
  rw [← laneSum x0 x1, ← laneSum x0 x2, ← Ideal.ofBits_zero_f32]
  rfl

end Cert.KernelIdeal.Hand

end
-- ==== Proof.KI.Value0.lean ====
import proofs.«407368_j10496900071476_2_alg».proof.Proof.KI.LaunchP
import proofs.«407368_j10496900071476_2_alg».proof.Proof.Gen.KernelIdeal.Skeleton
import proofs.«407368_j10496900071476_2_alg».proof.Proof.KI.Oblig0
import proofs.«407368_j10496900071476_2_alg».proof.Proof.KI.Ok0
import proofs.«407368_j10496900071476_2_alg».proof.Proof.KI.Loss
import proofs.«407368_j10496900071476_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Generic

variable (a : (pcfg0 (F := F)).Adm)
variable (V : (c : Dev nD) → (b : Ref sig .tc) → Buf (Elt F) ((c : Thread nD τ).loc b))

theorem acc0_congr (c : Dev nD) {n n' : ℕ} (e : n = n') (h : n ≤ (cfg0 a).N) (h' : n' ≤ (cfg0 a).N) :
    acc0 a V c n h = acc0 a V c n' h' := by
  subst e; rfl

theorem index0_3 (t : Fin (cfg0 a).N) : ((cfg0 a).win 3).index t = ![0, 0] := by
  show cc0_transform_3 (grid0.coords t) = _
  unfold cc0_transform_3
  rfl

abbrev tlast0 : Fin (cfg0 a).N := ⟨32767, by rw [show (cfg0 a).N = 32768 from N_0]; omega⟩

theorem flushed0_3 (c : Dev nD) (t : Fin (cfg0 a).N) (hf : ((cfg0 a).win 3).flush t = true) :
    (dat0 a V c).flushed 3 t
      = (((cfg0 a).win 3).blk t).view.read (Elt F) (acc0 a V c (cfg0 a).N (le_refl _)) := by
  have hN : t.val + 1 = (cfg0 a).N := of_decide_eq_true ((flush0_3 a t).symm.trans hf)
  show ((cfg0 a).win 3).cut ((cfg0 a).grid.coords t) ((dat0 a V c).after 3 t) = _
  rw [after0_3, acc0_congr a V c hN t.isLt (le_refl _)]
  have hz' : (fun b => ((cfg0 a).win 3).index t b * main_v37.ty.shape.size b) = fun _ => 0 := by
    rw [index0_3]; funext b; fin_cases b <;> rfl
  exact (Memref.read_access_unit_zero (Elt F) main_v37 hz' (fun b => by rw [congrFun hz' b]; simp) _).symm

/-- The output array ends holding the running sum after all the points. -/
theorem arrAt0_out (c : Dev nD) : (dat0 a V c).arrAt 3 (cfg0 a).N = acc0 a V c (cfg0 a).N (le_refl _) :=
  (dat0 a V c).arrAt_eq_of_cover 3 (acc0 a V c (cfg0 a).N (le_refl _)) (flushed0_3 a V c) fun i =>
    ⟨tlast0 a, (flush0_3 a (tlast0 a)).trans (decide_eq_true (show 32767 + 1 = grid0.N by rw [N_0])),
      mem_block main_v37 i _ (fun b => by
        show ((cfg0 a).win 3).index (tlast0 a) b * ((cfg0 a).win 3).size b = 0
        rw [index0_3]; fin_cases b <;> rfl) (fun b => rfl)⟩

set_option backward.isDefEq.respectTransparency.types false in
theorem index0_0 (t : Fin (cfg0 a).N) :
    ((cfg0 a).win 0).index t
      = ![((a.1 0 : IVec S32768 32) (ValueIdx.ix1 (⟨t.val, lt_of_lt_of_eq t.isLt N_0⟩ : Fin 32768))).toNat, 0, 0] := by
  refine (word0_0 a.1 (grid0.coords t)).trans ?_
  simp only [coords_val]

set_option backward.isDefEq.respectTransparency.types false in
theorem iblk0_0_row (c : Dev nD) (t : Fin (cfg0 a).N) (r : Fin 32768)
    (hr : ((a.1 0 : IVec S32768 32) (ValueIdx.ix1 (⟨t.val, lt_of_lt_of_eq t.isLt N_0⟩ : Fin 32768))).toNat = r.val) (k : Fin 256) :
    (iblk0 a V c 0 t : Vec F S1x1x256 .f32) (ValueIdx.ix3 (0 : Fin 1) (0 : Fin 1) k)
      = (V c (Pipeline.arrRef spec0 0) : Vec F S32768x1x256 .f32) (ValueIdx.ix3 r (0 : Fin 1) k) := by
  unfold iblk0
  rw [View.read_apply]
  show V c (Pipeline.arrRef spec0 0) _ = V c (Pipeline.arrRef spec0 0) _
  refine congrArg (V c (Pipeline.arrRef spec0 0)) (funext fun b => Fin.ext ?_)
  refine (Pipeline.Window.rect_emb_val ((cfg0 a).win 0) t _ b).trans ?_
  rw [index0_0 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index0_1 (t : Fin (cfg0 a).N) :
    ((cfg0 a).win 1).index t
      = ![((a.1 1 : IVec S32768 32) (ValueIdx.ix1 (⟨t.val, lt_of_lt_of_eq t.isLt N_0⟩ : Fin 32768))).toNat, 0, 0] := by
  refine (word0_1 a.1 (grid0.coords t)).trans ?_
  simp only [coords_val]

set_option backward.isDefEq.respectTransparency.types false in
theorem iblk0_1_row (c : Dev nD) (t : Fin (cfg0 a).N) (r : Fin 32768)
    (hr : ((a.1 1 : IVec S32768 32) (ValueIdx.ix1 (⟨t.val, lt_of_lt_of_eq t.isLt N_0⟩ : Fin 32768))).toNat = r.val) (k : Fin 256) :
    (iblk0 a V c 1 t : Vec F S1x1x256 .f32) (ValueIdx.ix3 (0 : Fin 1) (0 : Fin 1) k)
      = (V c (Pipeline.arrRef spec0 1) : Vec F S32768x1x256 .f32) (ValueIdx.ix3 r (0 : Fin 1) k) := by
  unfold iblk0
  rw [View.read_apply]
  show V c (Pipeline.arrRef spec0 1) _ = V c (Pipeline.arrRef spec0 1) _
  refine congrArg (V c (Pipeline.arrRef spec0 1)) (funext fun b => Fin.ext ?_)
  refine (Pipeline.Window.rect_emb_val ((cfg0 a).win 1) t _ b).trans ?_
  rw [index0_1 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index0_2 (t : Fin (cfg0 a).N) :
    ((cfg0 a).win 2).index t
      = ![((a.1 2 : IVec S32768 32) (ValueIdx.ix1 (⟨t.val, lt_of_lt_of_eq t.isLt N_0⟩ : Fin 32768))).toNat, 0, 0] := by
  refine (word0_2 a.1 (grid0.coords t)).trans ?_
  simp only [coords_val]

set_option backward.isDefEq.respectTransparency.types false in
theorem iblk0_2_row (c : Dev nD) (t : Fin (cfg0 a).N) (r : Fin 32768)
    (hr : ((a.1 2 : IVec S32768 32) (ValueIdx.ix1 (⟨t.val, lt_of_lt_of_eq t.isLt N_0⟩ : Fin 32768))).toNat = r.val) (k : Fin 256) :
    (iblk0 a V c 2 t : Vec F S1x1x256 .f32) (ValueIdx.ix3 (0 : Fin 1) (0 : Fin 1) k)
      = (V c (Pipeline.arrRef spec0 2) : Vec F S32768x1x256 .f32) (ValueIdx.ix3 r (0 : Fin 1) k) := by
  unfold iblk0
  rw [View.read_apply]
  show V c (Pipeline.arrRef spec0 2) _ = V c (Pipeline.arrRef spec0 2) _
  refine congrArg (V c (Pipeline.arrRef spec0 2)) (funext fun b => Fin.ext ?_)
  refine (Pipeline.Window.rect_emb_val ((cfg0 a).win 2) t _ b).trans ?_
  rw [index0_2 a t]
  match b with
  | ⟨0, _⟩ => rw [hr]; show r.val * 1 + 0 = r.val; omega
  | ⟨1, _⟩ => rfl
  | ⟨2, _⟩ => show 0 * 256 + k.val = k.val; omega

end Generic

section AtIdeal

variable (a : (pcfg0 (F := Ideal)).Adm)
variable (V : (c : Dev nD) → (b : Ref sig .tc) → Buf (Elt Ideal) ((c : Thread nD τ).loc b))

def ploss0 (c : Dev nD) (t : Fin (cfg0 a).N) : EReal :=
  Cert.Triplet.hinge (fun k => (iblk0 a V c 0 t : Vec Ideal S1x1x256 .f32) (ValueIdx.ix3 (0 : Fin 1) (0 : Fin 1) k))
    (fun k => (iblk0 a V c 1 t : Vec Ideal S1x1x256 .f32) (ValueIdx.ix3 (0 : Fin 1) (0 : Fin 1) k))
    (fun k => (iblk0 a V c 2 t : Vec Ideal S1x1x256 .f32) (ValueIdx.ix3 (0 : Fin 1) (0 : Fin 1) k))

/-- Over the extended reals the running sum after `n` points is the sum of the first `n` hinge losses. -/
theorem acc0_ideal (c : Dev nD) (n : ℕ) (hn : n ≤ (cfg0 a).N) :
    acc0 a V c n hn (ValueIdx.ix2 (0 : Fin 1) (0 : Fin 1)) = ∑ t : Fin n, ploss0 a V c ⟨t.val, lt_of_lt_of_le t.isLt hn⟩ := by
  induction n with
  | zero =>
    rw [Finset.univ_eq_empty, Finset.sum_empty]
    exact pay1_ideal
  | succ n ih =>
    rw [Fin.sum_univ_castSucc]
    refine (pay2_ideal (iblk0 a V c 0 ⟨n, hn⟩) (iblk0 a V c 1 ⟨n, hn⟩) (iblk0 a V c 2 ⟨n, hn⟩)
      (acc0 a V c n (Nat.le_of_lt hn))).trans ?_
    rw [ih (Nat.le_of_lt hn)]
    rfl

end AtIdeal

end Cert.KernelIdeal.Hand

end
-- ==== Proof.KI.Value1.lean ====
import proofs.«407368_j10496900071476_2_alg».proof.Proof.KI.LaunchP
import proofs.«407368_j10496900071476_2_alg».proof.Proof.Gen.KernelIdeal.Skeleton
import proofs.«407368_j10496900071476_2_alg».proof.Proof.KI.Oblig1
import proofs.«407368_j10496900071476_2_alg».proof.Proof.KI.Ok1
import proofs.«407368_j10496900071476_2_alg».proof.Proof.KI.Loss
import proofs.«407368_j10496900071476_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Generic

variable (a : (pcfg1 (F := F)).Adm)
variable (V : (c : Dev nD) → (b : Ref sig .tc) → Buf (Elt F) ((c : Thread nD τ).loc b))

theorem acc1_congr (c : Dev nD) {n n' : ℕ} (e : n = n') (h : n ≤ (cfg1 a).N) (h' : n' ≤ (cfg1 a).N) :
    acc1 a V c n h = acc1 a V c n' h' := by
  subst e; rfl

theorem index1_3 (t : Fin (cfg1 a).N) : ((cfg1 a).win 3).index t = ![0, 0] := by
  show cc1_transform_3 (grid0.coords t) = _
  unfold cc1_transform_3
  rfl

abbrev tlast1 : Fin (cfg1 a).N := ⟨32767, by rw [show (cfg1 a).N = 32768 from N_0]; omega⟩

theorem flushed1_3 (c : Dev nD) (t : Fin (cfg1 a).N) (hf : ((cfg1 a).win 3).flush t = true) :
    (dat1 a V c).flushed 3 t
      = (((cfg1 a).win 3).blk t).view.read (Elt F) (acc1 a V c (cfg1 a).N (le_refl _)) := by
  have hN : t.val + 1 = (cfg1 a).N := of_decide_eq_true ((flush1_3 a t).symm.trans hf)
  show ((cfg1 a).win 3).cut ((cfg1 a).grid.coords t) ((dat1 a V c).after 3 t) = _
  rw [after1_3, acc1_congr a V c hN t.isLt (le_refl _)]
  have hz' : (fun b => ((cfg1 a).win 3).index t b * main_v43.ty.shape.size b) = fun _ => 0 := by
    rw [index1_3]; funext b; fin_cases b <;> rfl
  exact (Memref.read_access_unit_zero (Elt F) main_v43 hz' (fun b => by rw [congrFun hz' b]; simp) _).symm

/-- The output array ends holding the running sum after all the points. -/
theorem arrAt1_out (c : Dev nD) : (dat1 a V c).arrAt 3 (cfg1 a).N = acc1 a V c (cfg1 a).N (le_refl _) :=
  (dat1 a V c).arrAt_eq_of_cover 3 (acc1 a V c (cfg1 a).N (le_refl _)) (flushed1_3 a V c) fun i =>
    ⟨tlast1 a, (flush1_3 a (tlast1 a)).trans (decide_eq_true (show 32767 + 1 = grid0.N by rw [N_0])),
      mem_block main_v43 i _ (fun b => by
        show ((cfg1 a).win 3).index (tlast1 a) b * ((cfg1 a).win 3).size b = 0
        rw [index1_3]; fin_cases b <;> rfl) (fun b => rfl)⟩

set_option backward.isDefEq.respectTransparency.types false in
theorem index1_0 (t : Fin (cfg1 a).N) :
    ((cfg1 a).win 0).index t
      = ![((a.1 0 : IVec S32768 32) (ValueIdx.ix1 (⟨t.val, lt_of_lt_of_eq t.isLt N_0⟩ : Fin 32768))).toNat, 0, 0] := by
  refine (word1_0 a.1 (grid0.coords t)).trans ?_
  simp only [coords_val]

set_option backward.isDefEq.respectTransparency.types false in
theorem iblk1_0_row (c : Dev nD) (t : Fin (cfg1 a).N) (r : Fin 32768)
    (hr : ((a.1 0 : IVec S32768 32) (ValueIdx.ix1 (⟨t.val, lt_of_lt_of_eq t.isLt N_0⟩ : Fin 32768))).toNat = r.val) (k : Fin 256) :
    (iblk1 a V c 0 t : Vec F S1x1x256 .f32) (ValueIdx.ix3 (0 : Fin 1) (0 : Fin 1) k)
      = (V c (Pipeline.arrRef spec1 0) : Vec F S32768x1x256 .f32) (ValueIdx.ix3 r (0 : Fin 1) k) := by
  unfold iblk1
  rw [View.read_apply]
  show V c (Pipeline.arrRef spec1 0) _ = V c (Pipeline.arrRef spec1 0) _
  refine congrArg (V c (Pipeline.arrRef spec1 0)) (funext fun b => Fin.ext ?_)
  refine (Pipeline.Window.rect_emb_val ((cfg1 a).win 0) t _ b).trans ?_
  rw [index1_0 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index1_1 (t : Fin (cfg1 a).N) :
    ((cfg1 a).win 1).index t
      = ![((a.1 1 : IVec S32768 32) (ValueIdx.ix1 (⟨t.val, lt_of_lt_of_eq t.isLt N_0⟩ : Fin 32768))).toNat, 0, 0] := by
  refine (word1_1 a.1 (grid0.coords t)).trans ?_
  simp only [coords_val]

set_option backward.isDefEq.respectTransparency.types false in
theorem iblk1_1_row (c : Dev nD) (t : Fin (cfg1 a).N) (r : Fin 32768)
    (hr : ((a.1 1 : IVec S32768 32) (ValueIdx.ix1 (⟨t.val, lt_of_lt_of_eq t.isLt N_0⟩ : Fin 32768))).toNat = r.val) (k : Fin 256) :
    (iblk1 a V c 1 t : Vec F S1x1x256 .f32) (ValueIdx.ix3 (0 : Fin 1) (0 : Fin 1) k)
      = (V c (Pipeline.arrRef spec1 1) : Vec F S32768x1x256 .f32) (ValueIdx.ix3 r (0 : Fin 1) k) := by
  unfold iblk1
  rw [View.read_apply]
  show V c (Pipeline.arrRef spec1 1) _ = V c (Pipeline.arrRef spec1 1) _
  refine congrArg (V c (Pipeline.arrRef spec1 1)) (funext fun b => Fin.ext ?_)
  refine (Pipeline.Window.rect_emb_val ((cfg1 a).win 1) t _ b).trans ?_
  rw [index1_1 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index1_2 (t : Fin (cfg1 a).N) :
    ((cfg1 a).win 2).index t
      = ![((a.1 2 : IVec S32768 32) (ValueIdx.ix1 (⟨t.val, lt_of_lt_of_eq t.isLt N_0⟩ : Fin 32768))).toNat, 0, 0] := by
  refine (word1_2 a.1 (grid0.coords t)).trans ?_
  simp only [coords_val]

set_option backward.isDefEq.respectTransparency.types false in
theorem iblk1_2_row (c : Dev nD) (t : Fin (cfg1 a).N) (r : Fin 32768)
    (hr : ((a.1 2 : IVec S32768 32) (ValueIdx.ix1 (⟨t.val, lt_of_lt_of_eq t.isLt N_0⟩ : Fin 32768))).toNat = r.val) (k : Fin 256) :
    (iblk1 a V c 2 t : Vec F S1x1x256 .f32) (ValueIdx.ix3 (0 : Fin 1) (0 : Fin 1) k)
      = (V c (Pipeline.arrRef spec1 2) : Vec F S32768x1x256 .f32) (ValueIdx.ix3 r (0 : Fin 1) k) := by
  unfold iblk1
  rw [View.read_apply]
  show V c (Pipeline.arrRef spec1 2) _ = V c (Pipeline.arrRef spec1 2) _
  refine congrArg (V c (Pipeline.arrRef spec1 2)) (funext fun b => Fin.ext ?_)
  refine (Pipeline.Window.rect_emb_val ((cfg1 a).win 2) t _ b).trans ?_
  rw [index1_2 a t]
  match b with
  | ⟨0, _⟩ => rw [hr]; show r.val * 1 + 0 = r.val; omega
  | ⟨1, _⟩ => rfl
  | ⟨2, _⟩ => show 0 * 256 + k.val = k.val; omega

end Generic

section AtIdeal

variable (a : (pcfg1 (F := Ideal)).Adm)
variable (V : (c : Dev nD) → (b : Ref sig .tc) → Buf (Elt Ideal) ((c : Thread nD τ).loc b))

def ploss1 (c : Dev nD) (t : Fin (cfg1 a).N) : EReal :=
  Cert.Triplet.hinge (fun k => (iblk1 a V c 0 t : Vec Ideal S1x1x256 .f32) (ValueIdx.ix3 (0 : Fin 1) (0 : Fin 1) k))
    (fun k => (iblk1 a V c 1 t : Vec Ideal S1x1x256 .f32) (ValueIdx.ix3 (0 : Fin 1) (0 : Fin 1) k))
    (fun k => (iblk1 a V c 2 t : Vec Ideal S1x1x256 .f32) (ValueIdx.ix3 (0 : Fin 1) (0 : Fin 1) k))

/-- Over the extended reals the running sum after `n` points is the sum of the first `n` hinge losses. -/
theorem acc1_ideal (c : Dev nD) (n : ℕ) (hn : n ≤ (cfg1 a).N) :
    acc1 a V c n hn (ValueIdx.ix2 (0 : Fin 1) (0 : Fin 1)) = ∑ t : Fin n, ploss1 a V c ⟨t.val, lt_of_lt_of_le t.isLt hn⟩ := by
  induction n with
  | zero =>
    rw [Finset.univ_eq_empty, Finset.sum_empty]
    exact pay1_ideal
  | succ n ih =>
    rw [Fin.sum_univ_castSucc]
    refine (pay2_ideal (iblk1 a V c 0 ⟨n, hn⟩) (iblk1 a V c 1 ⟨n, hn⟩) (iblk1 a V c 2 ⟨n, hn⟩)
      (acc1 a V c n (Nat.le_of_lt hn))).trans ?_
    rw [ih (Nat.le_of_lt hn)]
    rfl

end AtIdeal

end Cert.KernelIdeal.Hand

end
-- ==== Proof.KI.Value2.lean ====
import proofs.«407368_j10496900071476_2_alg».proof.Proof.KI.LaunchP
import proofs.«407368_j10496900071476_2_alg».proof.Proof.Gen.KernelIdeal.Skeleton
import proofs.«407368_j10496900071476_2_alg».proof.Proof.KI.Oblig2
import proofs.«407368_j10496900071476_2_alg».proof.Proof.KI.Ok2
import proofs.«407368_j10496900071476_2_alg».proof.Proof.KI.Loss
import proofs.«407368_j10496900071476_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Generic

variable (a : (pcfg2 (F := F)).Adm)
variable (V : (c : Dev nD) → (b : Ref sig .tc) → Buf (Elt F) ((c : Thread nD τ).loc b))

theorem acc2_congr (c : Dev nD) {n n' : ℕ} (e : n = n') (h : n ≤ (cfg2 a).N) (h' : n' ≤ (cfg2 a).N) :
    acc2 a V c n h = acc2 a V c n' h' := by
  subst e; rfl

theorem index2_3 (t : Fin (cfg2 a).N) : ((cfg2 a).win 3).index t = ![0, 0] := by
  show cc2_transform_3 (grid0.coords t) = _
  unfold cc2_transform_3
  rfl

abbrev tlast2 : Fin (cfg2 a).N := ⟨32767, by rw [show (cfg2 a).N = 32768 from N_0]; omega⟩

theorem flushed2_3 (c : Dev nD) (t : Fin (cfg2 a).N) (hf : ((cfg2 a).win 3).flush t = true) :
    (dat2 a V c).flushed 3 t
      = (((cfg2 a).win 3).blk t).view.read (Elt F) (acc2 a V c (cfg2 a).N (le_refl _)) := by
  have hN : t.val + 1 = (cfg2 a).N := of_decide_eq_true ((flush2_3 a t).symm.trans hf)
  show ((cfg2 a).win 3).cut ((cfg2 a).grid.coords t) ((dat2 a V c).after 3 t) = _
  rw [after2_3, acc2_congr a V c hN t.isLt (le_refl _)]
  have hz' : (fun b => ((cfg2 a).win 3).index t b * main_v49.ty.shape.size b) = fun _ => 0 := by
    rw [index2_3]; funext b; fin_cases b <;> rfl
  exact (Memref.read_access_unit_zero (Elt F) main_v49 hz' (fun b => by rw [congrFun hz' b]; simp) _).symm

/-- The output array ends holding the running sum after all the points. -/
theorem arrAt2_out (c : Dev nD) : (dat2 a V c).arrAt 3 (cfg2 a).N = acc2 a V c (cfg2 a).N (le_refl _) :=
  (dat2 a V c).arrAt_eq_of_cover 3 (acc2 a V c (cfg2 a).N (le_refl _)) (flushed2_3 a V c) fun i =>
    ⟨tlast2 a, (flush2_3 a (tlast2 a)).trans (decide_eq_true (show 32767 + 1 = grid0.N by rw [N_0])),
      mem_block main_v49 i _ (fun b => by
        show ((cfg2 a).win 3).index (tlast2 a) b * ((cfg2 a).win 3).size b = 0
        rw [index2_3]; fin_cases b <;> rfl) (fun b => rfl)⟩

set_option backward.isDefEq.respectTransparency.types false in
theorem index2_0 (t : Fin (cfg2 a).N) :
    ((cfg2 a).win 0).index t
      = ![((a.1 0 : IVec S32768 32) (ValueIdx.ix1 (⟨t.val, lt_of_lt_of_eq t.isLt N_0⟩ : Fin 32768))).toNat, 0, 0] := by
  refine (word2_0 a.1 (grid0.coords t)).trans ?_
  simp only [coords_val]

set_option backward.isDefEq.respectTransparency.types false in
theorem iblk2_0_row (c : Dev nD) (t : Fin (cfg2 a).N) (r : Fin 32768)
    (hr : ((a.1 0 : IVec S32768 32) (ValueIdx.ix1 (⟨t.val, lt_of_lt_of_eq t.isLt N_0⟩ : Fin 32768))).toNat = r.val) (k : Fin 256) :
    (iblk2 a V c 0 t : Vec F S1x1x256 .f32) (ValueIdx.ix3 (0 : Fin 1) (0 : Fin 1) k)
      = (V c (Pipeline.arrRef spec2 0) : Vec F S32768x1x256 .f32) (ValueIdx.ix3 r (0 : Fin 1) k) := by
  unfold iblk2
  rw [View.read_apply]
  show V c (Pipeline.arrRef spec2 0) _ = V c (Pipeline.arrRef spec2 0) _
  refine congrArg (V c (Pipeline.arrRef spec2 0)) (funext fun b => Fin.ext ?_)
  refine (Pipeline.Window.rect_emb_val ((cfg2 a).win 0) t _ b).trans ?_
  rw [index2_0 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index2_1 (t : Fin (cfg2 a).N) :
    ((cfg2 a).win 1).index t
      = ![((a.1 1 : IVec S32768 32) (ValueIdx.ix1 (⟨t.val, lt_of_lt_of_eq t.isLt N_0⟩ : Fin 32768))).toNat, 0, 0] := by
  refine (word2_1 a.1 (grid0.coords t)).trans ?_
  simp only [coords_val]

set_option backward.isDefEq.respectTransparency.types false in
theorem iblk2_1_row (c : Dev nD) (t : Fin (cfg2 a).N) (r : Fin 32768)
    (hr : ((a.1 1 : IVec S32768 32) (ValueIdx.ix1 (⟨t.val, lt_of_lt_of_eq t.isLt N_0⟩ : Fin 32768))).toNat = r.val) (k : Fin 256) :
    (iblk2 a V c 1 t : Vec F S1x1x256 .f32) (ValueIdx.ix3 (0 : Fin 1) (0 : Fin 1) k)
      = (V c (Pipeline.arrRef spec2 1) : Vec F S32768x1x256 .f32) (ValueIdx.ix3 r (0 : Fin 1) k) := by
  unfold iblk2
  rw [View.read_apply]
  show V c (Pipeline.arrRef spec2 1) _ = V c (Pipeline.arrRef spec2 1) _
  refine congrArg (V c (Pipeline.arrRef spec2 1)) (funext fun b => Fin.ext ?_)
  refine (Pipeline.Window.rect_emb_val ((cfg2 a).win 1) t _ b).trans ?_
  rw [index2_1 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index2_2 (t : Fin (cfg2 a).N) :
    ((cfg2 a).win 2).index t
      = ![((a.1 2 : IVec S32768 32) (ValueIdx.ix1 (⟨t.val, lt_of_lt_of_eq t.isLt N_0⟩ : Fin 32768))).toNat, 0, 0] := by
  refine (word2_2 a.1 (grid0.coords t)).trans ?_
  simp only [coords_val]

set_option backward.isDefEq.respectTransparency.types false in
theorem iblk2_2_row (c : Dev nD) (t : Fin (cfg2 a).N) (r : Fin 32768)
    (hr : ((a.1 2 : IVec S32768 32) (ValueIdx.ix1 (⟨t.val, lt_of_lt_of_eq t.isLt N_0⟩ : Fin 32768))).toNat = r.val) (k : Fin 256) :
    (iblk2 a V c 2 t : Vec F S1x1x256 .f32) (ValueIdx.ix3 (0 : Fin 1) (0 : Fin 1) k)
      = (V c (Pipeline.arrRef spec2 2) : Vec F S32768x1x256 .f32) (ValueIdx.ix3 r (0 : Fin 1) k) := by
  unfold iblk2
  rw [View.read_apply]
  show V c (Pipeline.arrRef spec2 2) _ = V c (Pipeline.arrRef spec2 2) _
  refine congrArg (V c (Pipeline.arrRef spec2 2)) (funext fun b => Fin.ext ?_)
  refine (Pipeline.Window.rect_emb_val ((cfg2 a).win 2) t _ b).trans ?_
  rw [index2_2 a t]
  match b with
  | ⟨0, _⟩ => rw [hr]; show r.val * 1 + 0 = r.val; omega
  | ⟨1, _⟩ => rfl
  | ⟨2, _⟩ => show 0 * 256 + k.val = k.val; omega

end Generic

section AtIdeal

variable (a : (pcfg2 (F := Ideal)).Adm)
variable (V : (c : Dev nD) → (b : Ref sig .tc) → Buf (Elt Ideal) ((c : Thread nD τ).loc b))

def ploss2 (c : Dev nD) (t : Fin (cfg2 a).N) : EReal :=
  Cert.Triplet.hinge (fun k => (iblk2 a V c 0 t : Vec Ideal S1x1x256 .f32) (ValueIdx.ix3 (0 : Fin 1) (0 : Fin 1) k))
    (fun k => (iblk2 a V c 1 t : Vec Ideal S1x1x256 .f32) (ValueIdx.ix3 (0 : Fin 1) (0 : Fin 1) k))
    (fun k => (iblk2 a V c 2 t : Vec Ideal S1x1x256 .f32) (ValueIdx.ix3 (0 : Fin 1) (0 : Fin 1) k))

/-- Over the extended reals the running sum after `n` points is the sum of the first `n` hinge losses. -/
theorem acc2_ideal (c : Dev nD) (n : ℕ) (hn : n ≤ (cfg2 a).N) :
    acc2 a V c n hn (ValueIdx.ix2 (0 : Fin 1) (0 : Fin 1)) = ∑ t : Fin n, ploss2 a V c ⟨t.val, lt_of_lt_of_le t.isLt hn⟩ := by
  induction n with
  | zero =>
    rw [Finset.univ_eq_empty, Finset.sum_empty]
    exact pay1_ideal
  | succ n ih =>
    rw [Fin.sum_univ_castSucc]
    refine (pay2_ideal (iblk2 a V c 0 ⟨n, hn⟩) (iblk2 a V c 1 ⟨n, hn⟩) (iblk2 a V c 2 ⟨n, hn⟩)
      (acc2 a V c n (Nat.le_of_lt hn))).trans ?_
    rw [ih (Nat.le_of_lt hn)]
    rfl

end AtIdeal

end Cert.KernelIdeal.Hand

end
-- ==== Proof.KI.Value3.lean ====
import proofs.«407368_j10496900071476_2_alg».proof.Proof.KI.LaunchP
import proofs.«407368_j10496900071476_2_alg».proof.Proof.Gen.KernelIdeal.Skeleton
import proofs.«407368_j10496900071476_2_alg».proof.Proof.KI.Oblig3
import proofs.«407368_j10496900071476_2_alg».proof.Proof.KI.Ok3
import proofs.«407368_j10496900071476_2_alg».proof.Proof.KI.Loss
import proofs.«407368_j10496900071476_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Generic

variable (a : (pcfg3 (F := F)).Adm)
variable (V : (c : Dev nD) → (b : Ref sig .tc) → Buf (Elt F) ((c : Thread nD τ).loc b))

theorem acc3_congr (c : Dev nD) {n n' : ℕ} (e : n = n') (h : n ≤ (cfg3 a).N) (h' : n' ≤ (cfg3 a).N) :
    acc3 a V c n h = acc3 a V c n' h' := by
  subst e; rfl

theorem index3_3 (t : Fin (cfg3 a).N) : ((cfg3 a).win 3).index t = ![0, 0] := by
  show cc3_transform_3 (grid0.coords t) = _
  unfold cc3_transform_3
  rfl

abbrev tlast3 : Fin (cfg3 a).N := ⟨32767, by rw [show (cfg3 a).N = 32768 from N_0]; omega⟩

theorem flushed3_3 (c : Dev nD) (t : Fin (cfg3 a).N) (hf : ((cfg3 a).win 3).flush t = true) :
    (dat3 a V c).flushed 3 t
      = (((cfg3 a).win 3).blk t).view.read (Elt F) (acc3 a V c (cfg3 a).N (le_refl _)) := by
  have hN : t.val + 1 = (cfg3 a).N := of_decide_eq_true ((flush3_3 a t).symm.trans hf)
  show ((cfg3 a).win 3).cut ((cfg3 a).grid.coords t) ((dat3 a V c).after 3 t) = _
  rw [after3_3, acc3_congr a V c hN t.isLt (le_refl _)]
  have hz' : (fun b => ((cfg3 a).win 3).index t b * main_v55.ty.shape.size b) = fun _ => 0 := by
    rw [index3_3]; funext b; fin_cases b <;> rfl
  exact (Memref.read_access_unit_zero (Elt F) main_v55 hz' (fun b => by rw [congrFun hz' b]; simp) _).symm

/-- The output array ends holding the running sum after all the points. -/
theorem arrAt3_out (c : Dev nD) : (dat3 a V c).arrAt 3 (cfg3 a).N = acc3 a V c (cfg3 a).N (le_refl _) :=
  (dat3 a V c).arrAt_eq_of_cover 3 (acc3 a V c (cfg3 a).N (le_refl _)) (flushed3_3 a V c) fun i =>
    ⟨tlast3 a, (flush3_3 a (tlast3 a)).trans (decide_eq_true (show 32767 + 1 = grid0.N by rw [N_0])),
      mem_block main_v55 i _ (fun b => by
        show ((cfg3 a).win 3).index (tlast3 a) b * ((cfg3 a).win 3).size b = 0
        rw [index3_3]; fin_cases b <;> rfl) (fun b => rfl)⟩

set_option backward.isDefEq.respectTransparency.types false in
theorem index3_0 (t : Fin (cfg3 a).N) :
    ((cfg3 a).win 0).index t
      = ![((a.1 0 : IVec S32768 32) (ValueIdx.ix1 (⟨t.val, lt_of_lt_of_eq t.isLt N_0⟩ : Fin 32768))).toNat, 0, 0] := by
  refine (word3_0 a.1 (grid0.coords t)).trans ?_
  simp only [coords_val]

set_option backward.isDefEq.respectTransparency.types false in
theorem iblk3_0_row (c : Dev nD) (t : Fin (cfg3 a).N) (r : Fin 32768)
    (hr : ((a.1 0 : IVec S32768 32) (ValueIdx.ix1 (⟨t.val, lt_of_lt_of_eq t.isLt N_0⟩ : Fin 32768))).toNat = r.val) (k : Fin 256) :
    (iblk3 a V c 0 t : Vec F S1x1x256 .f32) (ValueIdx.ix3 (0 : Fin 1) (0 : Fin 1) k)
      = (V c (Pipeline.arrRef spec3 0) : Vec F S32768x1x256 .f32) (ValueIdx.ix3 r (0 : Fin 1) k) := by
  unfold iblk3
  rw [View.read_apply]
  show V c (Pipeline.arrRef spec3 0) _ = V c (Pipeline.arrRef spec3 0) _
  refine congrArg (V c (Pipeline.arrRef spec3 0)) (funext fun b => Fin.ext ?_)
  refine (Pipeline.Window.rect_emb_val ((cfg3 a).win 0) t _ b).trans ?_
  rw [index3_0 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index3_1 (t : Fin (cfg3 a).N) :
    ((cfg3 a).win 1).index t
      = ![((a.1 1 : IVec S32768 32) (ValueIdx.ix1 (⟨t.val, lt_of_lt_of_eq t.isLt N_0⟩ : Fin 32768))).toNat, 0, 0] := by
  refine (word3_1 a.1 (grid0.coords t)).trans ?_
  simp only [coords_val]

set_option backward.isDefEq.respectTransparency.types false in
theorem iblk3_1_row (c : Dev nD) (t : Fin (cfg3 a).N) (r : Fin 32768)
    (hr : ((a.1 1 : IVec S32768 32) (ValueIdx.ix1 (⟨t.val, lt_of_lt_of_eq t.isLt N_0⟩ : Fin 32768))).toNat = r.val) (k : Fin 256) :
    (iblk3 a V c 1 t : Vec F S1x1x256 .f32) (ValueIdx.ix3 (0 : Fin 1) (0 : Fin 1) k)
      = (V c (Pipeline.arrRef spec3 1) : Vec F S32768x1x256 .f32) (ValueIdx.ix3 r (0 : Fin 1) k) := by
  unfold iblk3
  rw [View.read_apply]
  show V c (Pipeline.arrRef spec3 1) _ = V c (Pipeline.arrRef spec3 1) _
  refine congrArg (V c (Pipeline.arrRef spec3 1)) (funext fun b => Fin.ext ?_)
  refine (Pipeline.Window.rect_emb_val ((cfg3 a).win 1) t _ b).trans ?_
  rw [index3_1 a t]
  match b with
  | ⟨0, _⟩ => rw [hr]; show r.val * 1 + 0 = r.val; omega
  | ⟨1, _⟩ => rfl
  | ⟨2, _⟩ => show 0 * 256 + k.val = k.val; omega

set_option backward.isDefEq.respectTransparency.types false in
theorem index3_2 (t : Fin (cfg3 a).N) :
    ((cfg3 a).win 2).index t
      = ![((a.1 2 : IVec S32768 32) (ValueIdx.ix1 (⟨t.val, lt_of_lt_of_eq t.isLt N_0⟩ : Fin 32768))).toNat, 0, 0] := by
  refine (word3_2 a.1 (grid0.coords t)).trans ?_
  simp only [coords_val]

set_option backward.isDefEq.respectTransparency.types false in
theorem iblk3_2_row (c : Dev nD) (t : Fin (cfg3 a).N) (r : Fin 32768)
    (hr : ((a.1 2 : IVec S32768 32) (ValueIdx.ix1 (⟨t.val, lt_of_lt_of_eq t.isLt N_0⟩ : Fin 32768))).toNat = r.val) (k : Fin 256) :
    (iblk3 a V c 2 t : Vec F S1x1x256 .f32) (ValueIdx.ix3 (0 : Fin 1) (0 : Fin 1) k)
      = (V c (Pipeline.arrRef spec3 2) : Vec F S32768x1x256 .f32) (ValueIdx.ix3 r (0 : Fin 1) k) := by
  unfold iblk3
  rw [View.read_apply]
  show V c (Pipeline.arrRef spec3 2) _ = V c (Pipeline.arrRef spec3 2) _
  refine congrArg (V c (Pipeline.arrRef spec3 2)) (funext fun b => Fin.ext ?_)
  refine (Pipeline.Window.rect_emb_val ((cfg3 a).win 2) t _ b).trans ?_
  rw [index3_2 a t]
  match b with
  | ⟨0, _⟩ => rw [hr]; show r.val * 1 + 0 = r.val; omega
  | ⟨1, _⟩ => rfl
  | ⟨2, _⟩ => show 0 * 256 + k.val = k.val; omega

end Generic

section AtIdeal

variable (a : (pcfg3 (F := Ideal)).Adm)
variable (V : (c : Dev nD) → (b : Ref sig .tc) → Buf (Elt Ideal) ((c : Thread nD τ).loc b))

def ploss3 (c : Dev nD) (t : Fin (cfg3 a).N) : EReal :=
  Cert.Triplet.hinge (fun k => (iblk3 a V c 0 t : Vec Ideal S1x1x256 .f32) (ValueIdx.ix3 (0 : Fin 1) (0 : Fin 1) k))
    (fun k => (iblk3 a V c 1 t : Vec Ideal S1x1x256 .f32) (ValueIdx.ix3 (0 : Fin 1) (0 : Fin 1) k))
    (fun k => (iblk3 a V c 2 t : Vec Ideal S1x1x256 .f32) (ValueIdx.ix3 (0 : Fin 1) (0 : Fin 1) k))

/-- Over the extended reals the running sum after `n` points is the sum of the first `n` hinge losses. -/
theorem acc3_ideal (c : Dev nD) (n : ℕ) (hn : n ≤ (cfg3 a).N) :
    acc3 a V c n hn (ValueIdx.ix2 (0 : Fin 1) (0 : Fin 1)) = ∑ t : Fin n, ploss3 a V c ⟨t.val, lt_of_lt_of_le t.isLt hn⟩ := by
  induction n with
  | zero =>
    rw [Finset.univ_eq_empty, Finset.sum_empty]
    exact pay1_ideal
  | succ n ih =>
    rw [Fin.sum_univ_castSucc]
    refine (pay2_ideal (iblk3 a V c 0 ⟨n, hn⟩) (iblk3 a V c 1 ⟨n, hn⟩) (iblk3 a V c 2 ⟨n, hn⟩)
      (acc3 a V c n (Nat.le_of_lt hn))).trans ?_
    rw [ih (Nat.le_of_lt hn)]
    rfl

end AtIdeal

end Cert.KernelIdeal.Hand

end
-- ==== Proof.KI.Bridge.lean ====
import proofs.«407368_j10496900071476_2_alg».proof.Proof.KI.LaunchP
import proofs.«407368_j10496900071476_2_alg».proof.Proof.Gen.KernelIdeal.Skeleton
import proofs.«407368_j10496900071476_2_alg».proof.Proof.KI.Family
import proofs.«407368_j10496900071476_2_alg».proof.Proof.KI.Tables
import proofs.«407368_j10496900071476_2_alg».proof.Proof.KI.TblRows
import proofs.«407368_j10496900071476_2_alg».proof.Proof.KI.Value0
import proofs.«407368_j10496900071476_2_alg».proof.Proof.KI.Value1
import proofs.«407368_j10496900071476_2_alg».proof.Proof.KI.Value2
import proofs.«407368_j10496900071476_2_alg».proof.Proof.KI.Value3
import proofs.«407368_j10496900071476_2_alg».proof.Proof.Spec
import Idealize.ShloMosaic.Lib.ValueIdx
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

open Cert.Triplet

theorem featRow (x : FVec Ideal S8x256x64x64 .f32) (b r q : BitVec 32) (hb : b.toNat < 8) (hr : r.toNat < 64)
    (hq : q.toNat < 64) (R : Fin 32768) (hR : R.val = b.toNat * 4096 + r.toNat * 64 + q.toNat) (k : Fin 256) :
    featTable x (ValueIdx.ix3 R (0 : Fin 1) k) = feat x (dec8 b) (dec64 r) (dec64 q) k := by
  have hlt : (dec8 b).val * 4096 + (dec64 r).val * 64 + (dec64 q).val < 32768 := by
    have := (dec8 b).isLt; have := (dec64 r).isLt; have := (dec64 q).isLt; omega
  have e : R = ⟨(dec8 b).val * 4096 + (dec64 r).val * 64 + (dec64 q).val, hlt⟩ := by
    refine Fin.ext ?_
    show R.val = (dec8 b).val * 4096 + (dec64 r).val * 64 + (dec64 q).val
    rw [dec8_val hb, dec64_val hr, dec64_val hq]
    exact hR
  rw [e]
  exact featTable_apply x (dec8 b) (dec64 r) (dec64 q) k

theorem row_toNat {w : BitVec 32} {b : IVec S131072 32} {yx : IVec S131072x2 32} {i : Fin 131072}
    (e : w = rowTable b yx (ValueIdx.ix1 i)) (hb : (b (ValueIdx.ix1 i)).toNat < 8)
    (h0 : (yx (ValueIdx.ix2 i 0)).toNat < 64) (h1 : (yx (ValueIdx.ix2 i 1)).toNat < 64) :
    w.toNat = (b (ValueIdx.ix1 i)).toNat * 4096 + (yx (ValueIdx.ix2 i 0)).toNat * 64 + (yx (ValueIdx.ix2 i 1)).toNat :=
  e ▸ rowTable_toNat b yx i hb h0 h1

/-- Three blocks that are the rows of the feature tables named by three row numbers of one batch word and three
    positions: their hinge is the specification's hinge of the three channel vectors. -/
theorem hinge_of_rows (x y : FVec Ideal S8x256x64x64 .f32) (b0 b1 b2 : Vec Ideal S1x1x256 .f32)
    (w0 w1 w2 bw a0 a1 p0 p1 n0 n1 : BitVec 32) (hb : bw.toNat < 8) (ha0 : a0.toNat < 64) (ha1 : a1.toNat < 64)
    (hp0 : p0.toNat < 64) (hp1 : p1.toNat < 64) (hn0 : n0.toNat < 64) (hn1 : n1.toNat < 64)
    (h0 : w0.toNat = bw.toNat * 4096 + a0.toNat * 64 + a1.toNat) (h1 : w1.toNat = bw.toNat * 4096 + p0.toNat * 64 + p1.toNat)
    (h2 : w2.toNat = bw.toNat * 4096 + n0.toNat * 64 + n1.toNat)
    (e0 : ∀ r : Fin 32768, w0.toNat = r.val → ∀ k, b0 (ValueIdx.ix3 (0 : Fin 1) (0 : Fin 1) k) = featTable x (ValueIdx.ix3 r (0 : Fin 1) k))
    (e1 : ∀ r : Fin 32768, w1.toNat = r.val → ∀ k, b1 (ValueIdx.ix3 (0 : Fin 1) (0 : Fin 1) k) = featTable y (ValueIdx.ix3 r (0 : Fin 1) k))
    (e2 : ∀ r : Fin 32768, w2.toNat = r.val → ∀ k, b2 (ValueIdx.ix3 (0 : Fin 1) (0 : Fin 1) k) = featTable y (ValueIdx.ix3 r (0 : Fin 1) k)) :
    hinge (fun k => b0 (ValueIdx.ix3 (0 : Fin 1) (0 : Fin 1) k)) (fun k => b1 (ValueIdx.ix3 (0 : Fin 1) (0 : Fin 1) k))
        (fun k => b2 (ValueIdx.ix3 (0 : Fin 1) (0 : Fin 1) k))
      = hinge (feat x (dec8 bw) (dec64 a0) (dec64 a1)) (feat y (dec8 bw) (dec64 p0) (dec64 p1)) (feat y (dec8 bw) (dec64 n0) (dec64 n1)) := by
  rw [show (fun k => b0 (ValueIdx.ix3 (0 : Fin 1) (0 : Fin 1) k)) = feat x (dec8 bw) (dec64 a0) (dec64 a1) from funext fun k =>
      (e0 ⟨w0.toNat, by rw [h0]; omega⟩ rfl k).trans (featRow x bw a0 a1 hb ha0 ha1 _ h0 k),
    show (fun k => b1 (ValueIdx.ix3 (0 : Fin 1) (0 : Fin 1) k)) = feat y (dec8 bw) (dec64 p0) (dec64 p1) from funext fun k =>
      (e1 ⟨w1.toNat, by rw [h1]; omega⟩ rfl k).trans (featRow y bw p0 p1 hb hp0 hp1 _ h1 k),
    show (fun k => b2 (ValueIdx.ix3 (0 : Fin 1) (0 : Fin 1) k)) = feat y (dec8 bw) (dec64 n0) (dec64 n1) from funext fun k =>
      (e2 ⟨w2.toNat, by rw [h2]; omega⟩ rfl k).trans (featRow y bw n0 n1 hb hn0 hn1 _ h2 k)]

theorem out0_sum (h : Cert.Triplet.InRange (bi m) (ayx m) (pyx m) (nyx m)) (hO : Oks m) (c : Dev nD) :
    (out0 m hO c : Vec Ideal S1x1 .f32) (ValueIdx.ix2 (0 : Fin 1) (0 : Fin 1))
      = ∑ t : Fin 32768, Cert.Triplet.lossAt (m (((0 : Dev nD) : Thread nD τ).loc main_arg0))
          (m (((0 : Dev nD) : Thread nD τ).loc main_arg1)) (bi m) (ayx m) (pyx m) (nyx m) ⟨t.val, by omega⟩ := by
  obtain rfl : c = 0 := Subsingleton.elim _ _
  have hN : (cfg0 (adm0 m hO)).N = 32768 := N_0
  unfold out0
  rw [arrAt0_out]
  refine (acc0_ideal (adm0 m hO) (W1 m) 0 (cfg0 (adm0 m hO)).N (le_refl _)).trans ?_
  refine Eq.trans ?_ (Fin.sum_congr' (fun t : Fin 32768 => Cert.Triplet.lossAt (m (((0 : Dev nD) : Thread nD τ).loc main_arg0))
          (m (((0 : Dev nD) : Thread nD τ).loc main_arg1)) (bi m) (ayx m) (pyx m) (nyx m) ⟨t.val, by omega⟩) hN)
  refine Finset.sum_congr rfl fun t _ => ?_
  have hi : (⟨32768 * 0 + t.val, by have := t.isLt; omega⟩ : Fin 131072) = ⟨t.val, by have := t.isLt; omega⟩ :=
    Fin.ext (by show 32768 * 0 + t.val = t.val; omega)
  refine Eq.trans ?_ (congrArg (fun i => Cert.Triplet.lossAt (m (((0 : Dev nD) : Thread nD τ).loc main_arg0))
    (m (((0 : Dev nD) : Thread nD τ).loc main_arg1)) (bi m) (ayx m) (pyx m) (nyx m) i) hi)
  unfold ploss0
  exact hinge_of_rows _ _ _ _ _ _ _ _ _ _ _ _ _ _ _ (h.b _) (h.a _ 0) (h.a _ 1) (h.p _ 0) (h.p _ 1) (h.n _ 0) (h.n _ 1)
    (row_toNat (tbl0_0 m ⟨t.val, lt_of_lt_of_eq t.isLt hN⟩) (h.b _) (h.a _ 0) (h.a _ 1)) (row_toNat (tbl0_1 m ⟨t.val, lt_of_lt_of_eq t.isLt hN⟩) (h.b _) (h.p _ 0) (h.p _ 1))
    (row_toNat (tbl0_2 m ⟨t.val, lt_of_lt_of_eq t.isLt hN⟩) (h.b _) (h.n _ 0) (h.n _ 1))
    (fun r hr k => (iblk0_0_row (adm0 m hO) (W1 m) 0 ⟨t.val, _⟩ r hr k).trans (congrFun (V1_main_v1 m 0) _))
    (fun r hr k => (iblk0_1_row (adm0 m hO) (W1 m) 0 ⟨t.val, _⟩ r hr k).trans (congrFun (V1_main_v3 m 0) _))
    (fun r hr k => (iblk0_2_row (adm0 m hO) (W1 m) 0 ⟨t.val, _⟩ r hr k).trans (congrFun (V1_main_v3 m 0) _))

theorem out1_sum (h : Cert.Triplet.InRange (bi m) (ayx m) (pyx m) (nyx m)) (hO : Oks m) (c : Dev nD) :
    (out1 m hO c : Vec Ideal S1x1 .f32) (ValueIdx.ix2 (0 : Fin 1) (0 : Fin 1))
      = ∑ t : Fin 32768, Cert.Triplet.lossAt (m (((0 : Dev nD) : Thread nD τ).loc main_arg0))
          (m (((0 : Dev nD) : Thread nD τ).loc main_arg1)) (bi m) (ayx m) (pyx m) (nyx m) ⟨32768 + t.val, by omega⟩ := by
  obtain rfl : c = 0 := Subsingleton.elim _ _
  have hN : (cfg1 (adm1 m hO)).N = 32768 := N_1
  unfold out1
  rw [arrAt1_out]
  refine (acc1_ideal (adm1 m hO) (W1 m) 0 (cfg1 (adm1 m hO)).N (le_refl _)).trans ?_
  refine Eq.trans ?_ (Fin.sum_congr' (fun t : Fin 32768 => Cert.Triplet.lossAt (m (((0 : Dev nD) : Thread nD τ).loc main_arg0))
          (m (((0 : Dev nD) : Thread nD τ).loc main_arg1)) (bi m) (ayx m) (pyx m) (nyx m) ⟨32768 + t.val, by omega⟩) hN)
  refine Finset.sum_congr rfl fun t _ => ?_
  have hi : (⟨32768 * 1 + t.val, by have := t.isLt; omega⟩ : Fin 131072) = ⟨32768 + t.val, by have := t.isLt; omega⟩ :=
    Fin.ext (by show 32768 * 1 + t.val = 32768 + t.val; omega)
  refine Eq.trans ?_ (congrArg (fun i => Cert.Triplet.lossAt (m (((0 : Dev nD) : Thread nD τ).loc main_arg0))
    (m (((0 : Dev nD) : Thread nD τ).loc main_arg1)) (bi m) (ayx m) (pyx m) (nyx m) i) hi)
  unfold ploss1
  exact hinge_of_rows _ _ _ _ _ _ _ _ _ _ _ _ _ _ _ (h.b _) (h.a _ 0) (h.a _ 1) (h.p _ 0) (h.p _ 1) (h.n _ 0) (h.n _ 1)
    (row_toNat (tbl1_0 m ⟨t.val, lt_of_lt_of_eq t.isLt hN⟩) (h.b _) (h.a _ 0) (h.a _ 1)) (row_toNat (tbl1_1 m ⟨t.val, lt_of_lt_of_eq t.isLt hN⟩) (h.b _) (h.p _ 0) (h.p _ 1))
    (row_toNat (tbl1_2 m ⟨t.val, lt_of_lt_of_eq t.isLt hN⟩) (h.b _) (h.n _ 0) (h.n _ 1))
    (fun r hr k => (iblk1_0_row (adm1 m hO) (W1 m) 0 ⟨t.val, _⟩ r hr k).trans (congrFun (V1_main_v1 m 0) _))
    (fun r hr k => (iblk1_1_row (adm1 m hO) (W1 m) 0 ⟨t.val, _⟩ r hr k).trans (congrFun (V1_main_v3 m 0) _))
    (fun r hr k => (iblk1_2_row (adm1 m hO) (W1 m) 0 ⟨t.val, _⟩ r hr k).trans (congrFun (V1_main_v3 m 0) _))

theorem out2_sum (h : Cert.Triplet.InRange (bi m) (ayx m) (pyx m) (nyx m)) (hO : Oks m) (c : Dev nD) :
    (out2 m hO c : Vec Ideal S1x1 .f32) (ValueIdx.ix2 (0 : Fin 1) (0 : Fin 1))
      = ∑ t : Fin 32768, Cert.Triplet.lossAt (m (((0 : Dev nD) : Thread nD τ).loc main_arg0))
          (m (((0 : Dev nD) : Thread nD τ).loc main_arg1)) (bi m) (ayx m) (pyx m) (nyx m) ⟨65536 + t.val, by omega⟩ := by
  obtain rfl : c = 0 := Subsingleton.elim _ _
  have hN : (cfg2 (adm2 m hO)).N = 32768 := N_2
  unfold out2
  rw [arrAt2_out]
  refine (acc2_ideal (adm2 m hO) (W1 m) 0 (cfg2 (adm2 m hO)).N (le_refl _)).trans ?_
  refine Eq.trans ?_ (Fin.sum_congr' (fun t : Fin 32768 => Cert.Triplet.lossAt (m (((0 : Dev nD) : Thread nD τ).loc main_arg0))
          (m (((0 : Dev nD) : Thread nD τ).loc main_arg1)) (bi m) (ayx m) (pyx m) (nyx m) ⟨65536 + t.val, by omega⟩) hN)
  refine Finset.sum_congr rfl fun t _ => ?_
  have hi : (⟨32768 * 2 + t.val, by have := t.isLt; omega⟩ : Fin 131072) = ⟨65536 + t.val, by have := t.isLt; omega⟩ :=
    Fin.ext (by show 32768 * 2 + t.val = 65536 + t.val; omega)
  refine Eq.trans ?_ (congrArg (fun i => Cert.Triplet.lossAt (m (((0 : Dev nD) : Thread nD τ).loc main_arg0))
    (m (((0 : Dev nD) : Thread nD τ).loc main_arg1)) (bi m) (ayx m) (pyx m) (nyx m) i) hi)
  unfold ploss2
  exact hinge_of_rows _ _ _ _ _ _ _ _ _ _ _ _ _ _ _ (h.b _) (h.a _ 0) (h.a _ 1) (h.p _ 0) (h.p _ 1) (h.n _ 0) (h.n _ 1)
    (row_toNat (tbl2_0 m ⟨t.val, lt_of_lt_of_eq t.isLt hN⟩) (h.b _) (h.a _ 0) (h.a _ 1)) (row_toNat (tbl2_1 m ⟨t.val, lt_of_lt_of_eq t.isLt hN⟩) (h.b _) (h.p _ 0) (h.p _ 1))
    (row_toNat (tbl2_2 m ⟨t.val, lt_of_lt_of_eq t.isLt hN⟩) (h.b _) (h.n _ 0) (h.n _ 1))
    (fun r hr k => (iblk2_0_row (adm2 m hO) (W1 m) 0 ⟨t.val, _⟩ r hr k).trans (congrFun (V1_main_v1 m 0) _))
    (fun r hr k => (iblk2_1_row (adm2 m hO) (W1 m) 0 ⟨t.val, _⟩ r hr k).trans (congrFun (V1_main_v3 m 0) _))
    (fun r hr k => (iblk2_2_row (adm2 m hO) (W1 m) 0 ⟨t.val, _⟩ r hr k).trans (congrFun (V1_main_v3 m 0) _))

theorem out3_sum (h : Cert.Triplet.InRange (bi m) (ayx m) (pyx m) (nyx m)) (hO : Oks m) (c : Dev nD) :
    (out3 m hO c : Vec Ideal S1x1 .f32) (ValueIdx.ix2 (0 : Fin 1) (0 : Fin 1))
      = ∑ t : Fin 32768, Cert.Triplet.lossAt (m (((0 : Dev nD) : Thread nD τ).loc main_arg0))
          (m (((0 : Dev nD) : Thread nD τ).loc main_arg1)) (bi m) (ayx m) (pyx m) (nyx m) ⟨98304 + t.val, by omega⟩ := by
  obtain rfl : c = 0 := Subsingleton.elim _ _
  have hN : (cfg3 (adm3 m hO)).N = 32768 := N_3
  unfold out3
  rw [arrAt3_out]
  refine (acc3_ideal (adm3 m hO) (W1 m) 0 (cfg3 (adm3 m hO)).N (le_refl _)).trans ?_
  refine Eq.trans ?_ (Fin.sum_congr' (fun t : Fin 32768 => Cert.Triplet.lossAt (m (((0 : Dev nD) : Thread nD τ).loc main_arg0))
          (m (((0 : Dev nD) : Thread nD τ).loc main_arg1)) (bi m) (ayx m) (pyx m) (nyx m) ⟨98304 + t.val, by omega⟩) hN)
  refine Finset.sum_congr rfl fun t _ => ?_
  have hi : (⟨32768 * 3 + t.val, by have := t.isLt; omega⟩ : Fin 131072) = ⟨98304 + t.val, by have := t.isLt; omega⟩ :=
    Fin.ext (by show 32768 * 3 + t.val = 98304 + t.val; omega)
  refine Eq.trans ?_ (congrArg (fun i => Cert.Triplet.lossAt (m (((0 : Dev nD) : Thread nD τ).loc main_arg0))
    (m (((0 : Dev nD) : Thread nD τ).loc main_arg1)) (bi m) (ayx m) (pyx m) (nyx m) i) hi)
  unfold ploss3
  exact hinge_of_rows _ _ _ _ _ _ _ _ _ _ _ _ _ _ _ (h.b _) (h.a _ 0) (h.a _ 1) (h.p _ 0) (h.p _ 1) (h.n _ 0) (h.n _ 1)
    (row_toNat (tbl3_0 m ⟨t.val, lt_of_lt_of_eq t.isLt hN⟩) (h.b _) (h.a _ 0) (h.a _ 1)) (row_toNat (tbl3_1 m ⟨t.val, lt_of_lt_of_eq t.isLt hN⟩) (h.b _) (h.p _ 0) (h.p _ 1))
    (row_toNat (tbl3_2 m ⟨t.val, lt_of_lt_of_eq t.isLt hN⟩) (h.b _) (h.n _ 0) (h.n _ 1))
    (fun r hr k => (iblk3_0_row (adm3 m hO) (W1 m) 0 ⟨t.val, _⟩ r hr k).trans (congrFun (V1_main_v1 m 0) _))
    (fun r hr k => (iblk3_1_row (adm3 m hO) (W1 m) 0 ⟨t.val, _⟩ r hr k).trans (congrFun (V1_main_v3 m 0) _))
    (fun r hr k => (iblk3_2_row (adm3 m hO) (W1 m) 0 ⟨t.val, _⟩ r hr k).trans (congrFun (V1_main_v3 m 0) _))

end Cert.KernelIdeal.Hand

end
-- ==== Proof.KI.Final.lean ====
import proofs.«407368_j10496900071476_2_alg».proof.Proof.KI.LaunchP
import proofs.«407368_j10496900071476_2_alg».proof.Proof.Gen.KernelIdeal.Skeleton
import proofs.«407368_j10496900071476_2_alg».proof.Proof.KI.ChainT
import proofs.«407368_j10496900071476_2_alg».proof.Proof.Spec
import Mathlib.Algebra.BigOperators.Fin
import Idealize.ShloMosaic.Lib.StableHlo.Run
import Idealize.ShloMosaic.Lib.ValueIdx
import Idealize.ShloMosaic.PureOps.Ideal.Laws
import Idealize.ShloMosaic.Lib.Pipeline.Value
import Idealize.ShloMosaic.Lib.ValueLayout
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

theorem sum1 (V : Valuation τ sig (Elt F)) :
    StableHlo.after hostOps1 V (Proc.devRef .tc main_v39)
      = (addf (constant S_ .f32 0x00000000#32) (shapeCast S_ (V main_v37) shapeCasts_S1x1_S_) : FVec F S_ .f32) := by
  after_results_simp
  rfl

theorem sum2 (V : Valuation τ sig (Elt F)) :
    StableHlo.after hostOps2 V (Proc.devRef .tc main_v45)
      = (addf (V main_v39) (shapeCast S_ (V main_v43) shapeCasts_S1x1_S_) : FVec F S_ .f32) := by
  after_results_simp
  rfl

theorem sum3 (V : Valuation τ sig (Elt F)) :
    StableHlo.after hostOps3 V (Proc.devRef .tc main_v51)
      = (addf (V main_v45) (shapeCast S_ (V main_v49) shapeCasts_S1x1_S_) : FVec F S_ .f32) := by
  after_results_simp
  rfl

theorem sum4 (V : Valuation τ sig (Elt F)) :
    StableHlo.after hostOps4 V (Proc.devRef .tc main_v58)
      = (Host.divf (addf (V main_v51) (shapeCast S_ (V main_v55) shapeCasts_S1x1_S_)) (constant S_ .f32 0x48000000#32) : FVec F S_ .f32) := by
  after_results_simp
  rfl

theorem V9_result (c : Dev nD) :
    V9 m (outs m hO) c main_v58 = (Host.divf (addf (addf (addf (addf (constant S_ .f32 0x00000000#32) (shapeCast S_ (out0 m hO c) shapeCasts_S1x1_S_)) (shapeCast S_ (out1 m hO c) shapeCasts_S1x1_S_)) (shapeCast S_ (out2 m hO c) shapeCasts_S1x1_S_)) (shapeCast S_ (out3 m hO c) shapeCasts_S1x1_S_)) (constant S_ .f32 0x48000000#32) : FVec F S_ .f32) := by
  have e8 : V8 m (outs m hO) c main_v55 = out3 m hO c := Vx3_out m hO c
  have e6 : V6 m (outs m hO) c main_v49 = out2 m hO c := Vx2_out m hO c
  have e4 : V4 m (outs m hO) c main_v43 = out1 m hO c := Vx1_out m hO c
  have e2 : V2 m (outs m hO) c main_v37 = out0 m hO c := Vx0_out m hO c
  have s3 : V8 m (outs m hO) c main_v51 = _ := (V8_of m _ c main_v51 (by decide)).trans (sum3 (V6 m (outs m hO) c))
  have s2 : V6 m (outs m hO) c main_v45 = _ := (V6_of m _ c main_v45 (by decide)).trans (sum2 (V4 m (outs m hO) c))
  have s1 : V4 m (outs m hO) c main_v39 = _ := (V4_of m _ c main_v39 (by decide)).trans (sum1 (V2 m (outs m hO) c))
  show StableHlo.after hostOps4 (V8 m (outs m hO) c) (Proc.devRef .tc main_v58) = _
  rw [sum4, s3, s2, s1, e8, e6, e4, e2]

theorem cast_scalar {α : Type} (x : S1x1.Idx → α) :
    shapeCast S_ x shapeCasts_S1x1_S_ ValueIdx.ix0 = x (ValueIdx.ix2 (0 : Fin 1) (0 : Fin 1)) := by
  refine shapeCast_apply x shapeCasts_S1x1_S_ _ _ ?_
  rw [Shape.rowMajor_val_two]
  have h := (S_.rowMajor ValueIdx.ix0).isLt
  have h1 : S_.numel = 1 := by decide
  show 0 * 1 + 0 = _
  omega

theorem result_ideal (m : (ℓ : Loc nD τ sig) → Buf (Elt Ideal) ℓ) (hO : Oks m) (c : Dev nD) (s0 s1 s2 s3 : EReal)
    (h0 : (out0 m hO c : Vec Ideal S1x1 .f32) (ValueIdx.ix2 (0 : Fin 1) (0 : Fin 1)) = s0)
    (h1 : (out1 m hO c : Vec Ideal S1x1 .f32) (ValueIdx.ix2 (0 : Fin 1) (0 : Fin 1)) = s1)
    (h2 : (out2 m hO c : Vec Ideal S1x1 .f32) (ValueIdx.ix2 (0 : Fin 1) (0 : Fin 1)) = s2)
    (h3 : (out3 m hO c : Vec Ideal S1x1 .f32) (ValueIdx.ix2 (0 : Fin 1) (0 : Fin 1)) = s3) :
    (V9 m (outs m hO) c main_v58 : Vec Ideal S_ .f32) ValueIdx.ix0 = Ideal.div (s0 + s1 + s2 + s3) Cert.Triplet.count := by
  have hdiv : ∀ (a b : FVec Ideal S_ .f32), Host.divf a b ValueIdx.ix0 = Ideal.div (a ValueIdx.ix0) (b ValueIdx.ix0) :=
    fun _ _ => rfl
  rw [V9_result m hO c]
  rw [hdiv, ValueIdx.addf_apply, ValueIdx.addf_apply, ValueIdx.addf_apply, ValueIdx.addf_apply,
    ValueIdx.constant_apply, ValueIdx.constant_apply, cast_scalar, cast_scalar, cast_scalar, cast_scalar,
    Ideal.ofBits_zero_f32, zero_add, h0, h1, h2, h3]
  rfl

theorem sum_chunks (f : Fin 131072 → EReal) :
    ∑ i, f i = (∑ t : Fin 32768, f ⟨t.val, by omega⟩) + (∑ t : Fin 32768, f ⟨32768 + t.val, by omega⟩)
      + (∑ t : Fin 32768, f ⟨65536 + t.val, by omega⟩) + (∑ t : Fin 32768, f ⟨98304 + t.val, by omega⟩) := by
  have e : ∀ (g : Fin (32768 + 32768 + 32768 + 32768) → EReal), ∑ i, g i
      = (∑ t : Fin 32768, g ⟨t.val, by omega⟩) + (∑ t : Fin 32768, g ⟨32768 + t.val, by omega⟩)
        + (∑ t : Fin 32768, g ⟨65536 + t.val, by omega⟩) + (∑ t : Fin 32768, g ⟨98304 + t.val, by omega⟩) := by
    intro g
    rw [Fin.sum_univ_add, Fin.sum_univ_add, Fin.sum_univ_add]
    rfl
  exact e f

end Cert.KernelIdeal.Hand

end
-- ==== Proof.KI.Total.lean ====
import proofs.«407368_j10496900071476_2_alg».proof.Proof.KI.LaunchP
import proofs.«407368_j10496900071476_2_alg».proof.Proof.Gen.KernelIdeal.Skeleton
import proofs.«407368_j10496900071476_2_alg».proof.Proof.KI.Bridge
import proofs.«407368_j10496900071476_2_alg».proof.Proof.KI.Final
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

theorem kernel_total (h : Cert.Triplet.InRange (bi m) (ayx m) (pyx m) (nyx m)) (hO : Oks m) (c : Dev nD) :
    (V9 m (outs m hO) c main_v58 : Vec Ideal S_ .f32)
      = fun _ => Cert.Triplet.total (m (((0 : Dev nD) : Thread nD τ).loc main_arg0)) (m (((0 : Dev nD) : Thread nD τ).loc main_arg1)) (bi m) (ayx m) (pyx m) (nyx m) := by
  funext i
  rw [ValueIdx.eq_ix0 i, result_ideal m hO c _ _ _ _ (out0_sum m h hO c) (out1_sum m h hO c) (out2_sum m h hO c) (out3_sum m h hO c)]
  unfold Cert.Triplet.total
  rw [sum_chunks]

end Cert.KernelIdeal.Hand

end
-- ==== Proof.K.Body.lean ====
import proofs.«407368_j10496900071476_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid0.Coords) : Prop :=
  Scalar.cmpi .ne (Scalar.extui (Scalar.cmpi .eq (BitVec.ofNat 32 (i 0).val) 0#32)) 0#32 = 1#1

theorem N0 : grid0.N = 32768 := by decide

theorem coords_val (t : Fin grid0.N) : ((grid0.coords t) 0).val = t.val := by
  have h : t.val < 32768 := lt_of_lt_of_eq t.isLt N0
  show t.val / 1 % 32768 = t.val
  rw [Nat.div_one, Nat.mod_eq_of_lt h]

/-- Two numbers that fit a word are equal exactly when the widened equality flag of their words is not zero. -/
theorem eqflag_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  have key : BitVec.ofNat 32 n = BitVec.ofNat 32 k → n = k := fun e => by
    have := congrArg BitVec.toNat e
    rwa [BitVec.toNat_ofNat, BitVec.toNat_ofNat, Nat.mod_eq_of_lt hn, Nat.mod_eq_of_lt hk] at this
  by_cases h : n = k
  · subst h
    have e1 : Scalar.cmpi .eq (BitVec.ofNat 32 n) (BitVec.ofNat 32 n) = 1#1 := IntOp.cmpi_eq.mpr rfl
    rw [e1]; simp only [iff_true]; decide
  · have e0 : Scalar.cmpi .eq (BitVec.ofNat 32 n) (BitVec.ofNat 32 k) = 0#1 := by
      have h' : ¬ (Scalar.cmpi .eq (BitVec.ofNat 32 n) (BitVec.ofNat 32 k) = 1#1) := fun e => h (key (IntOp.cmpi_eq.mp e))
      generalize Scalar.cmpi .eq (BitVec.ofNat 32 n) (BitVec.ofNat 32 k) = b at h' ⊢
      revert h'; revert b; decide
    rw [e0]; simp only [h, iff_false]; decide

theorem first_iff (t : Fin grid0.N) : isFirst (grid0.coords t) ↔ t.val = 0 := by
  have h : t.val < 32768 := lt_of_lt_of_eq t.isLt N0
  unfold isFirst
  rw [coords_val]
  exact eqflag_iff t.val 0 (by omega) (by decide)

theorem last_iff (t : Fin grid0.N) : k0_cond2 (grid0.coords t) = 1#1 ↔ t.val = 32767 := by
  have h : t.val < 32768 := lt_of_lt_of_eq t.isLt N0
  unfold k0_cond2
  rw [coords_val]
  exact eqflag_iff t.val 32767 (by omega) (by decide)

theorem inb_of (w : Nat) (hw : w < 32768) :
    ∀ a, ((![w, 0, 0] : Fin 3 → Nat) a + 1) * S1x1x256.size a ≤ S32768x1x256.size a := by
  intro a
  match a with
  | ⟨0, _⟩ => show (w + 1) * 1 ≤ 32768; omega
  | ⟨1, _⟩ => show (0 + 1) * 1 ≤ 1; omega
  | ⟨2, _⟩ => show (0 + 1) * 256 ≤ 256; omega

theorem halves (c : Dev nD) (b : Ref sig .tc) (f : Buf (Elt F) ((c : Thread nD τ).loc b)) :
    ((((c : Thread nD τ).loc b) ↦{fullShare} f : sProp 𝕄))
      ⊣⊢ iprop((((c : Thread nD τ).loc b) ↦{fullShare.left} f) ∗ (((c : Thread nD τ).loc b) ↦{fullShare.right} f)) :=
  pointsTo_share (PosShare.mem_left_op_right fullShare)

private theorem hz2 : (![0, 0] : Fin S1x1.rank → Nat) = fun _ => 0 := by
  funext a; fin_cases a <;> rfl

private theorem hz3 : (![0, 0, 0] : Fin S1x1x256.rank → Nat) = fun _ => 0 := by
  funext a; fin_cases a <;> rfl

/-- The last store of the whole 1×1 block decides what the block holds. -/
theorem read_store_block (M : Memref sig .tc .vmem S1x1 .f32) (f : M.view.ty.Contents (Elt F)) (w : Vec F S1x1 .f32)
    (L : List (View.Piece (Elt F) S1x1 .f32)) :
    M.view.read (Elt F) (M.view.writes (Elt F) f
      ((⟨Rect.unit (s := S1x1) ![0, 0] S1x1.size inb_S1x1_S1x1_0_0, w⟩ : View.Piece (Elt F) S1x1 .f32) :: L)) = w := by
  have hcov : ∀ y : S1x1.Idx, ∃ p ∈ ((⟨Rect.unit (s := S1x1) ![0, 0] S1x1.size inb_S1x1_S1x1_0_0, w⟩ : View.Piece (Elt F) S1x1 .f32) :: L), y ∈ p.1.set :=
    fun y => ⟨_, List.mem_cons_self, View.mem_set_unit_zero (S := S1x1) hz2 inb_S1x1_S1x1_0_0 y⟩
  rw [View.read_writes_eq_canon M.view f _ hcov, View.canon_cons_unit_zero (S := S1x1) hz2 inb_S1x1_S1x1_0_0 w L]

theorem load_stored_block (M : Memref sig .tc .vmem S1x1 .f32) (w : Vec F S1x1 .f32) :
    M.view.readCov [(⟨Rect.unit (s := S1x1) ![0, 0] S1x1.size inb_S1x1_S1x1_0_0, w⟩ : View.Piece (Elt F) S1x1 .f32)]
      (Rect.unit (s := S1x1) ![0, 0] S1x1.size inb_S1x1_S1x1_0_0).toLoadRect = w :=
  View.readCov_unit_zero (S := S1x1) M.view hz2 inb_S1x1_S1x1_0_0 w

theorem load_block (M : Memref sig .tc .vmem S1x1 .f32) (h : M.IsWhole) (x : Vec F S1x1 .f32) :
    M.view.readAt (Elt F) (Rect.unit (s := S1x1) ![0, 0] S1x1.size inb_S1x1_S1x1_0_0).toLoadRect (h.unread x) = x := by
  rw [View.readAt_eq_ld, h.read_unread, View.ld_unit_zero hz2]

theorem load_row (M : Memref sig .tc .vmem S1x1x256 .f32) (h : M.IsWhole) (x : Vec F S1x1x256 .f32) :
    M.view.readAt (Elt F) (Rect.unit (s := S1x1x256) ![0, 0, 0] S1x1x256.size inb_S1x1x256_S1x1x256_0_0_0).toLoadRect (h.unread x) = x := by
  rw [View.readAt_eq_ld, h.read_unread, View.ld_unit_zero hz3]

/-- A point in between adds its hinge loss to the scratch. -/
theorem body_mid (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (xs : Vec F S1x1 .f32) (h1 : ¬ isFirst i) (h2 : ¬ k0_cond2 i = 1#1) :
    iprop(owns (c : Thread nD τ) arg4 fullShare x0 ∗ owns (c : Thread nD τ) arg5 fullShare x1 ∗ owns (c : Thread nD τ) arg6 fullShare x2 ∗ owns (c : Thread nD τ) arg8 fullShare xs
      ∗ (iprop(owns (c : Thread nD τ) arg4 fullShare x0 ∗ owns (c : Thread nD τ) arg5 fullShare x1 ∗ owns (c : Thread nD τ) arg6 fullShare x2 ∗ owns (c : Thread nD τ) arg8 fullShare (k0_pay2 x0 x1 x2 xs)) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%fs, %hfs, HS⟩, Hk⟩
  obtain rfl := harg4.eq_unread hf0; obtain rfl := harg5.eq_unread hf1; obtain rfl := harg6.eq_unread hf2; obtain rfl := harg8.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  rotate_left
  · iexact HS
  · ipureintro
    rw [read_store_block, load_row, load_row, load_row, load_block]

/-- The first point resets the scratch to zero, then adds its hinge loss. -/
theorem body_first (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (h1 : isFirst i) (h2 : ¬ k0_cond2 i = 1#1) :
    iprop(owns (c : Thread nD τ) arg4 fullShare x0 ∗ owns (c : Thread nD τ) arg5 fullShare x1 ∗ owns (c : Thread nD τ) arg6 fullShare x2 ∗ (∃ xs, owns (c : Thread nD τ) arg8 fullShare xs)
      ∗ (iprop(owns (c : Thread nD τ) arg4 fullShare x0 ∗ owns (c : Thread nD τ) arg5 fullShare x1 ∗ owns (c : Thread nD τ) arg6 fullShare x2 ∗ owns (c : Thread nD τ) arg8 fullShare (k0_pay2 x0 x1 x2 (k0_pay1 (F := F)))) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%xs, %fs, -, HS⟩, Hk⟩
  obtain rfl := harg4.eq_unread hf0; obtain rfl := harg5.eq_unread hf1; obtain rfl := harg6.eq_unread hf2
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  rotate_left
  · iexact HS
  · ipureintro
    rw [read_store_block, load_row, load_row, load_row]
    sl_unfold_run_names
    rw [load_stored_block]

/-- The last point adds its hinge loss and copies the sum to the output block. -/
theorem body_last (c : Dev nD) (i : grid0.Coords) (arg1 : Memref sig .tc .smem S32768 .i32) (harg1 : arg1.IsWhole) (arg2 : Memref sig .tc .smem S32768 .i32) (harg2 : arg2.IsWhole) (arg3 : Memref sig .tc .smem S32768 .i32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1 .f32) (harg7 : arg7.IsWhole) (arg8 : Memref sig .tc .vmem S1x1 .f32) (harg8 : arg8.IsWhole) (x0 x1 x2 : Vec F S1x1x256 .f32) (E : Set ℕ) (K : PUnit → sProp 𝕄) (xs : Vec F S1x1 .f32) (h1 : ¬ isFirst i) (h2 : k0_cond2 i = 1#1) :
    iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs
      ∗ (iprop(owns (c : Thread nD τ) arg4 fullShare x0 ∗ owns (c : Thread nD τ) arg5 fullShare x1 ∗ owns (c : Thread nD τ) arg6 fullShare x2 ∗ owns (c : Thread nD τ) arg7 fullShare (k0_pay2 x0 x1 x2 xs) ∗ owns (c : Thread nD τ) arg8 fullShare (k0_pay2 x0 x1 x2 xs)) -∗ K ⟨⟩))
    ⊢ wp frame (wpE (defs₀ (F := F)) Variants.none c none) E (cc0__triplet_chunk_kernel i arg1 harg1 arg2 harg2 arg3 harg3 arg4 harg4 arg5 harg5 arg6 harg6 arg7 harg7 arg8 harg8) K := by
  simp only [cc0__triplet_chunk_kernel_eq_skeleton]; unfold cc0__triplet_chunk_kernel_skel
  unfold owns
  iintro ⟨⟨%f0, %hf0, H0⟩, ⟨%f1, %hf1, H1⟩, ⟨%f2, %hf2, H2⟩, ⟨%d, %fd, -, HD⟩, ⟨%fs, %hfs, HS⟩, Hk⟩
  obtain rfl := harg4.eq_unread hf0; obtain rfl := harg5.eq_unread hf1; obtain rfl := harg6.eq_unread hf2; obtain rfl := harg8.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    rotate_left
    · iexact HD
    · ipureintro
      rw [read_store_block]
      sl_unfold_run_names
      rw [load_stored_block, load_row, load_row, load_row, load_block]
  iexists _; isplitr
  rotate_left
  · iexact HS
  · ipureintro
    sl_unfold_run_names
    rw [read_store_block, load_row, load_row, load_row, load_block]

end Cert.Kernel.Hand

end
-- ==== Proof.K.Data0.lean ====
import proofs.«407368_j10496900071476_2_alg».proof.Proof.K.LaunchP
import proofs.«407368_j10496900071476_2_alg».proof.Proof.Gen.Kernel.Skeleton
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at point `t`, read off the array the call finds. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The running sum after `n` points: zero, then each point's hinge loss added. -/
def acc0 (c : Dev nD) : (n : ℕ) → n ≤ (cfg0 a).N → Vec F S1x1 .f32
  | 0, _ => k0_pay1 (F := F)
  | n + 1, h => k0_pay2 (iblk0 a V c 0 ⟨n, h⟩) (iblk0 a V c 1 ⟨n, h⟩) (iblk0 a V c 2 ⟨n, h⟩) (acc0 c n (Nat.le_of_lt h))

abbrev scM0 : Memref sig .tc .vmem S1x1 .f32 := Memref.whole cc0_scratch0

abbrev rest0 (c : Dev nD) : sProp 𝕄 :=
  iprop(Pipeline.scopedRestBut spec0 c [cc0_scratch0]
      ∗ (∃ r, prngReg c r) ∗ Pipeline.prefHeld pre0 c (fun _ => fullShare) a.1)

/-- Before point `n` the scratch holds the running sum (before the first point, anything). -/
def Phi0 (c : Dev nD) : (n : ℕ) → n ≤ (cfg0 a).N → sProp 𝕄
  | 0, _ => iprop((∃ f : Buf (Elt F) ((c : Thread nD τ).loc cc0_scratch0), ((c : Thread nD τ).loc cc0_scratch0) ↦{fullShare} f) ∗ rest0 a c)
  | n + 1, h => iprop(owns (c : Thread nD τ) scM0 fullShare (acc0 a V c (n + 1) h) ∗ rest0 a c)

/-- What every window's block and the scratch hold around each point of the call. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => acc0 a V c (t.val + 1) t.isLt
  Φ t := Phi0 a V c t.val (Nat.le_of_lt_succ t.isLt)
  q w := match w with
    | ⟨1, _⟩ => fullShare.left
    | ⟨2, _⟩ => fullShare.right
    | _ => fullShare
  owed _ := 0

theorem Phi0_zero (c : Dev nD) (n : ℕ) (h : n ≤ (cfg0 a).N) (hz : n = 0) : Phi0 a V c n h =
    iprop((∃ f : Buf (Elt F) ((c : Thread nD τ).loc cc0_scratch0), ((c : Thread nD τ).loc cc0_scratch0) ↦{fullShare} f) ∗ rest0 a c) := by
  subst hz; rfl

theorem Phi0_pos (c : Dev nD) (n : ℕ) (h : n ≤ (cfg0 a).N) (hz : n ≠ 0) : Phi0 a V c n h =
    iprop(owns (c : Thread nD τ) scM0 fullShare (acc0 a V c n h) ∗ rest0 a c) := by
  cases n with
  | zero => exact absurd rfl hz
  | succ n => rfl

theorem acc0_succ (c : Dev nD) (t : Fin (cfg0 a).N) : acc0 a V c (t.val + 1) t.isLt =
    k0_pay2 (iblk0 a V c 0 t) (iblk0 a V c 1 t) (iblk0 a V c 2 t) (acc0 a V c t.val (Nat.le_of_lt t.isLt)) := rfl

theorem A0_eq (c : Dev nD) (w : Fin (cfg0 a).W) : (dat0 a V c).A w = V c (Pipeline.arrRef spec0 w) := by dsimp only [dat0]
theorem after0_0 (c : Dev nD) (t : Fin (cfg0 a).N) : (dat0 a V c).after 0 t = iblk0 a V c 0 t := by dsimp only [dat0]; (try rfl)
theorem after0_1 (c : Dev nD) (t : Fin (cfg0 a).N) : (dat0 a V c).after 1 t = iblk0 a V c 1 t := by dsimp only [dat0]; (try rfl)
theorem after0_2 (c : Dev nD) (t : Fin (cfg0 a).N) : (dat0 a V c).after 2 t = iblk0 a V c 2 t := by dsimp only [dat0]; (try rfl)
theorem after0_3 (c : Dev nD) (t : Fin (cfg0 a).N) : (dat0 a V c).after 3 t = acc0 a V c (t.val + 1) t.isLt := by dsimp only [dat0]; (try rfl)

theorem before0 (c : Dev nD) (t : Fin (cfg0 a).N) :
    (∀ d, (dat0 a V c).before 0 t d = iblk0 a V c 0 t) ∧ (∀ d, (dat0 a V c).before 1 t d = iblk0 a V c 1 t)
      ∧ ∀ d, (dat0 a V c).before 2 t d = iblk0 a V c 2 t := by
  refine ⟨fun d => ?_, fun d => ?_, fun d => ?_⟩ <;>
  exact ((dat0 a V c).before_in_eq_fetched _ rfl (fun _ => rfl) (fun _ _ _ => rfl)
    (fun t => by dsimp only [dat0]; unfold Dat.blockOf iblk0; try rfl) t d).trans
      (by unfold Dat.fetched Dat.blockOf iblk0; dsimp only [dat0]; try rfl)

end Cert.Kernel.Hand

end
-- ==== Proof.K.Data1.lean ====
import proofs.«407368_j10496900071476_2_alg».proof.Proof.K.LaunchP
import proofs.«407368_j10496900071476_2_alg».proof.Proof.Gen.Kernel.Skeleton
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- Window `w`'s block at point `t`, read off the array the call finds. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The running sum after `n` points: zero, then each point's hinge loss added. -/
def acc1 (c : Dev nD) : (n : ℕ) → n ≤ (cfg1 a).N → Vec F S1x1 .f32
  | 0, _ => k0_pay1 (F := F)
  | n + 1, h => k0_pay2 (iblk1 a V c 0 ⟨n, h⟩) (iblk1 a V c 1 ⟨n, h⟩) (iblk1 a V c 2 ⟨n, h⟩) (acc1 c n (Nat.le_of_lt h))

abbrev scM1 : Memref sig .tc .vmem S1x1 .f32 := Memref.whole cc1_scratch0

abbrev rest1 (c : Dev nD) : sProp 𝕄 :=
  iprop(Pipeline.scopedRestBut spec1 c [cc1_scratch0]
      ∗ (∃ r, prngReg c r) ∗ Pipeline.prefHeld pre1 c (fun _ => fullShare) a.1)

/-- Before point `n` the scratch holds the running sum (before the first point, anything). -/
def Phi1 (c : Dev nD) : (n : ℕ) → n ≤ (cfg1 a).N → sProp 𝕄
  | 0, _ => iprop((∃ f : Buf (Elt F) ((c : Thread nD τ).loc cc1_scratch0), ((c : Thread nD τ).loc cc1_scratch0) ↦{fullShare} f) ∗ rest1 a c)
  | n + 1, h => iprop(owns (c : Thread nD τ) scM1 fullShare (acc1 a V c (n + 1) h) ∗ rest1 a c)

/-- What every window's block and the scratch hold around each point of the call. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => acc1 a V c (t.val + 1) t.isLt
  Φ t := Phi1 a V c t.val (Nat.le_of_lt_succ t.isLt)
  q w := match w with
    | ⟨1, _⟩ => fullShare.left
    | ⟨2, _⟩ => fullShare.right
    | _ => fullShare
  owed _ := 0

theorem Phi1_zero (c : Dev nD) (n : ℕ) (h : n ≤ (cfg1 a).N) (hz : n = 0) : Phi1 a V c n h =
    iprop((∃ f : Buf (Elt F) ((c : Thread nD τ).loc cc1_scratch0), ((c : Thread nD τ).loc cc1_scratch0) ↦{fullShare} f) ∗ rest1 a c) := by
  subst hz; rfl

theorem Phi1_pos (c : Dev nD) (n : ℕ) (h : n ≤ (cfg1 a).N) (hz : n ≠ 0) : Phi1 a V c n h =
    iprop(owns (c : Thread nD τ) scM1 fullShare (acc1 a V c n h) ∗ rest1 a c) := by
  cases n with
  | zero => exact absurd rfl hz
  | succ n => rfl

theorem acc1_succ (c : Dev nD) (t : Fin (cfg1 a).N) : acc1 a V c (t.val + 1) t.isLt =
    k0_pay2 (iblk1 a V c 0 t) (iblk1 a V c 1 t) (iblk1 a V c 2 t) (acc1 a V c t.val (Nat.le_of_lt t.isLt)) := rfl

theorem A1_eq (c : Dev nD) (w : Fin (cfg1 a).W) : (dat1 a V c).A w = V c (Pipeline.arrRef spec1 w) := by dsimp only [dat1]
theorem after1_0 (c : Dev nD) (t : Fin (cfg1 a).N) : (dat1 a V c).after 0 t = iblk1 a V c 0 t := by dsimp only [dat1]; (try rfl)
theorem after1_1 (c : Dev nD) (t : Fin (cfg1 a).N) : (dat1 a V c).after 1 t = iblk1 a V c 1 t := by dsimp only [dat1]; (try rfl)
theorem after1_2 (c : Dev nD) (t : Fin (cfg1 a).N) : (dat1 a V c).after 2 t = iblk1 a V c 2 t := by dsimp only [dat1]; (try rfl)
theorem after1_3 (c : Dev nD) (t : Fin (cfg1 a).N) : (dat1 a V c).after 3 t = acc1 a V c (t.val + 1) t.isLt := by dsimp only [dat1]; (try rfl)

theorem before1 (c : Dev nD) (t : Fin (cfg1 a).N) :
    (∀ d, (dat1 a V c).before 0 t d = iblk1 a V c 0 t) ∧ (∀ d, (dat1 a V c).before 1 t d = iblk1 a V c 1 t)
      ∧ ∀ d, (dat1 a V c).before 2 t d = iblk1 a V c 2 t := by
  refine ⟨fun d => ?_, fun d => ?_, fun d => ?_⟩ <;>
  exact ((dat1 a V c).before_in_eq_fetched _ rfl (fun _ => rfl) (fun _ _ _ => rfl)
    (fun t => by dsimp only [dat1]; unfold Dat.blockOf iblk1; try rfl) t d).trans
      (by unfold Dat.fetched Dat.blockOf iblk1; dsimp only [dat1]; try rfl)

end Cert.Kernel.Hand

end
-- ==== Proof.K.Data2.lean ====
import proofs.«407368_j10496900071476_2_alg».proof.Proof.K.LaunchP
import proofs.«407368_j10496900071476_2_alg».proof.Proof.Gen.Kernel.Skeleton
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

/-- Window `w`'s block at point `t`, read off the array the call finds. -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The running sum after `n` points: zero, then each point's hinge loss added. -/
def acc2 (c : Dev nD) : (n : ℕ) → n ≤ (cfg2 a).N → Vec F S1x1 .f32
  | 0, _ => k0_pay1 (F := F)
  | n + 1, h => k0_pay2 (iblk2 a V c 0 ⟨n, h⟩) (iblk2 a V c 1 ⟨n, h⟩) (iblk2 a V c 2 ⟨n, h⟩) (acc2 c n (Nat.le_of_lt h))

abbrev scM2 : Memref sig .tc .vmem S1x1 .f32 := Memref.whole cc2_scratch0

abbrev rest2 (c : Dev nD) : sProp 𝕄 :=
  iprop(Pipeline.scopedRestBut spec2 c [cc2_scratch0]
      ∗ (∃ r, prngReg c r) ∗ Pipeline.prefHeld pre2 c (fun _ => fullShare) a.1)

/-- Before point `n` the scratch holds the running sum (before the first point, anything). -/
def Phi2 (c : Dev nD) : (n : ℕ) → n ≤ (cfg2 a).N → sProp 𝕄
  | 0, _ => iprop((∃ f : Buf (Elt F) ((c : Thread nD τ).loc cc2_scratch0), ((c : Thread nD τ).loc cc2_scratch0) ↦{fullShare} f) ∗ rest2 a c)
  | n + 1, h => iprop(owns (c : Thread nD τ) scM2 fullShare (acc2 a V c (n + 1) h) ∗ rest2 a c)

/-- What every window's block and the scratch hold around each point of the call. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => acc2 a V c (t.val + 1) t.isLt
  Φ t := Phi2 a V c t.val (Nat.le_of_lt_succ t.isLt)
  q w := match w with
    | ⟨1, _⟩ => fullShare.left
    | ⟨2, _⟩ => fullShare.right
    | _ => fullShare
  owed _ := 0

theorem Phi2_zero (c : Dev nD) (n : ℕ) (h : n ≤ (cfg2 a).N) (hz : n = 0) : Phi2 a V c n h =
    iprop((∃ f : Buf (Elt F) ((c : Thread nD τ).loc cc2_scratch0), ((c : Thread nD τ).loc cc2_scratch0) ↦{fullShare} f) ∗ rest2 a c) := by
  subst hz; rfl

theorem Phi2_pos (c : Dev nD) (n : ℕ) (h : n ≤ (cfg2 a).N) (hz : n ≠ 0) : Phi2 a V c n h =
    iprop(owns (c : Thread nD τ) scM2 fullShare (acc2 a V c n h) ∗ rest2 a c) := by
  cases n with
  | zero => exact absurd rfl hz
  | succ n => rfl

theorem acc2_succ (c : Dev nD) (t : Fin (cfg2 a).N) : acc2 a V c (t.val + 1) t.isLt =
    k0_pay2 (iblk2 a V c 0 t) (iblk2 a V c 1 t) (iblk2 a V c 2 t) (acc2 a V c t.val (Nat.le_of_lt t.isLt)) := rfl

theorem A2_eq (c : Dev nD) (w : Fin (cfg2 a).W) : (dat2 a V c).A w = V c (Pipeline.arrRef spec2 w) := by dsimp only [dat2]
theorem after2_0 (c : Dev nD) (t : Fin (cfg2 a).N) : (dat2 a V c).after 0 t = iblk2 a V c 0 t := by dsimp only [dat2]; (try rfl)
theorem after2_1 (c : Dev nD) (t : Fin (cfg2 a).N) : (dat2 a V c).after 1 t = iblk2 a V c 1 t := by dsimp only [dat2]; (try rfl)
theorem after2_2 (c : Dev nD) (t : Fin (cfg2 a).N) : (dat2 a V c).after 2 t = iblk2 a V c 2 t := by dsimp only [dat2]; (try rfl)
theorem after2_3 (c : Dev nD) (t : Fin (cfg2 a).N) : (dat2 a V c).after 3 t = acc2 a V c (t.val + 1) t.isLt := by dsimp only [dat2]; (try rfl)

theorem before2 (c : Dev nD) (t : Fin (cfg2 a).N) :
    (∀ d, (dat2 a V c).before 0 t d = iblk2 a V c 0 t) ∧ (∀ d, (dat2 a V c).before 1 t d = iblk2 a V c 1 t)
      ∧ ∀ d, (dat2 a V c).before 2 t d = iblk2 a V c 2 t := by
  refine ⟨fun d => ?_, fun d => ?_, fun d => ?_⟩ <;>
  exact ((dat2 a V c).before_in_eq_fetched _ rfl (fun _ => rfl) (fun _ _ _ => rfl)
    (fun t => by dsimp only [dat2]; unfold Dat.blockOf iblk2; try rfl) t d).trans
      (by unfold Dat.fetched Dat.blockOf iblk2; dsimp only [dat2]; try rfl)

end Cert.Kernel.Hand

end
-- ==== Proof.K.Data3.lean ====
import proofs.«407368_j10496900071476_2_alg».proof.Proof.K.LaunchP
import proofs.«407368_j10496900071476_2_alg».proof.Proof.Gen.Kernel.Skeleton
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

/-- Window `w`'s block at point `t`, read off the array the call finds. -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- The running sum after `n` points: zero, then each point's hinge loss added. -/
def acc3 (c : Dev nD) : (n : ℕ) → n ≤ (cfg3 a).N → Vec F S1x1 .f32
  | 0, _ => k0_pay1 (F := F)
  | n + 1, h => k0_pay2 (iblk3 a V c 0 ⟨n, h⟩) (iblk3 a V c 1 ⟨n, h⟩) (iblk3 a V c 2 ⟨n, h⟩) (acc3 c n (Nat.le_of_lt h))

abbrev scM3 : Memref sig .tc .vmem S1x1 .f32 := Memref.whole cc3_scratch0

abbrev rest3 (c : Dev nD) : sProp 𝕄 :=
  iprop(Pipeline.scopedRestBut spec3 c [cc3_scratch0]
      ∗ (∃ r, prngReg c r) ∗ Pipeline.prefHeld pre3 c (fun _ => fullShare) a.1)

/-- Before point `n` the scratch holds the running sum (before the first point, anything). -/
def Phi3 (c : Dev nD) : (n : ℕ) → n ≤ (cfg3 a).N → sProp 𝕄
  | 0, _ => iprop((∃ f : Buf (Elt F) ((c : Thread nD τ).loc cc3_scratch0), ((c : Thread nD τ).loc cc3_scratch0) ↦{fullShare} f) ∗ rest3 a c)
  | n + 1, h => iprop(owns (c : Thread nD τ) scM3 fullShare (acc3 a V c (n + 1) h) ∗ rest3 a c)

/-- What every window's block and the scratch hold around each point of the call. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => acc3 a V c (t.val + 1) t.isLt
  Φ t := Phi3 a V c t.val (Nat.le_of_lt_succ t.isLt)
  q w := match w with
    | ⟨1, _⟩ => fullShare.left
    | ⟨2, _⟩ => fullShare.right
    | _ => fullShare
  owed _ := 0

theorem Phi3_zero (c : Dev nD) (n : ℕ) (h : n ≤ (cfg3 a).N) (hz : n = 0) : Phi3 a V c n h =
    iprop((∃ f : Buf (Elt F) ((c : Thread nD τ).loc cc3_scratch0), ((c : Thread nD τ).loc cc3_scratch0) ↦{fullShare} f) ∗ rest3 a c) := by
  subst hz; rfl

theorem Phi3_pos (c : Dev nD) (n : ℕ) (h : n ≤ (cfg3 a).N) (hz : n ≠ 0) : Phi3 a V c n h =
    iprop(owns (c : Thread nD τ) scM3 fullShare (acc3 a V c n h) ∗ rest3 a c) := by
  cases n with
  | zero => exact absurd rfl hz
  | succ n => rfl

theorem acc3_succ (c : Dev nD) (t : Fin (cfg3 a).N) : acc3 a V c (t.val + 1) t.isLt =
    k0_pay2 (iblk3 a V c 0 t) (iblk3 a V c 1 t) (iblk3 a V c 2 t) (acc3 a V c t.val (Nat.le_of_lt t.isLt)) := rfl

theorem A3_eq (c : Dev nD) (w : Fin (cfg3 a).W) : (dat3 a V c).A w = V c (Pipeline.arrRef spec3 w) := by dsimp only [dat3]
theorem after3_0 (c : Dev nD) (t : Fin (cfg3 a).N) : (dat3 a V c).after 0 t = iblk3 a V c 0 t := by dsimp only [dat3]; (try rfl)
theorem after3_1 (c : Dev nD) (t : Fin (cfg3 a).N) : (dat3 a V c).after 1 t = iblk3 a V c 1 t := by dsimp only [dat3]; (try rfl)
theorem after3_2 (c : Dev nD) (t : Fin (cfg3 a).N) : (dat3 a V c).after 2 t = iblk3 a V c 2 t := by dsimp only [dat3]; (try rfl)
theorem after3_3 (c : Dev nD) (t : Fin (cfg3 a).N) : (dat3 a V c).after 3 t = acc3 a V c (t.val + 1) t.isLt := by dsimp only [dat3]; (try rfl)

theorem before3 (c : Dev nD) (t : Fin (cfg3 a).N) :
    (∀ d, (dat3 a V c).before 0 t d = iblk3 a V c 0 t) ∧ (∀ d, (dat3 a V c).before 1 t d = iblk3 a V c 1 t)
      ∧ ∀ d, (dat3 a V c).before 2 t d = iblk3 a V c 2 t := by
  refine ⟨fun d => ?_, fun d => ?_, fun d => ?_⟩ <;>
  exact ((dat3 a V c).before_in_eq_fetched _ rfl (fun _ => rfl) (fun _ _ _ => rfl)
    (fun t => by dsimp only [dat3]; unfold Dat.blockOf iblk3; try rfl) t d).trans
      (by unfold Dat.fetched Dat.blockOf iblk3; dsimp only [dat3]; try rfl)

end Cert.Kernel.Hand

end
-- ==== Proof.K.Family.lean ====
import proofs.«407368_j10496900071476_2_alg».proof.Proof.K.LaunchP
import proofs.«407368_j10496900071476_2_alg».proof.Proof.Gen.Kernel.Skeleton
import proofs.«407368_j10496900071476_2_alg».proof.Proof.K.RegionsP
import proofs.«407368_j10496900071476_2_alg».proof.Proof.K.Data0
import proofs.«407368_j10496900071476_2_alg».proof.Proof.K.Data1
import proofs.«407368_j10496900071476_2_alg».proof.Proof.K.Data2
import proofs.«407368_j10496900071476_2_alg».proof.Proof.K.Data3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W1 (c : Dev nD) (b : Ref sig .tc) : Buf (Elt F) ((c : Thread nD τ).loc b) := V1 m c b

def tbl0 : pre0.Contents (Elt F) := fun k => V1 m (0 : Dev nD) (pre0.ref k)
def tbl1 : pre1.Contents (Elt F) := fun k => StableHlo.after hostOps1 (V1 m (0 : Dev nD)) (pre1.ref k)
def tbl2 : pre2.Contents (Elt F) := fun k => StableHlo.after hostOps2 (V1 m (0 : Dev nD)) (pre2.ref k)
def tbl3 : pre3.Contents (Elt F) := fun k => StableHlo.after hostOps3 (V1 m (0 : Dev nD)) (pre3.ref k)

structure Oks : Prop where
  o0 : ok0 (F := F) (tbl0 m)
  o1 : ok1 (F := F) (tbl1 m)
  o2 : ok2 (F := F) (tbl2 m)
  o3 : ok3 (F := F) (tbl3 m)

variable (hO : Oks m)

abbrev adm0 : (pcfg0 (F := F)).Adm := ⟨tbl0 m, hO.o0⟩
abbrev adm1 : (pcfg1 (F := F)).Adm := ⟨tbl1 m, hO.o1⟩
abbrev adm2 : (pcfg2 (F := F)).Adm := ⟨tbl2 m, hO.o2⟩
abbrev adm3 : (pcfg3 (F := F)).Adm := ⟨tbl3 m, hO.o3⟩

abbrev adm : (p : Fin 4) → (pcfgs (F := F) p).Adm := fun
  | ⟨0, _⟩ => adm0 m hO | ⟨1, _⟩ => adm1 m hO | ⟨2, _⟩ => adm2 m hO | ⟨3, _⟩ => adm3 m hO | ⟨_ + 4, h⟩ => absurd h (Nat.not_lt.2 (Nat.le_add_left _ _))

def pdats : (p : Fin 4) → (c : Dev nD) → Dat τ (Elt F) Unit ℕ (UR sig nD τ) ℕ (Pipeline.pin (pcfgs (F := F)) (adm m hO) p) c
  | ⟨0, _⟩ => fun c => dat0 (adm0 m hO) (W1 m) c
  | ⟨1, _⟩ => fun c => dat1 (adm1 m hO) (W1 m) c
  | ⟨2, _⟩ => fun c => dat2 (adm2 m hO) (W1 m) c
  | ⟨3, _⟩ => fun c => dat3 (adm3 m hO) (W1 m) c
  | ⟨_ + 4, h⟩ => absurd h (Nat.not_lt.2 (Nat.le_add_left _ _))

def out0 (c : Dev nD) : Buf (Elt F) ((c : Thread nD τ).loc main_v37) := (dat0 (adm0 m hO) (W1 m) c).arrAt 3 (cfg0 (adm0 m hO)).N
def out1 (c : Dev nD) : Buf (Elt F) ((c : Thread nD τ).loc main_v43) := (dat1 (adm1 m hO) (W1 m) c).arrAt 3 (cfg1 (adm1 m hO)).N
def out2 (c : Dev nD) : Buf (Elt F) ((c : Thread nD τ).loc main_v49) := (dat2 (adm2 m hO) (W1 m) c).arrAt 3 (cfg2 (adm2 m hO)).N
def out3 (c : Dev nD) : Buf (Elt F) ((c : Thread nD τ).loc main_v55) := (dat3 (adm3 m hO) (W1 m) c).arrAt 3 (cfg3 (adm3 m hO)).N

def outs : Outs (F := F) := fun _ r c =>
  if h : r = main_v37 then h ▸ out0 m hO c
  else if h : r = main_v43 then h ▸ out1 m hO c
  else if h : r = main_v49 then h ▸ out2 m hO c
  else if h : r = main_v55 then h ▸ out3 m hO c
  else m ((c : Thread nD τ).loc r)

theorem outs_v37 (j : ℕ) (c : Dev nD) : outs m hO j main_v37 c = out0 m hO c := by unfold outs; rw [dif_pos rfl]
theorem outs_v43 (j : ℕ) (c : Dev nD) : outs m hO j main_v43 c = out1 m hO c := by
  unfold outs; rw [dif_neg (by decide), dif_pos rfl]
theorem outs_v49 (j : ℕ) (c : Dev nD) : outs m hO j main_v49 c = out2 m hO c := by
  unfold outs; rw [dif_neg (by decide), dif_neg (by decide), dif_pos rfl]
theorem outs_v55 (j : ℕ) (c : Dev nD) : outs m hO j main_v55 c = out3 m hO c := by
  unfold outs; rw [dif_neg (by decide), dif_neg (by decide), dif_neg (by decide), dif_pos rfl]

end Cert.Kernel.Hand

end
-- ==== Proof.K.Chain.lean ====
import proofs.«407368_j10496900071476_2_alg».proof.Proof.K.LaunchP
import proofs.«407368_j10496900071476_2_alg».proof.Proof.Gen.Kernel.Skeleton
import proofs.«407368_j10496900071476_2_alg».proof.Proof.K.Family
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

abbrev Rst (c : Dev nD) : sProp 𝕄 := iprop((∃ r, prngReg c r) ∗ ∃ W, owes (c : Thread nD τ) (0 : CellTallies nD τ sig Unit) W)

abbrev Ve0 (_hO : Oks m) (c : Dev nD) : Valuation τ sig (Elt F) := V1 m c
abbrev Vx0 (c : Dev nD) : Valuation τ sig (Elt F) := V2 m (outs m hO) c
abbrev Ve1 (c : Dev nD) : Valuation τ sig (Elt F) := V3 m (outs m hO) c
abbrev Vx1 (c : Dev nD) : Valuation τ sig (Elt F) := V4 m (outs m hO) c
abbrev Ve2 (c : Dev nD) : Valuation τ sig (Elt F) := V5 m (outs m hO) c
abbrev Vx2 (c : Dev nD) : Valuation τ sig (Elt F) := V6 m (outs m hO) c
abbrev Ve3 (c : Dev nD) : Valuation τ sig (Elt F) := V7 m (outs m hO) c
abbrev Vx3 (c : Dev nD) : Valuation τ sig (Elt F) := V8 m (outs m hO) c

theorem Ve1_of (c : Dev nD) (r : Ref sig .tc) (h1 : r ∉ hostOps1_W) (h2 : r ∉ ([main_v37] : List (Ref sig .tc))) :
    Ve1 m hO c r = V1 m c r := (V3_of m _ c r h1).trans (V2_of m _ c r h2)
theorem Ve2_of (c : Dev nD) (r : Ref sig .tc) (h1 : r ∉ hostOps1_W) (h2 : r ∉ ([main_v37] : List (Ref sig .tc)))
    (h3 : r ∉ hostOps2_W) (h4 : r ∉ ([main_v43] : List (Ref sig .tc))) :
    Ve2 m hO c r = V1 m c r := (V5_of m _ c r h3).trans ((V4_of m _ c r h4).trans (Ve1_of m hO c r h1 h2))
theorem Ve3_of (c : Dev nD) (r : Ref sig .tc) (h1 : r ∉ hostOps1_W) (h2 : r ∉ ([main_v37] : List (Ref sig .tc)))
    (h3 : r ∉ hostOps2_W) (h4 : r ∉ ([main_v43] : List (Ref sig .tc))) (h5 : r ∉ hostOps3_W) (h6 : r ∉ ([main_v49] : List (Ref sig .tc))) :
    Ve3 m hO c r = V1 m c r := (V7_of m _ c r h5).trans ((V6_of m _ c r h6).trans (Ve2_of m hO c r h1 h2 h3 h4))

theorem Ve0_arr (c : Dev nD) (w : Fin 4) : Ve0 m hO c (Pipeline.arrRef spec0 w) = W1 m c (Pipeline.arrRef spec0 w) := rfl
theorem Ve1_arr (c : Dev nD) : ∀ w : Fin 4, Ve1 m hO c (Pipeline.arrRef spec1 w) = W1 m c (Pipeline.arrRef spec1 w)
  | ⟨0, _⟩ => Ve1_of m hO c main_v1 (by decide) (by decide)
  | ⟨1, _⟩ => Ve1_of m hO c main_v3 (by decide) (by decide)
  | ⟨2, _⟩ => Ve1_of m hO c main_v3 (by decide) (by decide)
  | ⟨3, _⟩ => Ve1_of m hO c main_v43 (by decide) (by decide)
theorem Ve2_arr (c : Dev nD) : ∀ w : Fin 4, Ve2 m hO c (Pipeline.arrRef spec2 w) = W1 m c (Pipeline.arrRef spec2 w)
  | ⟨0, _⟩ => Ve2_of m hO c main_v1 (by decide) (by decide) (by decide) (by decide)
  | ⟨1, _⟩ => Ve2_of m hO c main_v3 (by decide) (by decide) (by decide) (by decide)
  | ⟨2, _⟩ => Ve2_of m hO c main_v3 (by decide) (by decide) (by decide) (by decide)
  | ⟨3, _⟩ => Ve2_of m hO c main_v49 (by decide) (by decide) (by decide) (by decide)
theorem Ve3_arr (c : Dev nD) : ∀ w : Fin 4, Ve3 m hO c (Pipeline.arrRef spec3 w) = W1 m c (Pipeline.arrRef spec3 w)
  | ⟨0, _⟩ => Ve3_of m hO c main_v1 (by decide) (by decide) (by decide) (by decide) (by decide) (by decide)
  | ⟨1, _⟩ => Ve3_of m hO c main_v3 (by decide) (by decide) (by decide) (by decide) (by decide) (by decide)
  | ⟨2, _⟩ => Ve3_of m hO c main_v3 (by decide) (by decide) (by decide) (by decide) (by decide) (by decide)
  | ⟨3, _⟩ => Ve3_of m hO c main_v55 (by decide) (by decide) (by decide) (by decide) (by decide) (by decide)

theorem Vx0_out (c : Dev nD) : Vx0 m hO c main_v37 = out0 m hO c := by
  show Function.update (V1 m c) main_v37 (outs m hO 2 main_v37 c) main_v37 = _
  rw [Function.update_self, outs_v37]
theorem Vx1_out (c : Dev nD) : Vx1 m hO c main_v43 = out1 m hO c := by
  show Function.update (V3 m (outs m hO) c) main_v43 (outs m hO 4 main_v43 c) main_v43 = _
  rw [Function.update_self, outs_v43]
theorem Vx2_out (c : Dev nD) : Vx2 m hO c main_v49 = out2 m hO c := by
  show Function.update (V5 m (outs m hO) c) main_v49 (outs m hO 6 main_v49 c) main_v49 = _
  rw [Function.update_self, outs_v49]
theorem Vx3_out (c : Dev nD) : Vx3 m hO c main_v55 = out3 m hO c := by
  show Function.update (V7 m (outs m hO) c) main_v55 (outs m hO 8 main_v55 c) main_v55 = _
  rw [Function.update_self, outs_v55]
theorem Vx0_rest (c : Dev nD) (r : Ref sig .tc) (h : r ≠ main_v37) : Vx0 m hO c r = Ve0 m hO c r :=
  V2_of m _ c r (by simpa using h)
theorem Vx1_rest (c : Dev nD) (r : Ref sig .tc) (h : r ≠ main_v43) : Vx1 m hO c r = Ve1 m hO c r :=
  V4_of m _ c r (by simpa using h)
theorem Vx2_rest (c : Dev nD) (r : Ref sig .tc) (h : r ≠ main_v49) : Vx2 m hO c r = Ve2 m hO c r :=
  V6_of m _ c r (by simpa using h)
theorem Vx3_rest (c : Dev nD) (r : Ref sig .tc) (h : r ≠ main_v55) : Vx3 m hO c r = Ve3 m hO c r :=
  V8_of m _ c r (by simpa using h)

end Cert.Kernel.Hand

end
-- ==== Proof.K.Cuts.lean ====
import proofs.«407368_j10496900071476_2_alg».proof.Proof.K.LaunchP
import proofs.«407368_j10496900071476_2_alg».proof.Proof.Gen.Kernel.Skeleton
import proofs.«407368_j10496900071476_2_alg».proof.Proof.K.RegionsP
import Idealize.ShloMosaic.Lib.StableHlo.Run
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cut1_0 (V : Valuation τ sig (Elt F)) :
    StableHlo.after hostOps1 V (Proc.devRef .tc main_v40) = (extractStridedSlice S32768 ![32768] (V main_v13) slices_S131072_S32768_32768 : IVec S32768 32) := by
  after_results_simp
theorem cut1_1 (V : Valuation τ sig (Elt F)) :
    StableHlo.after hostOps1 V (Proc.devRef .tc main_v41) = (extractStridedSlice S32768 ![32768] (V main_v23) slices_S131072_S32768_32768 : IVec S32768 32) := by
  after_results_simp
theorem cut1_2 (V : Valuation τ sig (Elt F)) :
    StableHlo.after hostOps1 V (Proc.devRef .tc main_v42) = (extractStridedSlice S32768 ![32768] (V main_v33) slices_S131072_S32768_32768 : IVec S32768 32) := by
  after_results_simp
theorem cut2_0 (V : Valuation τ sig (Elt F)) :
    StableHlo.after hostOps2 V (Proc.devRef .tc main_v46) = (extractStridedSlice S32768 ![65536] (V main_v13) slices_S131072_S32768_65536 : IVec S32768 32) := by
  after_results_simp
theorem cut2_1 (V : Valuation τ sig (Elt F)) :
    StableHlo.after hostOps2 V (Proc.devRef .tc main_v47) = (extractStridedSlice S32768 ![65536] (V main_v23) slices_S131072_S32768_65536 : IVec S32768 32) := by
  after_results_simp
theorem cut2_2 (V : Valuation τ sig (Elt F)) :
    StableHlo.after hostOps2 V (Proc.devRef .tc main_v48) = (extractStridedSlice S32768 ![65536] (V main_v33) slices_S131072_S32768_65536 : IVec S32768 32) := by
  after_results_simp
theorem cut3_0 (V : Valuation τ sig (Elt F)) :
    StableHlo.after hostOps3 V (Proc.devRef .tc main_v52) = (extractStridedSlice S32768 ![98304] (V main_v13) slices_S131072_S32768_98304 : IVec S32768 32) := by
  after_results_simp
theorem cut3_1 (V : Valuation τ sig (Elt F)) :
    StableHlo.after hostOps3 V (Proc.devRef .tc main_v53) = (extractStridedSlice S32768 ![98304] (V main_v23) slices_S131072_S32768_98304 : IVec S32768 32) := by
  after_results_simp
theorem cut3_2 (V : Valuation τ sig (Elt F)) :
    StableHlo.after hostOps3 V (Proc.devRef .tc main_v54) = (extractStridedSlice S32768 ![98304] (V main_v33) slices_S131072_S32768_98304 : IVec S32768 32) := by
  after_results_simp

end Cert.Kernel.Hand

end
-- ==== Proof.K.ChainT.lean ====
import proofs.«407368_j10496900071476_2_alg».proof.Proof.K.LaunchP
import proofs.«407368_j10496900071476_2_alg».proof.Proof.Gen.Kernel.Skeleton
import proofs.«407368_j10496900071476_2_alg».proof.Proof.K.Chain
import proofs.«407368_j10496900071476_2_alg».proof.Proof.K.Cuts
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

theorem Ve0_tbl (c : Dev nD) (k : Fin 3) : Ve0 m hO c (pre0.ref k) = tbl0 m k := by
  obtain rfl : c = 0 := Subsingleton.elim _ _
  rfl

theorem Ve1_tbl (c : Dev nD) : ∀ k : Fin 3, Ve1 m hO c (pre1.ref k) = tbl1 m k := by
  obtain rfl : c = 0 := Subsingleton.elim _ _
  intro k
  match k with
  | ⟨0, _⟩ =>
    show StableHlo.after hostOps1 (V2 m (outs m hO) 0) (Proc.devRef .tc main_v40) = StableHlo.after hostOps1 (V1 m 0) (Proc.devRef .tc main_v40)
    rw [cut1_0, cut1_0, (V2_of m _ 0 main_v13 (by decide))]
  | ⟨1, _⟩ =>
    show StableHlo.after hostOps1 (V2 m (outs m hO) 0) (Proc.devRef .tc main_v41) = StableHlo.after hostOps1 (V1 m 0) (Proc.devRef .tc main_v41)
    rw [cut1_1, cut1_1, (V2_of m _ 0 main_v23 (by decide))]
  | ⟨2, _⟩ =>
    show StableHlo.after hostOps1 (V2 m (outs m hO) 0) (Proc.devRef .tc main_v42) = StableHlo.after hostOps1 (V1 m 0) (Proc.devRef .tc main_v42)
    rw [cut1_2, cut1_2, (V2_of m _ 0 main_v33 (by decide))]

theorem Ve2_tbl (c : Dev nD) : ∀ k : Fin 3, Ve2 m hO c (pre2.ref k) = tbl2 m k := by
  obtain rfl : c = 0 := Subsingleton.elim _ _
  intro k
  match k with
  | ⟨0, _⟩ =>
    show StableHlo.after hostOps2 (V4 m (outs m hO) 0) (Proc.devRef .tc main_v46) = StableHlo.after hostOps2 (V1 m 0) (Proc.devRef .tc main_v46)
    rw [cut2_0, cut2_0, ((V4_of m _ 0 main_v13 (by decide)).trans ((V3_of m _ 0 main_v13 (by decide)).trans (V2_of m _ 0 main_v13 (by decide))))]
  | ⟨1, _⟩ =>
    show StableHlo.after hostOps2 (V4 m (outs m hO) 0) (Proc.devRef .tc main_v47) = StableHlo.after hostOps2 (V1 m 0) (Proc.devRef .tc main_v47)
    rw [cut2_1, cut2_1, ((V4_of m _ 0 main_v23 (by decide)).trans ((V3_of m _ 0 main_v23 (by decide)).trans (V2_of m _ 0 main_v23 (by decide))))]
  | ⟨2, _⟩ =>
    show StableHlo.after hostOps2 (V4 m (outs m hO) 0) (Proc.devRef .tc main_v48) = StableHlo.after hostOps2 (V1 m 0) (Proc.devRef .tc main_v48)
    rw [cut2_2, cut2_2, ((V4_of m _ 0 main_v33 (by decide)).trans ((V3_of m _ 0 main_v33 (by decide)).trans (V2_of m _ 0 main_v33 (by decide))))]

theorem Ve3_tbl (c : Dev nD) : ∀ k : Fin 3, Ve3 m hO c (pre3.ref k) = tbl3 m k := by
  obtain rfl : c = 0 := Subsingleton.elim _ _
  intro k
  match k with
  | ⟨0, _⟩ =>
    show StableHlo.after hostOps3 (V6 m (outs m hO) 0) (Proc.devRef .tc main_v52) = StableHlo.after hostOps3 (V1 m 0) (Proc.devRef .tc main_v52)
    rw [cut3_0, cut3_0, ((V6_of m _ 0 main_v13 (by decide)).trans ((V5_of m _ 0 main_v13 (by decide)).trans ((V4_of m _ 0 main_v13 (by decide)).trans ((V3_of m _ 0 main_v13 (by decide)).trans (V2_of m _ 0 main_v13 (by decide))))))]
  | ⟨1, _⟩ =>
    show StableHlo.after hostOps3 (V6 m (outs m hO) 0) (Proc.devRef .tc main_v53) = StableHlo.after hostOps3 (V1 m 0) (Proc.devRef .tc main_v53)
    rw [cut3_1, cut3_1, ((V6_of m _ 0 main_v23 (by decide)).trans ((V5_of m _ 0 main_v23 (by decide)).trans ((V4_of m _ 0 main_v23 (by decide)).trans ((V3_of m _ 0 main_v23 (by decide)).trans (V2_of m _ 0 main_v23 (by decide))))))]
  | ⟨2, _⟩ =>
    show StableHlo.after hostOps3 (V6 m (outs m hO) 0) (Proc.devRef .tc main_v54) = StableHlo.after hostOps3 (V1 m 0) (Proc.devRef .tc main_v54)
    rw [cut3_2, cut3_2, ((V6_of m _ 0 main_v33 (by decide)).trans ((V5_of m _ 0 main_v33 (by decide)).trans ((V4_of m _ 0 main_v33 (by decide)).trans ((V3_of m _ 0 main_v33 (by decide)).trans (V2_of m _ 0 main_v33 (by decide))))))]

end Cert.Kernel.Hand

end
-- ==== Proof.K.Oblig0.lean ====
import proofs.«407368_j10496900071476_2_alg».proof.Proof.K.LaunchP
import proofs.«407368_j10496900071476_2_alg».proof.Proof.Gen.Kernel.Skeleton
import proofs.«407368_j10496900071476_2_alg».proof.Proof.K.Data0
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

abbrev bodyAt0 (t : Fin (cfg0 a).N) : Prog (TpuEff nD τ sig (Elt F) Λ₀ .tc) PUnit :=
  cc0__triplet_chunk_kernel (grid0.coords t) (Memref.whole main_v34) (Memref.isWhole_whole _) (Memref.whole main_v35) (Memref.isWhole_whole _) (Memref.whole main_v36) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (Memref.whole cc0_scratch0) (Memref.isWhole_whole _)

abbrev ms0_0 (t : Fin (cfg0 a).N) : Memref sig .tc .vmem S1x1x256 .f32 := spec0_0.stage ((cfg0 a).slots t 0)
abbrev ms0_1 (t : Fin (cfg0 a).N) : Memref sig .tc .vmem S1x1x256 .f32 := spec0_1.stage ((cfg0 a).slots t 1)
abbrev ms0_2 (t : Fin (cfg0 a).N) : Memref sig .tc .vmem S1x1x256 .f32 := spec0_2.stage ((cfg0 a).slots t 2)
abbrev ms0_3 (t : Fin (cfg0 a).N) : Memref sig .tc .vmem S1x1 .f32 := spec0_3.stage ((cfg0 a).slots t 3)

theorem flush0_3 (t : Fin (cfg0 a).N) : ((cfg0 a).win 3).flush t = decide (t.val + 1 = grid0.N) := by
  unfold Pipeline.Window.flush
  have hno : ¬ ∃ h : t.val + 1 < grid0.N, ((cfg0 a).win 3).index ⟨t.val + 1, h⟩ ≠ ((cfg0 a).win 3).index t := fun ⟨h, hne⟩ => hne rfl
  rw [decide_eq_false hno, Bool.or_false]
  exact Bool.true_and _

theorem noflush0_3 (t : Fin (cfg0 a).N) (h : t.val ≠ 32767) : ((cfg0 a).win 3).flush t = false := by
  rw [flush0_3, decide_eq_false]; rw [N_0]; omega

theorem idle0_3 (t : Fin (cfg0 a).N) (h : t.val ≠ 32767) : (cfg0 a).idle 3 ((cfg0 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live0_3 (t : Fin (cfg0 a).N) (h : t.val = 32767) : (cfg0 a).idle 3 ((cfg0 a).grid.coords t) = false := by
  have h2 : k0_cond2 (grid0.coords t) = 1#1 := (last_iff t).mpr h
  show (!(k0_cond2 (grid0.coords t) == 1#1)) = false
  rw [h2]; rfl

theorem acc0_zero (c : Dev nD) (n : ℕ) (h : n ≤ (cfg0 a).N) (hz : n = 0) : acc0 a V c n h = k0_pay1 (F := F) := by
  subst hz; rfl

def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d))
    ∗ (∃ d, owns (c : Thread nD τ) (ms0_1 a t) fullShare ((dat0 a V c).before 1 t d))
    ∗ (∃ d, owns (c : Thread nD τ) (ms0_2 a t) fullShare ((dat0 a V c).before 2 t d))
    ∗ (∃ d, owns (c : Thread nD τ) (ms0_3 a t) fullShare ((dat0 a V c).before 3 t d)))

def bodyPost0 (c : Dev nD) (t : Fin (cfg0 a).N) : sProp 𝕄 :=
  iprop((dat0 a V c).Φ t.succ ∗ (dat0 a V c).owesAt () t.succ
    ∗ (dat0 a V c).leavesExact 0 t ∗ (dat0 a V c).leavesExact 1 t ∗ (dat0 a V c).leavesExact 2 t ∗ (dat0 a V c).leavesExact 3 t)

/-- At every point the body turns the invariant before the point into the invariant after it, by the point's position: first, last or in between. -/
theorem sound_body0 (c : Dev nD) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  simp only [(before0 a V c t).1, (before0 a V c t).2.1, (before0 a V c t).2.2]
  rw [show (dat0 a V c).owesAt () t.succ = (dat0 a V c).owesAt () t.castSucc from rfl]
  rw [show (dat0 a V c).Φ t.succ = Phi0 a V c (t.val + 1) t.isLt from rfl]
  rw [show (dat0 a V c).Φ t.castSucc = Phi0 a V c t.val (Nat.le_of_lt t.isLt) from by dsimp only [dat0]; simp only [Fin.coe_castSucc]]
  rw [show (dat0 a V c).leavesExact 0 t = owns (c : Thread nD τ) (ms0_0 a t) fullShare (iblk0 a V c 0 t) from by
    unfold Dat.leavesExact; rw [show (cfg0 a).idle 0 ((cfg0 a).grid.coords t) = false from rfl, after0_0]; rfl]
  rw [show (dat0 a V c).leavesExact 1 t = owns (c : Thread nD τ) (ms0_1 a t) fullShare (iblk0 a V c 1 t) from by
    unfold Dat.leavesExact; rw [show (cfg0 a).idle 1 ((cfg0 a).grid.coords t) = false from rfl, after0_1]; rfl]
  rw [show (dat0 a V c).leavesExact 2 t = owns (c : Thread nD τ) (ms0_2 a t) fullShare (iblk0 a V c 2 t) from by
    unfold Dat.leavesExact; rw [show (cfg0 a).idle 2 ((cfg0 a).grid.coords t) = false from rfl, after0_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat0 a V c) 3 t (idle0_3 a t (by omega)) (noflush0_3 a t (by omega))]
    rw [Phi0_zero a V c _ _ hz, Phi0_pos a V c _ _ (Nat.succ_ne_zero _), acc0_succ, acc0_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc0_scratch0) (Memref.isWhole_whole _) (iblk0 a V c 0 t) (iblk0 a V c 1 t) (iblk0 a V c 2 t) Set.univ _ h1 h2)
    iframe H0 H1 H2
    isplitl [HS]
    · iexists (Memref.whole cc0_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat0 a V c).leavesExact 3 t = owns (c : Thread nD τ) (ms0_3 a t) fullShare (acc0 a V c (t.val + 1) t.isLt) from by
        unfold Dat.leavesExact; rw [live0_3 a t hl, after0_3]; rfl]
      rw [Phi0_pos a V c _ _ hz, Phi0_pos a V c _ _ (Nat.succ_ne_zero _), acc0_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc0_scratch0) (Memref.isWhole_whole _) (iblk0 a V c 0 t) (iblk0 a V c 1 t) (iblk0 a V c 2 t) Set.univ _ (acc0 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat0 a V c) 3 t (idle0_3 a t hl) (noflush0_3 a t hl)]
      rw [Phi0_pos a V c _ _ hz, Phi0_pos a V c _ _ (Nat.succ_ne_zero _), acc0_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc0_scratch0) (Memref.isWhole_whole _) (iblk0 a V c 0 t) (iblk0 a V c 1 t) (iblk0 a V c 2 t) Set.univ _ (acc0 a V c t.val (Nat.le_of_lt t.isLt)) h1 h2)
      iframe H0 H1 H2
      isplitl [HS]; · iexact HS
      iintro ⟨H0, H1, H2, HS⟩
      iframe
      iexact H3

theorem body_obligation0 (c : Dev nD) : BodyObligation (dat0 (F := F) a V c) (defs₀ (F := F)) Variants.none () Set.univ := fun t => by
  rw [bigSep_W0, bigSep_W0]
  exact sound_body0 a V c t

end Cert.Kernel.Hand

end
-- ==== Proof.K.Seg0.lean ====
import proofs.«407368_j10496900071476_2_alg».proof.Proof.K.LaunchP
import proofs.«407368_j10496900071476_2_alg».proof.Proof.Gen.Kernel.Skeleton
import proofs.«407368_j10496900071476_2_alg».proof.Proof.K.ChainT
import proofs.«407368_j10496900071476_2_alg».proof.Proof.K.Oblig0
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg0 (F := F)).Adm)
variable (V : (c : Dev nD) → (b : Ref sig .tc) → Buf (Elt F) ((c : Thread nD τ).loc b))

theorem himg0 : (Finset.univ.image (Pipeline.arrRef spec0) : Finset (Ref sig .tc)) = {main_v1, main_v3, main_v37} := by decide

/-- The call's arrays are three buffers: the second feature table is read through two windows, each holding half of it. -/
theorem arrs0_iff (c : Dev nD) (Vb : (b : Ref sig .tc) → Buf (Elt F) ((c : Thread nD τ).loc b))
    (Fw : (w : Fin (cfg0 a).W) → Buf (Elt F) (((cfg0 a).win w).arr.view.loc (c.tc : Thread nD τ)))
    (hF : ∀ w, Fw w = Vb (Pipeline.arrRef spec0 w)) :
    (Pipeline.arrBufs spec0 c Vb : sProp 𝕄) ⊣⊢ (dat0 a V c).arrays Fw := by
  unfold Pipeline.arrBufs Dat.arrays
  rw [himg0, bigSep_insert (by decide), bigSep_insert (by decide), bigSep_singleton, bigSep_W0]
  simp only [hF]
  rw [show (dat0 a V c).share 0 = fullShare from rfl, show (dat0 a V c).share 1 = fullShare.left from rfl,
    show (dat0 a V c).share 2 = fullShare.right from rfl, show (dat0 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v37) ↦{fullShare} Vb main_v37)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub0_split (c : Dev nD) (Vb : (b : Ref sig .tc) → Buf (Elt F) ((c : Thread nD τ).loc b)) :
    (unscopedBufs c Vb : sProp 𝕄)
      = iprop(Pipeline.arrBufs spec0 c Vb ∗ Pipeline.unscopedRest spec0 c Vb) :=
  Pipeline.unscopedBufs_split₀ (fun _ : Unit => cfg0 a) () winFacts₀0.arr_unscoped c Vb

end Arrays

variable (m : (ℓ : Loc nD τ sig) → Buf (Elt F) ℓ) (hO : Oks m)

theorem hexit0_arr (c : Dev nD) : ∀ w : Fin 4, (pdats m hO (⟨0, by decide⟩ : Fin 4) c).arrAt w (cfg0 (adm0 m hO)).N = Vx0 m hO c (Pipeline.arrRef spec0 w)
  | ⟨0, _⟩ => (((dat0 (adm0 m hO) (W1 m) c).arrAt_in 0 rfl _).trans (A0_eq (adm0 m hO) (W1 m) c 0)).trans (((Vx0_rest m hO c main_v1 (by decide)).trans (Ve0_arr m hO c 0)).symm)
  | ⟨1, _⟩ => (((dat0 (adm0 m hO) (W1 m) c).arrAt_in 1 rfl _).trans (A0_eq (adm0 m hO) (W1 m) c 1)).trans (((Vx0_rest m hO c main_v3 (by decide)).trans (Ve0_arr m hO c 1)).symm)
  | ⟨2, _⟩ => (((dat0 (adm0 m hO) (W1 m) c).arrAt_in 2 rfl _).trans (A0_eq (adm0 m hO) (W1 m) c 2)).trans (((Vx0_rest m hO c main_v3 (by decide)).trans (Ve0_arr m hO c 2)).symm)
  | ⟨3, _⟩ => (Vx0_out m hO c).symm

set_option backward.isDefEq.respectTransparency.types false in
/-- The call as one item of the program: it finds every buffer as the host operations before it left them and changes its output array only. -/
def reg0 : Pipeline.RegionSeg (pcfgs (F := F)) (adm m hO) (pdats m hO) () defs₀ Variants.none (fun _ => (∅ : Finset Unit)) (fun _ _ => (0 : ℕ)) (⟨0, by decide⟩ : Fin 4) where
  win := winFacts₀0
  block_pos := block_pos0
  stage_whole := stage_whole0
  K := PEmpty
  osem k := k.elim
  ho := Pipeline.OwnSemFacts.none _
  hbody c := (body_obligation0 (adm0 m hO) (W1 m) c).loose
  hwaits := Pipeline.hwaits_of_owed_zero _ _ _ _ _ _ _ fun _ _ => rfl
  pre c := iprop(StableHlo.held (c : Thread nD τ) (Pipeline.ucRefs τ sig) (Ve0 m hO c) ∗ Rst c)
  post c := iprop(StableHlo.held (c : Thread nD τ) (Pipeline.ucRefs τ sig) (Vx0 m hO c) ∗ Rst c)
  X c := iprop(∃ r, prngReg c r)
  Y c := iprop((∃ r, prngReg c r) ∗ Pipeline.prefHeld pre0 c (fun _ => fullShare) (tbl0 m))
  Z c := Pipeline.unscopedRestP pre0 spec0 c (fun b => Ve0 m hO c b)
  hentry c := by
    rw [Pipeline.ownSems0_none]
    rw [show StableHlo.held (c : Thread nD τ) (Pipeline.ucRefs τ sig) (Ve0 m hO c) = (unscopedBufs c (fun b => Ve0 m hO c b) : sProp 𝕄)
      from (Pipeline.unscopedBufs_held c (Ve0 m hO c)).symm]
    rw [ub0_split (adm0 m hO) c (fun b => Ve0 m hO c b), Pipeline.unscopedRest_split preFacts0 c (fun b => Ve0 m hO c b)]
    rw [show (fun k => Ve0 m hO c (pre0.ref k)) = tbl0 m from funext fun k => Ve0_tbl m hO c k]
    iintro ⟨⟨⟨Harr, HT, Hrest⟩, Hp, HO⟩, -, -⟩
    imodintro
    isplitl [Harr]
    · iapply (arrs0_iff (adm0 m hO) (W1 m) c (fun b => Ve0 m hO c b) _ (fun w => (Ve0_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨0, by decide⟩ : Fin 4) c).Φ 0 = Phi0 (adm0 m hO) (W1 m) c 0 (Nat.zero_le _) from rfl, Phi0_zero _ _ _ _ _ rfl]
    unfold rest0
    rw [show Pipeline.scopedRest (Pipeline.pin (pcfgs (F := F)) (adm m hO) (⟨0, by decide⟩ : Fin 4)).spec c
      = _ from scopedRest0_split c]
    iintro ⟨Hp, HT, Hs, Hb⟩
    iframe
  hout c := by
    rw [Pipeline.ownSems0_none]
    rw [show (pdats m hO (⟨0, by decide⟩ : Fin 4) c).Φ (Fin.last _) = Phi0 (adm0 m hO) (W1 m) c (cfg0 (adm0 m hO)).N (le_refl _) from rfl,
      Phi0_pos _ _ _ _ _ (by rw [show (cfg0 (adm0 m hO)).N = 32768 from N_0]; decide)]
    rw [show Pipeline.scopedRest (Pipeline.pin (pcfgs (F := F)) (adm m hO) (⟨0, by decide⟩ : Fin 4)).spec c
      = _ from scopedRest0_split c]
    unfold owns rest0
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx0 m hO c) = (unscopedBufs c (fun b => Vx0 m hO c b) : sProp 𝕄)
      from (Pipeline.unscopedBufs_held c (Vx0 m hO c)).symm]
    rw [ub0_split (adm0 m hO) c (fun b => Vx0 m hO c b), Pipeline.unscopedRest_split preFacts0 c (fun b => Vx0 m hO c b)]
    rw [show (fun k => Vx0 m hO c (pre0.ref k)) = tbl0 m from funext fun k => (Vx0_rest m hO c (pre0.ref k) (by revert k; decide)).trans (Ve0_tbl m hO c k)]
    rw [show (Pipeline.unscopedRestP pre0 spec0 c (fun b => Vx0 m hO c b) : sProp 𝕄)
        = Pipeline.unscopedRestP pre0 spec0 c (fun b => Ve0 m hO c b) from by
      unfold Pipeline.unscopedRestP
      exact bigSep_congr fun b hb => by
        dsimp only
        rw [Vx0_rest m hO c b (fun e => (Finset.mem_sdiff.mp (Finset.mem_sdiff.mp hb).1).2 (e ▸ (by decide : main_v37 ∈ Finset.univ.image (Pipeline.arrRef spec0))))]]
    iintro ⟨Ha, HO, ⟨Hp, HT⟩, Hrest⟩
    imodintro
    isplitl [Ha HT Hrest]
    · isplitl [Ha]
      · iapply (arrs0_iff (adm0 m hO) (W1 m) c (fun b => Vx0 m hO c b) _ (hexit0_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.Kernel.Hand

end
-- ==== Proof.K.Oblig1.lean ====
import proofs.«407368_j10496900071476_2_alg».proof.Proof.K.LaunchP
import proofs.«407368_j10496900071476_2_alg».proof.Proof.Gen.Kernel.Skeleton
import proofs.«407368_j10496900071476_2_alg».proof.Proof.K.Data1
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

abbrev bodyAt1 (t : Fin (cfg1 a).N) : Prog (TpuEff nD τ sig (Elt F) Λ₀ .tc) PUnit :=
  cc0__triplet_chunk_kernel (grid0.coords t) (Memref.whole main_v40) (Memref.isWhole_whole _) (Memref.whole main_v41) (Memref.isWhole_whole _) (Memref.whole main_v42) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1))
    (spec1_2.stage ((cfg1 a).slots t 2)) (hstage1_2 (((cfg1 a).slots t 2).cast nbuf1_2)) (spec1_3.stage ((cfg1 a).slots t 3)) (hstage1_3 (((cfg1 a).slots t 3).cast nbuf1_3))
    (Memref.whole cc1_scratch0) (Memref.isWhole_whole _)

abbrev ms1_0 (t : Fin (cfg1 a).N) : Memref sig .tc .vmem S1x1x256 .f32 := spec1_0.stage ((cfg1 a).slots t 0)
abbrev ms1_1 (t : Fin (cfg1 a).N) : Memref sig .tc .vmem S1x1x256 .f32 := spec1_1.stage ((cfg1 a).slots t 1)
abbrev ms1_2 (t : Fin (cfg1 a).N) : Memref sig .tc .vmem S1x1x256 .f32 := spec1_2.stage ((cfg1 a).slots t 2)
abbrev ms1_3 (t : Fin (cfg1 a).N) : Memref sig .tc .vmem S1x1 .f32 := spec1_3.stage ((cfg1 a).slots t 3)

theorem flush1_3 (t : Fin (cfg1 a).N) : ((cfg1 a).win 3).flush t = decide (t.val + 1 = grid0.N) := by
  unfold Pipeline.Window.flush
  have hno : ¬ ∃ h : t.val + 1 < grid0.N, ((cfg1 a).win 3).index ⟨t.val + 1, h⟩ ≠ ((cfg1 a).win 3).index t := fun ⟨h, hne⟩ => hne rfl
  rw [decide_eq_false hno, Bool.or_false]
  exact Bool.true_and _

theorem noflush1_3 (t : Fin (cfg1 a).N) (h : t.val ≠ 32767) : ((cfg1 a).win 3).flush t = false := by
  rw [flush1_3, decide_eq_false]; rw [N_0]; omega

theorem idle1_3 (t : Fin (cfg1 a).N) (h : t.val ≠ 32767) : (cfg1 a).idle 3 ((cfg1 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live1_3 (t : Fin (cfg1 a).N) (h : t.val = 32767) : (cfg1 a).idle 3 ((cfg1 a).grid.coords t) = false := by
  have h2 : k0_cond2 (grid0.coords t) = 1#1 := (last_iff t).mpr h
  show (!(k0_cond2 (grid0.coords t) == 1#1)) = false
  rw [h2]; rfl

theorem acc1_zero (c : Dev nD) (n : ℕ) (h : n ≤ (cfg1 a).N) (hz : n = 0) : acc1 a V c n h = k0_pay1 (F := F) := by
  subst hz; rfl

def bodyPre1 (c : Dev nD) (t : Fin (cfg1 a).N) : sProp 𝕄 :=
  iprop((dat1 a V c).Φ t.castSucc ∗ (dat1 a V c).owesAt () t.castSucc
    ∗ (∃ d, owns (c : Thread nD τ) (ms1_0 a t) fullShare ((dat1 a V c).before 0 t d))
    ∗ (∃ d, owns (c : Thread nD τ) (ms1_1 a t) fullShare ((dat1 a V c).before 1 t d))
    ∗ (∃ d, owns (c : Thread nD τ) (ms1_2 a t) fullShare ((dat1 a V c).before 2 t d))
    ∗ (∃ d, owns (c : Thread nD τ) (ms1_3 a t) fullShare ((dat1 a V c).before 3 t d)))

def bodyPost1 (c : Dev nD) (t : Fin (cfg1 a).N) : sProp 𝕄 :=
  iprop((dat1 a V c).Φ t.succ ∗ (dat1 a V c).owesAt () t.succ
    ∗ (dat1 a V c).leavesExact 0 t ∗ (dat1 a V c).leavesExact 1 t ∗ (dat1 a V c).leavesExact 2 t ∗ (dat1 a V c).leavesExact 3 t)

/-- At every point the body turns the invariant before the point into the invariant after it, by the point's position: first, last or in between. -/
theorem sound_body1 (c : Dev nD) (t : Fin (cfg1 a).N) :
    bodyPre1 a V c t ⊢ wp frame (wpE (defs₀ (F := F)) Variants.none c none) Set.univ (bodyAt1 a t) (fun _ => bodyPost1 a V c t) := by
  unfold bodyPre1 bodyPost1 bodyAt1
  simp only [(before1 a V c t).1, (before1 a V c t).2.1, (before1 a V c t).2.2]
  rw [show (dat1 a V c).owesAt () t.succ = (dat1 a V c).owesAt () t.castSucc from rfl]
  rw [show (dat1 a V c).Φ t.succ = Phi1 a V c (t.val + 1) t.isLt from rfl]
  rw [show (dat1 a V c).Φ t.castSucc = Phi1 a V c t.val (Nat.le_of_lt t.isLt) from by dsimp only [dat1]; simp only [Fin.coe_castSucc]]
  rw [show (dat1 a V c).leavesExact 0 t = owns (c : Thread nD τ) (ms1_0 a t) fullShare (iblk1 a V c 0 t) from by
    unfold Dat.leavesExact; rw [show (cfg1 a).idle 0 ((cfg1 a).grid.coords t) = false from rfl, after1_0]; rfl]
  rw [show (dat1 a V c).leavesExact 1 t = owns (c : Thread nD τ) (ms1_1 a t) fullShare (iblk1 a V c 1 t) from by
    unfold Dat.leavesExact; rw [show (cfg1 a).idle 1 ((cfg1 a).grid.coords t) = false from rfl, after1_1]; rfl]
  rw [show (dat1 a V c).leavesExact 2 t = owns (c : Thread nD τ) (ms1_2 a t) fullShare (iblk1 a V c 2 t) from by
    unfold Dat.leavesExact; rw [show (cfg1 a).idle 2 ((cfg1 a).grid.coords t) = false from rfl, after1_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat1 a V c) 3 t (idle1_3 a t (by omega)) (noflush1_3 a t (by omega))]
    rw [Phi1_zero a V c _ _ hz, Phi1_pos a V c _ _ (Nat.succ_ne_zero _), acc1_succ, acc1_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc1_scratch0) (Memref.isWhole_whole _) (iblk1 a V c 0 t) (iblk1 a V c 1 t) (iblk1 a V c 2 t) Set.univ _ h1 h2)
    iframe H0 H1 H2
    isplitl [HS]
    · iexists (Memref.whole cc1_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat1 a V c).leavesExact 3 t = owns (c : Thread nD τ) (ms1_3 a t) fullShare (acc1 a V c (t.val + 1) t.isLt) from by
        unfold Dat.leavesExact; rw [live1_3 a t hl, after1_3]; rfl]
      rw [Phi1_pos a V c _ _ hz, Phi1_pos a V c _ _ (Nat.succ_ne_zero _), acc1_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc1_scratch0) (Memref.isWhole_whole _) (iblk1 a V c 0 t) (iblk1 a V c 1 t) (iblk1 a V c 2 t) Set.univ _ (acc1 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat1 a V c) 3 t (idle1_3 a t hl) (noflush1_3 a t hl)]
      rw [Phi1_pos a V c _ _ hz, Phi1_pos a V c _ _ (Nat.succ_ne_zero _), acc1_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc1_scratch0) (Memref.isWhole_whole _) (iblk1 a V c 0 t) (iblk1 a V c 1 t) (iblk1 a V c 2 t) Set.univ _ (acc1 a V c t.val (Nat.le_of_lt t.isLt)) h1 h2)
      iframe H0 H1 H2
      isplitl [HS]; · iexact HS
      iintro ⟨H0, H1, H2, HS⟩
      iframe
      iexact H3

theorem body_obligation1 (c : Dev nD) : BodyObligation (dat1 (F := F) a V c) (defs₀ (F := F)) Variants.none () Set.univ := fun t => by
  rw [bigSep_W1, bigSep_W1]
  exact sound_body1 a V c t

end Cert.Kernel.Hand

end
-- ==== Proof.K.Seg1.lean ====
import proofs.«407368_j10496900071476_2_alg».proof.Proof.K.LaunchP
import proofs.«407368_j10496900071476_2_alg».proof.Proof.Gen.Kernel.Skeleton
import proofs.«407368_j10496900071476_2_alg».proof.Proof.K.ChainT
import proofs.«407368_j10496900071476_2_alg».proof.Proof.K.Oblig1
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg1 (F := F)).Adm)
variable (V : (c : Dev nD) → (b : Ref sig .tc) → Buf (Elt F) ((c : Thread nD τ).loc b))

theorem himg1 : (Finset.univ.image (Pipeline.arrRef spec1) : Finset (Ref sig .tc)) = {main_v1, main_v3, main_v43} := by decide

/-- The call's arrays are three buffers: the second feature table is read through two windows, each holding half of it. -/
theorem arrs1_iff (c : Dev nD) (Vb : (b : Ref sig .tc) → Buf (Elt F) ((c : Thread nD τ).loc b))
    (Fw : (w : Fin (cfg1 a).W) → Buf (Elt F) (((cfg1 a).win w).arr.view.loc (c.tc : Thread nD τ)))
    (hF : ∀ w, Fw w = Vb (Pipeline.arrRef spec1 w)) :
    (Pipeline.arrBufs spec1 c Vb : sProp 𝕄) ⊣⊢ (dat1 a V c).arrays Fw := by
  unfold Pipeline.arrBufs Dat.arrays
  rw [himg1, bigSep_insert (by decide), bigSep_insert (by decide), bigSep_singleton, bigSep_W1]
  simp only [hF]
  rw [show (dat1 a V c).share 0 = fullShare from rfl, show (dat1 a V c).share 1 = fullShare.left from rfl,
    show (dat1 a V c).share 2 = fullShare.right from rfl, show (dat1 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v43) ↦{fullShare} Vb main_v43)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub1_split (c : Dev nD) (Vb : (b : Ref sig .tc) → Buf (Elt F) ((c : Thread nD τ).loc b)) :
    (unscopedBufs c Vb : sProp 𝕄)
      = iprop(Pipeline.arrBufs spec1 c Vb ∗ Pipeline.unscopedRest spec1 c Vb) :=
  Pipeline.unscopedBufs_split₀ (fun _ : Unit => cfg1 a) () winFacts₀1.arr_unscoped c Vb

end Arrays

variable (m : (ℓ : Loc nD τ sig) → Buf (Elt F) ℓ) (hO : Oks m)

theorem hexit1_arr (c : Dev nD) : ∀ w : Fin 4, (pdats m hO (⟨1, by decide⟩ : Fin 4) c).arrAt w (cfg1 (adm1 m hO)).N = Vx1 m hO c (Pipeline.arrRef spec1 w)
  | ⟨0, _⟩ => (((dat1 (adm1 m hO) (W1 m) c).arrAt_in 0 rfl _).trans (A1_eq (adm1 m hO) (W1 m) c 0)).trans (((Vx1_rest m hO c main_v1 (by decide)).trans (Ve1_arr m hO c 0)).symm)
  | ⟨1, _⟩ => (((dat1 (adm1 m hO) (W1 m) c).arrAt_in 1 rfl _).trans (A1_eq (adm1 m hO) (W1 m) c 1)).trans (((Vx1_rest m hO c main_v3 (by decide)).trans (Ve1_arr m hO c 1)).symm)
  | ⟨2, _⟩ => (((dat1 (adm1 m hO) (W1 m) c).arrAt_in 2 rfl _).trans (A1_eq (adm1 m hO) (W1 m) c 2)).trans (((Vx1_rest m hO c main_v3 (by decide)).trans (Ve1_arr m hO c 2)).symm)
  | ⟨3, _⟩ => (Vx1_out m hO c).symm

set_option backward.isDefEq.respectTransparency.types false in
/-- The call as one item of the program: it finds every buffer as the host operations before it left them and changes its output array only. -/
def reg1 : Pipeline.RegionSeg (pcfgs (F := F)) (adm m hO) (pdats m hO) () defs₀ Variants.none (fun _ => (∅ : Finset Unit)) (fun _ _ => (0 : ℕ)) (⟨1, by decide⟩ : Fin 4) where
  win := winFacts₀1
  block_pos := block_pos1
  stage_whole := stage_whole1
  K := PEmpty
  osem k := k.elim
  ho := Pipeline.OwnSemFacts.none _
  hbody c := (body_obligation1 (adm1 m hO) (W1 m) c).loose
  hwaits := Pipeline.hwaits_of_owed_zero _ _ _ _ _ _ _ fun _ _ => rfl
  pre c := iprop(StableHlo.held (c : Thread nD τ) (Pipeline.ucRefs τ sig) (Ve1 m hO c) ∗ Rst c)
  post c := iprop(StableHlo.held (c : Thread nD τ) (Pipeline.ucRefs τ sig) (Vx1 m hO c) ∗ Rst c)
  X c := iprop(∃ r, prngReg c r)
  Y c := iprop((∃ r, prngReg c r) ∗ Pipeline.prefHeld pre1 c (fun _ => fullShare) (tbl1 m))
  Z c := Pipeline.unscopedRestP pre1 spec1 c (fun b => Ve1 m hO c b)
  hentry c := by
    rw [Pipeline.ownSems0_none]
    rw [show StableHlo.held (c : Thread nD τ) (Pipeline.ucRefs τ sig) (Ve1 m hO c) = (unscopedBufs c (fun b => Ve1 m hO c b) : sProp 𝕄)
      from (Pipeline.unscopedBufs_held c (Ve1 m hO c)).symm]
    rw [ub1_split (adm1 m hO) c (fun b => Ve1 m hO c b), Pipeline.unscopedRest_split preFacts1 c (fun b => Ve1 m hO c b)]
    rw [show (fun k => Ve1 m hO c (pre1.ref k)) = tbl1 m from funext fun k => Ve1_tbl m hO c k]
    iintro ⟨⟨⟨Harr, HT, Hrest⟩, Hp, HO⟩, -, -⟩
    imodintro
    isplitl [Harr]
    · iapply (arrs1_iff (adm1 m hO) (W1 m) c (fun b => Ve1 m hO c b) _ (fun w => (Ve1_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨1, by decide⟩ : Fin 4) c).Φ 0 = Phi1 (adm1 m hO) (W1 m) c 0 (Nat.zero_le _) from rfl, Phi1_zero _ _ _ _ _ rfl]
    unfold rest1
    rw [show Pipeline.scopedRest (Pipeline.pin (pcfgs (F := F)) (adm m hO) (⟨1, by decide⟩ : Fin 4)).spec c
      = _ from scopedRest1_split c]
    iintro ⟨Hp, HT, Hs, Hb⟩
    iframe
  hout c := by
    rw [Pipeline.ownSems0_none]
    rw [show (pdats m hO (⟨1, by decide⟩ : Fin 4) c).Φ (Fin.last _) = Phi1 (adm1 m hO) (W1 m) c (cfg1 (adm1 m hO)).N (le_refl _) from rfl,
      Phi1_pos _ _ _ _ _ (by rw [show (cfg1 (adm1 m hO)).N = 32768 from N_0]; decide)]
    rw [show Pipeline.scopedRest (Pipeline.pin (pcfgs (F := F)) (adm m hO) (⟨1, by decide⟩ : Fin 4)).spec c
      = _ from scopedRest1_split c]
    unfold owns rest1
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx1 m hO c) = (unscopedBufs c (fun b => Vx1 m hO c b) : sProp 𝕄)
      from (Pipeline.unscopedBufs_held c (Vx1 m hO c)).symm]
    rw [ub1_split (adm1 m hO) c (fun b => Vx1 m hO c b), Pipeline.unscopedRest_split preFacts1 c (fun b => Vx1 m hO c b)]
    rw [show (fun k => Vx1 m hO c (pre1.ref k)) = tbl1 m from funext fun k => (Vx1_rest m hO c (pre1.ref k) (by revert k; decide)).trans (Ve1_tbl m hO c k)]
    rw [show (Pipeline.unscopedRestP pre1 spec1 c (fun b => Vx1 m hO c b) : sProp 𝕄)
        = Pipeline.unscopedRestP pre1 spec1 c (fun b => Ve1 m hO c b) from by
      unfold Pipeline.unscopedRestP
      exact bigSep_congr fun b hb => by
        dsimp only
        rw [Vx1_rest m hO c b (fun e => (Finset.mem_sdiff.mp (Finset.mem_sdiff.mp hb).1).2 (e ▸ (by decide : main_v43 ∈ Finset.univ.image (Pipeline.arrRef spec1))))]]
    iintro ⟨Ha, HO, ⟨Hp, HT⟩, Hrest⟩
    imodintro
    isplitl [Ha HT Hrest]
    · isplitl [Ha]
      · iapply (arrs1_iff (adm1 m hO) (W1 m) c (fun b => Vx1 m hO c b) _ (hexit1_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.Kernel.Hand

end
-- ==== Proof.K.Oblig2.lean ====
import proofs.«407368_j10496900071476_2_alg».proof.Proof.K.LaunchP
import proofs.«407368_j10496900071476_2_alg».proof.Proof.Gen.Kernel.Skeleton
import proofs.«407368_j10496900071476_2_alg».proof.Proof.K.Data2
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
variable (V : (c : Dev nD) → (b : Ref sig .tc) → Buf (Elt F) ((c : Thread nD τ).loc b))

abbrev bodyAt2 (t : Fin (cfg2 a).N) : Prog (TpuEff nD τ sig (Elt F) Λ₀ .tc) PUnit :=
  cc0__triplet_chunk_kernel (grid0.coords t) (Memref.whole main_v46) (Memref.isWhole_whole _) (Memref.whole main_v47) (Memref.isWhole_whole _) (Memref.whole main_v48) (Memref.isWhole_whole _)
    (spec2_0.stage ((cfg2 a).slots t 0)) (hstage2_0 (((cfg2 a).slots t 0).cast nbuf2_0)) (spec2_1.stage ((cfg2 a).slots t 1)) (hstage2_1 (((cfg2 a).slots t 1).cast nbuf2_1))
    (spec2_2.stage ((cfg2 a).slots t 2)) (hstage2_2 (((cfg2 a).slots t 2).cast nbuf2_2)) (spec2_3.stage ((cfg2 a).slots t 3)) (hstage2_3 (((cfg2 a).slots t 3).cast nbuf2_3))
    (Memref.whole cc2_scratch0) (Memref.isWhole_whole _)

abbrev ms2_0 (t : Fin (cfg2 a).N) : Memref sig .tc .vmem S1x1x256 .f32 := spec2_0.stage ((cfg2 a).slots t 0)
abbrev ms2_1 (t : Fin (cfg2 a).N) : Memref sig .tc .vmem S1x1x256 .f32 := spec2_1.stage ((cfg2 a).slots t 1)
abbrev ms2_2 (t : Fin (cfg2 a).N) : Memref sig .tc .vmem S1x1x256 .f32 := spec2_2.stage ((cfg2 a).slots t 2)
abbrev ms2_3 (t : Fin (cfg2 a).N) : Memref sig .tc .vmem S1x1 .f32 := spec2_3.stage ((cfg2 a).slots t 3)

theorem flush2_3 (t : Fin (cfg2 a).N) : ((cfg2 a).win 3).flush t = decide (t.val + 1 = grid0.N) := by
  unfold Pipeline.Window.flush
  have hno : ¬ ∃ h : t.val + 1 < grid0.N, ((cfg2 a).win 3).index ⟨t.val + 1, h⟩ ≠ ((cfg2 a).win 3).index t := fun ⟨h, hne⟩ => hne rfl
  rw [decide_eq_false hno, Bool.or_false]
  exact Bool.true_and _

theorem noflush2_3 (t : Fin (cfg2 a).N) (h : t.val ≠ 32767) : ((cfg2 a).win 3).flush t = false := by
  rw [flush2_3, decide_eq_false]; rw [N_0]; omega

theorem idle2_3 (t : Fin (cfg2 a).N) (h : t.val ≠ 32767) : (cfg2 a).idle 3 ((cfg2 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live2_3 (t : Fin (cfg2 a).N) (h : t.val = 32767) : (cfg2 a).idle 3 ((cfg2 a).grid.coords t) = false := by
  have h2 : k0_cond2 (grid0.coords t) = 1#1 := (last_iff t).mpr h
  show (!(k0_cond2 (grid0.coords t) == 1#1)) = false
  rw [h2]; rfl

theorem acc2_zero (c : Dev nD) (n : ℕ) (h : n ≤ (cfg2 a).N) (hz : n = 0) : acc2 a V c n h = k0_pay1 (F := F) := by
  subst hz; rfl

def bodyPre2 (c : Dev nD) (t : Fin (cfg2 a).N) : sProp 𝕄 :=
  iprop((dat2 a V c).Φ t.castSucc ∗ (dat2 a V c).owesAt () t.castSucc
    ∗ (∃ d, owns (c : Thread nD τ) (ms2_0 a t) fullShare ((dat2 a V c).before 0 t d))
    ∗ (∃ d, owns (c : Thread nD τ) (ms2_1 a t) fullShare ((dat2 a V c).before 1 t d))
    ∗ (∃ d, owns (c : Thread nD τ) (ms2_2 a t) fullShare ((dat2 a V c).before 2 t d))
    ∗ (∃ d, owns (c : Thread nD τ) (ms2_3 a t) fullShare ((dat2 a V c).before 3 t d)))

def bodyPost2 (c : Dev nD) (t : Fin (cfg2 a).N) : sProp 𝕄 :=
  iprop((dat2 a V c).Φ t.succ ∗ (dat2 a V c).owesAt () t.succ
    ∗ (dat2 a V c).leavesExact 0 t ∗ (dat2 a V c).leavesExact 1 t ∗ (dat2 a V c).leavesExact 2 t ∗ (dat2 a V c).leavesExact 3 t)

/-- At every point the body turns the invariant before the point into the invariant after it, by the point's position: first, last or in between. -/
theorem sound_body2 (c : Dev nD) (t : Fin (cfg2 a).N) :
    bodyPre2 a V c t ⊢ wp frame (wpE (defs₀ (F := F)) Variants.none c none) Set.univ (bodyAt2 a t) (fun _ => bodyPost2 a V c t) := by
  unfold bodyPre2 bodyPost2 bodyAt2
  simp only [(before2 a V c t).1, (before2 a V c t).2.1, (before2 a V c t).2.2]
  rw [show (dat2 a V c).owesAt () t.succ = (dat2 a V c).owesAt () t.castSucc from rfl]
  rw [show (dat2 a V c).Φ t.succ = Phi2 a V c (t.val + 1) t.isLt from rfl]
  rw [show (dat2 a V c).Φ t.castSucc = Phi2 a V c t.val (Nat.le_of_lt t.isLt) from by dsimp only [dat2]; simp only [Fin.coe_castSucc]]
  rw [show (dat2 a V c).leavesExact 0 t = owns (c : Thread nD τ) (ms2_0 a t) fullShare (iblk2 a V c 0 t) from by
    unfold Dat.leavesExact; rw [show (cfg2 a).idle 0 ((cfg2 a).grid.coords t) = false from rfl, after2_0]; rfl]
  rw [show (dat2 a V c).leavesExact 1 t = owns (c : Thread nD τ) (ms2_1 a t) fullShare (iblk2 a V c 1 t) from by
    unfold Dat.leavesExact; rw [show (cfg2 a).idle 1 ((cfg2 a).grid.coords t) = false from rfl, after2_1]; rfl]
  rw [show (dat2 a V c).leavesExact 2 t = owns (c : Thread nD τ) (ms2_2 a t) fullShare (iblk2 a V c 2 t) from by
    unfold Dat.leavesExact; rw [show (cfg2 a).idle 2 ((cfg2 a).grid.coords t) = false from rfl, after2_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat2 a V c) 3 t (idle2_3 a t (by omega)) (noflush2_3 a t (by omega))]
    rw [Phi2_zero a V c _ _ hz, Phi2_pos a V c _ _ (Nat.succ_ne_zero _), acc2_succ, acc2_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc2_scratch0) (Memref.isWhole_whole _) (iblk2 a V c 0 t) (iblk2 a V c 1 t) (iblk2 a V c 2 t) Set.univ _ h1 h2)
    iframe H0 H1 H2
    isplitl [HS]
    · iexists (Memref.whole cc2_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat2 a V c).leavesExact 3 t = owns (c : Thread nD τ) (ms2_3 a t) fullShare (acc2 a V c (t.val + 1) t.isLt) from by
        unfold Dat.leavesExact; rw [live2_3 a t hl, after2_3]; rfl]
      rw [Phi2_pos a V c _ _ hz, Phi2_pos a V c _ _ (Nat.succ_ne_zero _), acc2_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc2_scratch0) (Memref.isWhole_whole _) (iblk2 a V c 0 t) (iblk2 a V c 1 t) (iblk2 a V c 2 t) Set.univ _ (acc2 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat2 a V c) 3 t (idle2_3 a t hl) (noflush2_3 a t hl)]
      rw [Phi2_pos a V c _ _ hz, Phi2_pos a V c _ _ (Nat.succ_ne_zero _), acc2_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc2_scratch0) (Memref.isWhole_whole _) (iblk2 a V c 0 t) (iblk2 a V c 1 t) (iblk2 a V c 2 t) Set.univ _ (acc2 a V c t.val (Nat.le_of_lt t.isLt)) h1 h2)
      iframe H0 H1 H2
      isplitl [HS]; · iexact HS
      iintro ⟨H0, H1, H2, HS⟩
      iframe
      iexact H3

theorem body_obligation2 (c : Dev nD) : BodyObligation (dat2 (F := F) a V c) (defs₀ (F := F)) Variants.none () Set.univ := fun t => by
  rw [bigSep_W2, bigSep_W2]
  exact sound_body2 a V c t

end Cert.Kernel.Hand

end
-- ==== Proof.K.Seg2.lean ====
import proofs.«407368_j10496900071476_2_alg».proof.Proof.K.LaunchP
import proofs.«407368_j10496900071476_2_alg».proof.Proof.Gen.Kernel.Skeleton
import proofs.«407368_j10496900071476_2_alg».proof.Proof.K.ChainT
import proofs.«407368_j10496900071476_2_alg».proof.Proof.K.Oblig2
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg2 (F := F)).Adm)
variable (V : (c : Dev nD) → (b : Ref sig .tc) → Buf (Elt F) ((c : Thread nD τ).loc b))

theorem himg2 : (Finset.univ.image (Pipeline.arrRef spec2) : Finset (Ref sig .tc)) = {main_v1, main_v3, main_v49} := by decide

/-- The call's arrays are three buffers: the second feature table is read through two windows, each holding half of it. -/
theorem arrs2_iff (c : Dev nD) (Vb : (b : Ref sig .tc) → Buf (Elt F) ((c : Thread nD τ).loc b))
    (Fw : (w : Fin (cfg2 a).W) → Buf (Elt F) (((cfg2 a).win w).arr.view.loc (c.tc : Thread nD τ)))
    (hF : ∀ w, Fw w = Vb (Pipeline.arrRef spec2 w)) :
    (Pipeline.arrBufs spec2 c Vb : sProp 𝕄) ⊣⊢ (dat2 a V c).arrays Fw := by
  unfold Pipeline.arrBufs Dat.arrays
  rw [himg2, bigSep_insert (by decide), bigSep_insert (by decide), bigSep_singleton, bigSep_W2]
  simp only [hF]
  rw [show (dat2 a V c).share 0 = fullShare from rfl, show (dat2 a V c).share 1 = fullShare.left from rfl,
    show (dat2 a V c).share 2 = fullShare.right from rfl, show (dat2 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v49) ↦{fullShare} Vb main_v49)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub2_split (c : Dev nD) (Vb : (b : Ref sig .tc) → Buf (Elt F) ((c : Thread nD τ).loc b)) :
    (unscopedBufs c Vb : sProp 𝕄)
      = iprop(Pipeline.arrBufs spec2 c Vb ∗ Pipeline.unscopedRest spec2 c Vb) :=
  Pipeline.unscopedBufs_split₀ (fun _ : Unit => cfg2 a) () winFacts₀2.arr_unscoped c Vb

end Arrays

variable (m : (ℓ : Loc nD τ sig) → Buf (Elt F) ℓ) (hO : Oks m)

theorem hexit2_arr (c : Dev nD) : ∀ w : Fin 4, (pdats m hO (⟨2, by decide⟩ : Fin 4) c).arrAt w (cfg2 (adm2 m hO)).N = Vx2 m hO c (Pipeline.arrRef spec2 w)
  | ⟨0, _⟩ => (((dat2 (adm2 m hO) (W1 m) c).arrAt_in 0 rfl _).trans (A2_eq (adm2 m hO) (W1 m) c 0)).trans (((Vx2_rest m hO c main_v1 (by decide)).trans (Ve2_arr m hO c 0)).symm)
  | ⟨1, _⟩ => (((dat2 (adm2 m hO) (W1 m) c).arrAt_in 1 rfl _).trans (A2_eq (adm2 m hO) (W1 m) c 1)).trans (((Vx2_rest m hO c main_v3 (by decide)).trans (Ve2_arr m hO c 1)).symm)
  | ⟨2, _⟩ => (((dat2 (adm2 m hO) (W1 m) c).arrAt_in 2 rfl _).trans (A2_eq (adm2 m hO) (W1 m) c 2)).trans (((Vx2_rest m hO c main_v3 (by decide)).trans (Ve2_arr m hO c 2)).symm)
  | ⟨3, _⟩ => (Vx2_out m hO c).symm

set_option backward.isDefEq.respectTransparency.types false in
/-- The call as one item of the program: it finds every buffer as the host operations before it left them and changes its output array only. -/
def reg2 : Pipeline.RegionSeg (pcfgs (F := F)) (adm m hO) (pdats m hO) () defs₀ Variants.none (fun _ => (∅ : Finset Unit)) (fun _ _ => (0 : ℕ)) (⟨2, by decide⟩ : Fin 4) where
  win := winFacts₀2
  block_pos := block_pos2
  stage_whole := stage_whole2
  K := PEmpty
  osem k := k.elim
  ho := Pipeline.OwnSemFacts.none _
  hbody c := (body_obligation2 (adm2 m hO) (W1 m) c).loose
  hwaits := Pipeline.hwaits_of_owed_zero _ _ _ _ _ _ _ fun _ _ => rfl
  pre c := iprop(StableHlo.held (c : Thread nD τ) (Pipeline.ucRefs τ sig) (Ve2 m hO c) ∗ Rst c)
  post c := iprop(StableHlo.held (c : Thread nD τ) (Pipeline.ucRefs τ sig) (Vx2 m hO c) ∗ Rst c)
  X c := iprop(∃ r, prngReg c r)
  Y c := iprop((∃ r, prngReg c r) ∗ Pipeline.prefHeld pre2 c (fun _ => fullShare) (tbl2 m))
  Z c := Pipeline.unscopedRestP pre2 spec2 c (fun b => Ve2 m hO c b)
  hentry c := by
    rw [Pipeline.ownSems0_none]
    rw [show StableHlo.held (c : Thread nD τ) (Pipeline.ucRefs τ sig) (Ve2 m hO c) = (unscopedBufs c (fun b => Ve2 m hO c b) : sProp 𝕄)
      from (Pipeline.unscopedBufs_held c (Ve2 m hO c)).symm]
    rw [ub2_split (adm2 m hO) c (fun b => Ve2 m hO c b), Pipeline.unscopedRest_split preFacts2 c (fun b => Ve2 m hO c b)]
    rw [show (fun k => Ve2 m hO c (pre2.ref k)) = tbl2 m from funext fun k => Ve2_tbl m hO c k]
    iintro ⟨⟨⟨Harr, HT, Hrest⟩, Hp, HO⟩, -, -⟩
    imodintro
    isplitl [Harr]
    · iapply (arrs2_iff (adm2 m hO) (W1 m) c (fun b => Ve2 m hO c b) _ (fun w => (Ve2_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨2, by decide⟩ : Fin 4) c).Φ 0 = Phi2 (adm2 m hO) (W1 m) c 0 (Nat.zero_le _) from rfl, Phi2_zero _ _ _ _ _ rfl]
    unfold rest2
    rw [show Pipeline.scopedRest (Pipeline.pin (pcfgs (F := F)) (adm m hO) (⟨2, by decide⟩ : Fin 4)).spec c
      = _ from scopedRest2_split c]
    iintro ⟨Hp, HT, Hs, Hb⟩
    iframe
  hout c := by
    rw [Pipeline.ownSems0_none]
    rw [show (pdats m hO (⟨2, by decide⟩ : Fin 4) c).Φ (Fin.last _) = Phi2 (adm2 m hO) (W1 m) c (cfg2 (adm2 m hO)).N (le_refl _) from rfl,
      Phi2_pos _ _ _ _ _ (by rw [show (cfg2 (adm2 m hO)).N = 32768 from N_0]; decide)]
    rw [show Pipeline.scopedRest (Pipeline.pin (pcfgs (F := F)) (adm m hO) (⟨2, by decide⟩ : Fin 4)).spec c
      = _ from scopedRest2_split c]
    unfold owns rest2
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx2 m hO c) = (unscopedBufs c (fun b => Vx2 m hO c b) : sProp 𝕄)
      from (Pipeline.unscopedBufs_held c (Vx2 m hO c)).symm]
    rw [ub2_split (adm2 m hO) c (fun b => Vx2 m hO c b), Pipeline.unscopedRest_split preFacts2 c (fun b => Vx2 m hO c b)]
    rw [show (fun k => Vx2 m hO c (pre2.ref k)) = tbl2 m from funext fun k => (Vx2_rest m hO c (pre2.ref k) (by revert k; decide)).trans (Ve2_tbl m hO c k)]
    rw [show (Pipeline.unscopedRestP pre2 spec2 c (fun b => Vx2 m hO c b) : sProp 𝕄)
        = Pipeline.unscopedRestP pre2 spec2 c (fun b => Ve2 m hO c b) from by
      unfold Pipeline.unscopedRestP
      exact bigSep_congr fun b hb => by
        dsimp only
        rw [Vx2_rest m hO c b (fun e => (Finset.mem_sdiff.mp (Finset.mem_sdiff.mp hb).1).2 (e ▸ (by decide : main_v49 ∈ Finset.univ.image (Pipeline.arrRef spec2))))]]
    iintro ⟨Ha, HO, ⟨Hp, HT⟩, Hrest⟩
    imodintro
    isplitl [Ha HT Hrest]
    · isplitl [Ha]
      · iapply (arrs2_iff (adm2 m hO) (W1 m) c (fun b => Vx2 m hO c b) _ (hexit2_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.Kernel.Hand

end
-- ==== Proof.K.Oblig3.lean ====
import proofs.«407368_j10496900071476_2_alg».proof.Proof.K.LaunchP
import proofs.«407368_j10496900071476_2_alg».proof.Proof.Gen.Kernel.Skeleton
import proofs.«407368_j10496900071476_2_alg».proof.Proof.K.Data3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
variable (V : (c : Dev nD) → (b : Ref sig .tc) → Buf (Elt F) ((c : Thread nD τ).loc b))

abbrev bodyAt3 (t : Fin (cfg3 a).N) : Prog (TpuEff nD τ sig (Elt F) Λ₀ .tc) PUnit :=
  cc0__triplet_chunk_kernel (grid0.coords t) (Memref.whole main_v52) (Memref.isWhole_whole _) (Memref.whole main_v53) (Memref.isWhole_whole _) (Memref.whole main_v54) (Memref.isWhole_whole _)
    (spec3_0.stage ((cfg3 a).slots t 0)) (hstage3_0 (((cfg3 a).slots t 0).cast nbuf3_0)) (spec3_1.stage ((cfg3 a).slots t 1)) (hstage3_1 (((cfg3 a).slots t 1).cast nbuf3_1))
    (spec3_2.stage ((cfg3 a).slots t 2)) (hstage3_2 (((cfg3 a).slots t 2).cast nbuf3_2)) (spec3_3.stage ((cfg3 a).slots t 3)) (hstage3_3 (((cfg3 a).slots t 3).cast nbuf3_3))
    (Memref.whole cc3_scratch0) (Memref.isWhole_whole _)

abbrev ms3_0 (t : Fin (cfg3 a).N) : Memref sig .tc .vmem S1x1x256 .f32 := spec3_0.stage ((cfg3 a).slots t 0)
abbrev ms3_1 (t : Fin (cfg3 a).N) : Memref sig .tc .vmem S1x1x256 .f32 := spec3_1.stage ((cfg3 a).slots t 1)
abbrev ms3_2 (t : Fin (cfg3 a).N) : Memref sig .tc .vmem S1x1x256 .f32 := spec3_2.stage ((cfg3 a).slots t 2)
abbrev ms3_3 (t : Fin (cfg3 a).N) : Memref sig .tc .vmem S1x1 .f32 := spec3_3.stage ((cfg3 a).slots t 3)

theorem flush3_3 (t : Fin (cfg3 a).N) : ((cfg3 a).win 3).flush t = decide (t.val + 1 = grid0.N) := by
  unfold Pipeline.Window.flush
  have hno : ¬ ∃ h : t.val + 1 < grid0.N, ((cfg3 a).win 3).index ⟨t.val + 1, h⟩ ≠ ((cfg3 a).win 3).index t := fun ⟨h, hne⟩ => hne rfl
  rw [decide_eq_false hno, Bool.or_false]
  exact Bool.true_and _

theorem noflush3_3 (t : Fin (cfg3 a).N) (h : t.val ≠ 32767) : ((cfg3 a).win 3).flush t = false := by
  rw [flush3_3, decide_eq_false]; rw [N_0]; omega

theorem idle3_3 (t : Fin (cfg3 a).N) (h : t.val ≠ 32767) : (cfg3 a).idle 3 ((cfg3 a).grid.coords t) = true := by
  have h2 : ¬ k0_cond2 (grid0.coords t) = 1#1 := fun e => h ((last_iff t).mp e)
  show (!(k0_cond2 (grid0.coords t) == 1#1)) = true
  rw [Bool.not_eq_true', beq_eq_false_iff_ne]; exact h2

theorem live3_3 (t : Fin (cfg3 a).N) (h : t.val = 32767) : (cfg3 a).idle 3 ((cfg3 a).grid.coords t) = false := by
  have h2 : k0_cond2 (grid0.coords t) = 1#1 := (last_iff t).mpr h
  show (!(k0_cond2 (grid0.coords t) == 1#1)) = false
  rw [h2]; rfl

theorem acc3_zero (c : Dev nD) (n : ℕ) (h : n ≤ (cfg3 a).N) (hz : n = 0) : acc3 a V c n h = k0_pay1 (F := F) := by
  subst hz; rfl

def bodyPre3 (c : Dev nD) (t : Fin (cfg3 a).N) : sProp 𝕄 :=
  iprop((dat3 a V c).Φ t.castSucc ∗ (dat3 a V c).owesAt () t.castSucc
    ∗ (∃ d, owns (c : Thread nD τ) (ms3_0 a t) fullShare ((dat3 a V c).before 0 t d))
    ∗ (∃ d, owns (c : Thread nD τ) (ms3_1 a t) fullShare ((dat3 a V c).before 1 t d))
    ∗ (∃ d, owns (c : Thread nD τ) (ms3_2 a t) fullShare ((dat3 a V c).before 2 t d))
    ∗ (∃ d, owns (c : Thread nD τ) (ms3_3 a t) fullShare ((dat3 a V c).before 3 t d)))

def bodyPost3 (c : Dev nD) (t : Fin (cfg3 a).N) : sProp 𝕄 :=
  iprop((dat3 a V c).Φ t.succ ∗ (dat3 a V c).owesAt () t.succ
    ∗ (dat3 a V c).leavesExact 0 t ∗ (dat3 a V c).leavesExact 1 t ∗ (dat3 a V c).leavesExact 2 t ∗ (dat3 a V c).leavesExact 3 t)

/-- At every point the body turns the invariant before the point into the invariant after it, by the point's position: first, last or in between. -/
theorem sound_body3 (c : Dev nD) (t : Fin (cfg3 a).N) :
    bodyPre3 a V c t ⊢ wp frame (wpE (defs₀ (F := F)) Variants.none c none) Set.univ (bodyAt3 a t) (fun _ => bodyPost3 a V c t) := by
  unfold bodyPre3 bodyPost3 bodyAt3
  simp only [(before3 a V c t).1, (before3 a V c t).2.1, (before3 a V c t).2.2]
  rw [show (dat3 a V c).owesAt () t.succ = (dat3 a V c).owesAt () t.castSucc from rfl]
  rw [show (dat3 a V c).Φ t.succ = Phi3 a V c (t.val + 1) t.isLt from rfl]
  rw [show (dat3 a V c).Φ t.castSucc = Phi3 a V c t.val (Nat.le_of_lt t.isLt) from by dsimp only [dat3]; simp only [Fin.coe_castSucc]]
  rw [show (dat3 a V c).leavesExact 0 t = owns (c : Thread nD τ) (ms3_0 a t) fullShare (iblk3 a V c 0 t) from by
    unfold Dat.leavesExact; rw [show (cfg3 a).idle 0 ((cfg3 a).grid.coords t) = false from rfl, after3_0]; rfl]
  rw [show (dat3 a V c).leavesExact 1 t = owns (c : Thread nD τ) (ms3_1 a t) fullShare (iblk3 a V c 1 t) from by
    unfold Dat.leavesExact; rw [show (cfg3 a).idle 1 ((cfg3 a).grid.coords t) = false from rfl, after3_1]; rfl]
  rw [show (dat3 a V c).leavesExact 2 t = owns (c : Thread nD τ) (ms3_2 a t) fullShare (iblk3 a V c 2 t) from by
    unfold Dat.leavesExact; rw [show (cfg3 a).idle 2 ((cfg3 a).grid.coords t) = false from rfl, after3_2]; rfl]
  have hN : t.val < 32768 := lt_of_lt_of_eq t.isLt N_0
  by_cases hz : t.val = 0
  · have h1 : isFirst (grid0.coords t) := (first_iff t).mpr hz
    have h2 : ¬ k0_cond2 (grid0.coords t) = 1#1 := fun e => by have := (last_iff t).mp e; omega
    rw [Dat.leavesExact_idle (dat3 a V c) 3 t (idle3_3 a t (by omega)) (noflush3_3 a t (by omega))]
    rw [Phi3_zero a V c _ _ hz, Phi3_pos a V c _ _ (Nat.succ_ne_zero _), acc3_succ, acc3_zero a V c _ _ hz]
    iintro ⟨⟨⟨%f, HS⟩, HR⟩, Ho, ⟨%d0, H0⟩, ⟨%d1, H1⟩, ⟨%d2, H2⟩, H3⟩
    iapply (body_first c (grid0.coords t) _ _ _ _ _ _ _ _ _ _ _ _ _ _ (Memref.whole cc3_scratch0) (Memref.isWhole_whole _) (iblk3 a V c 0 t) (iblk3 a V c 1 t) (iblk3 a V c 2 t) Set.univ _ h1 h2)
    iframe H0 H1 H2
    isplitl [HS]
    · iexists (Memref.whole cc3_scratch0 : Memref sig .tc .vmem S1x1 .f32).view.read (Elt F) f
      unfold owns; iexists f; isplitr; · ipureintro; rfl
      rw [View.set_whole]; iexact HS
    iintro ⟨H0, H1, H2, HS⟩
    iframe
    iexact H3
  · have h1 : ¬ isFirst (grid0.coords t) := fun e => hz ((first_iff t).mp e)
    by_cases hl : t.val = 32767
    · have h2 : k0_cond2 (grid0.coords t) = 1#1 := (last_iff t).mpr hl
      rw [show (dat3 a V c).leavesExact 3 t = owns (c : Thread nD τ) (ms3_3 a t) fullShare (acc3 a V c (t.val + 1) t.isLt) from by
        unfold Dat.leavesExact; rw [live3_3 a t hl, after3_3]; rfl]
      rw [Phi3_pos a V c _ _ hz, Phi3_pos a V c _ _ (Nat.succ_ne_zero _), acc3_succ]
      iintro ⟨⟨HS, HR⟩, Ho, ⟨%d0, H0⟩, ⟨%d1, H1⟩, ⟨%d2, H2⟩, ⟨%d3, H3⟩⟩
      iapply (body_last c (grid0.coords t) _ _ _ _ _ _ _ _ _ _ _ _ _ _ (Memref.whole cc3_scratch0) (Memref.isWhole_whole _) (iblk3 a V c 0 t) (iblk3 a V c 1 t) (iblk3 a V c 2 t) Set.univ _ (acc3 a V c t.val (Nat.le_of_lt t.isLt)) h1 h2)
      iframe H0 H1 H2
      isplitl [H3]; · iexists _; iexact H3
      isplitl [HS]; · iexact HS
      iintro ⟨H0, H1, H2, H3, HS⟩
      iframe
    · have h2 : ¬ k0_cond2 (grid0.coords t) = 1#1 := fun e => hl ((last_iff t).mp e)
      rw [Dat.leavesExact_idle (dat3 a V c) 3 t (idle3_3 a t hl) (noflush3_3 a t hl)]
      rw [Phi3_pos a V c _ _ hz, Phi3_pos a V c _ _ (Nat.succ_ne_zero _), acc3_succ]
      iintro ⟨⟨HS, HR⟩, Ho, ⟨%d0, H0⟩, ⟨%d1, H1⟩, ⟨%d2, H2⟩, H3⟩
      iapply (body_mid c (grid0.coords t) _ _ _ _ _ _ _ _ _ _ _ _ _ _ (Memref.whole cc3_scratch0) (Memref.isWhole_whole _) (iblk3 a V c 0 t) (iblk3 a V c 1 t) (iblk3 a V c 2 t) Set.univ _ (acc3 a V c t.val (Nat.le_of_lt t.isLt)) h1 h2)
      iframe H0 H1 H2
      isplitl [HS]; · iexact HS
      iintro ⟨H0, H1, H2, HS⟩
      iframe
      iexact H3

theorem body_obligation3 (c : Dev nD) : BodyObligation (dat3 (F := F) a V c) (defs₀ (F := F)) Variants.none () Set.univ := fun t => by
  rw [bigSep_W3, bigSep_W3]
  exact sound_body3 a V c t

end Cert.Kernel.Hand

end
-- ==== Proof.K.Seg3.lean ====
import proofs.«407368_j10496900071476_2_alg».proof.Proof.K.LaunchP
import proofs.«407368_j10496900071476_2_alg».proof.Proof.Gen.Kernel.Skeleton
import proofs.«407368_j10496900071476_2_alg».proof.Proof.K.ChainT
import proofs.«407368_j10496900071476_2_alg».proof.Proof.K.Oblig3
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays

variable (a : (pcfg3 (F := F)).Adm)
variable (V : (c : Dev nD) → (b : Ref sig .tc) → Buf (Elt F) ((c : Thread nD τ).loc b))

theorem himg3 : (Finset.univ.image (Pipeline.arrRef spec3) : Finset (Ref sig .tc)) = {main_v1, main_v3, main_v55} := by decide

/-- The call's arrays are three buffers: the second feature table is read through two windows, each holding half of it. -/
theorem arrs3_iff (c : Dev nD) (Vb : (b : Ref sig .tc) → Buf (Elt F) ((c : Thread nD τ).loc b))
    (Fw : (w : Fin (cfg3 a).W) → Buf (Elt F) (((cfg3 a).win w).arr.view.loc (c.tc : Thread nD τ)))
    (hF : ∀ w, Fw w = Vb (Pipeline.arrRef spec3 w)) :
    (Pipeline.arrBufs spec3 c Vb : sProp 𝕄) ⊣⊢ (dat3 a V c).arrays Fw := by
  unfold Pipeline.arrBufs Dat.arrays
  rw [himg3, bigSep_insert (by decide), bigSep_insert (by decide), bigSep_singleton, bigSep_W3]
  simp only [hF]
  rw [show (dat3 a V c).share 0 = fullShare from rfl, show (dat3 a V c).share 1 = fullShare.left from rfl,
    show (dat3 a V c).share 2 = fullShare.right from rfl, show (dat3 a V c).share 3 = fullShare from rfl]
  simp only [View.set_whole]
  show (iprop((((c : Thread nD τ).loc main_v1) ↦{fullShare} Vb main_v1) ∗ (((c : Thread nD τ).loc main_v3) ↦{fullShare} Vb main_v3)
      ∗ (((c : Thread nD τ).loc main_v55) ↦{fullShare} Vb main_v55)) : sProp 𝕄) ⊣⊢ _
  constructor
  · iintro ⟨H1, H3, H37⟩
    ihave H3' := (halves c main_v3 (Vb main_v3)).1 $$ H3
    icases H3' with ⟨HL, HR⟩
    iframe
  · iintro ⟨H1, HL, HR, H37⟩
    iframe H1 H37
    iapply (halves c main_v3 (Vb main_v3)).2
    iframe

include a in
theorem ub3_split (c : Dev nD) (Vb : (b : Ref sig .tc) → Buf (Elt F) ((c : Thread nD τ).loc b)) :
    (unscopedBufs c Vb : sProp 𝕄)
      = iprop(Pipeline.arrBufs spec3 c Vb ∗ Pipeline.unscopedRest spec3 c Vb) :=
  Pipeline.unscopedBufs_split₀ (fun _ : Unit => cfg3 a) () winFacts₀3.arr_unscoped c Vb

end Arrays

variable (m : (ℓ : Loc nD τ sig) → Buf (Elt F) ℓ) (hO : Oks m)

theorem hexit3_arr (c : Dev nD) : ∀ w : Fin 4, (pdats m hO (⟨3, by decide⟩ : Fin 4) c).arrAt w (cfg3 (adm3 m hO)).N = Vx3 m hO c (Pipeline.arrRef spec3 w)
  | ⟨0, _⟩ => (((dat3 (adm3 m hO) (W1 m) c).arrAt_in 0 rfl _).trans (A3_eq (adm3 m hO) (W1 m) c 0)).trans (((Vx3_rest m hO c main_v1 (by decide)).trans (Ve3_arr m hO c 0)).symm)
  | ⟨1, _⟩ => (((dat3 (adm3 m hO) (W1 m) c).arrAt_in 1 rfl _).trans (A3_eq (adm3 m hO) (W1 m) c 1)).trans (((Vx3_rest m hO c main_v3 (by decide)).trans (Ve3_arr m hO c 1)).symm)
  | ⟨2, _⟩ => (((dat3 (adm3 m hO) (W1 m) c).arrAt_in 2 rfl _).trans (A3_eq (adm3 m hO) (W1 m) c 2)).trans (((Vx3_rest m hO c main_v3 (by decide)).trans (Ve3_arr m hO c 2)).symm)
  | ⟨3, _⟩ => (Vx3_out m hO c).symm

set_option backward.isDefEq.respectTransparency.types false in
/-- The call as one item of the program: it finds every buffer as the host operations before it left them and changes its output array only. -/
def reg3 : Pipeline.RegionSeg (pcfgs (F := F)) (adm m hO) (pdats m hO) () defs₀ Variants.none (fun _ => (∅ : Finset Unit)) (fun _ _ => (0 : ℕ)) (⟨3, by decide⟩ : Fin 4) where
  win := winFacts₀3
  block_pos := block_pos3
  stage_whole := stage_whole3
  K := PEmpty
  osem k := k.elim
  ho := Pipeline.OwnSemFacts.none _
  hbody c := (body_obligation3 (adm3 m hO) (W1 m) c).loose
  hwaits := Pipeline.hwaits_of_owed_zero _ _ _ _ _ _ _ fun _ _ => rfl
  pre c := iprop(StableHlo.held (c : Thread nD τ) (Pipeline.ucRefs τ sig) (Ve3 m hO c) ∗ Rst c)
  post c := iprop(StableHlo.held (c : Thread nD τ) (Pipeline.ucRefs τ sig) (Vx3 m hO c) ∗ Rst c)
  X c := iprop(∃ r, prngReg c r)
  Y c := iprop((∃ r, prngReg c r) ∗ Pipeline.prefHeld pre3 c (fun _ => fullShare) (tbl3 m))
  Z c := Pipeline.unscopedRestP pre3 spec3 c (fun b => Ve3 m hO c b)
  hentry c := by
    rw [Pipeline.ownSems0_none]
    rw [show StableHlo.held (c : Thread nD τ) (Pipeline.ucRefs τ sig) (Ve3 m hO c) = (unscopedBufs c (fun b => Ve3 m hO c b) : sProp 𝕄)
      from (Pipeline.unscopedBufs_held c (Ve3 m hO c)).symm]
    rw [ub3_split (adm3 m hO) c (fun b => Ve3 m hO c b), Pipeline.unscopedRest_split preFacts3 c (fun b => Ve3 m hO c b)]
    rw [show (fun k => Ve3 m hO c (pre3.ref k)) = tbl3 m from funext fun k => Ve3_tbl m hO c k]
    iintro ⟨⟨⟨Harr, HT, Hrest⟩, Hp, HO⟩, -, -⟩
    imodintro
    isplitl [Harr]
    · iapply (arrs3_iff (adm3 m hO) (W1 m) c (fun b => Ve3 m hO c b) _ (fun w => (Ve3_arr m hO c w).symm)).1
      iexact Harr
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO (⟨3, by decide⟩ : Fin 4) c).Φ 0 = Phi3 (adm3 m hO) (W1 m) c 0 (Nat.zero_le _) from rfl, Phi3_zero _ _ _ _ _ rfl]
    unfold rest3
    rw [show Pipeline.scopedRest (Pipeline.pin (pcfgs (F := F)) (adm m hO) (⟨3, by decide⟩ : Fin 4)).spec c
      = _ from scopedRest3_split c]
    iintro ⟨Hp, HT, Hs, Hb⟩
    iframe
  hout c := by
    rw [Pipeline.ownSems0_none]
    rw [show (pdats m hO (⟨3, by decide⟩ : Fin 4) c).Φ (Fin.last _) = Phi3 (adm3 m hO) (W1 m) c (cfg3 (adm3 m hO)).N (le_refl _) from rfl,
      Phi3_pos _ _ _ _ _ (by rw [show (cfg3 (adm3 m hO)).N = 32768 from N_0]; decide)]
    rw [show Pipeline.scopedRest (Pipeline.pin (pcfgs (F := F)) (adm m hO) (⟨3, by decide⟩ : Fin 4)).spec c
      = _ from scopedRest3_split c]
    unfold owns rest3
    iintro ⟨⟨%f, -, Hs⟩, Hb, Hp, HT⟩
    isplitl [Hp HT]
    · isplitl [Hp]; · iexact Hp
      iexact HT
    isplitr; · iempintro
    isplitl [Hs]
    · iexists f; rw [View.set_whole]; iexact Hs
    iexact Hb
  hexit c := by
    rw [show StableHlo.held (c : Thread nD τ) (Pipeline.ucRefs τ sig) (Vx3 m hO c) = (unscopedBufs c (fun b => Vx3 m hO c b) : sProp 𝕄)
      from (Pipeline.unscopedBufs_held c (Vx3 m hO c)).symm]
    rw [ub3_split (adm3 m hO) c (fun b => Vx3 m hO c b), Pipeline.unscopedRest_split preFacts3 c (fun b => Vx3 m hO c b)]
    rw [show (fun k => Vx3 m hO c (pre3.ref k)) = tbl3 m from funext fun k => (Vx3_rest m hO c (pre3.ref k) (by revert k; decide)).trans (Ve3_tbl m hO c k)]
    rw [show (Pipeline.unscopedRestP pre3 spec3 c (fun b => Vx3 m hO c b) : sProp 𝕄)
        = Pipeline.unscopedRestP pre3 spec3 c (fun b => Ve3 m hO c b) from by
      unfold Pipeline.unscopedRestP
      exact bigSep_congr fun b hb => by
        dsimp only
        rw [Vx3_rest m hO c b (fun e => (Finset.mem_sdiff.mp (Finset.mem_sdiff.mp hb).1).2 (e ▸ (by decide : main_v55 ∈ Finset.univ.image (Pipeline.arrRef spec3))))]]
    iintro ⟨Ha, HO, ⟨Hp, HT⟩, Hrest⟩
    imodintro
    isplitl [Ha HT Hrest]
    · isplitl [Ha]
      · iapply (arrs3_iff (adm3 m hO) (W1 m) c (fun b => Vx3 m hO c b) _ (hexit3_arr m hO c)).2
        iexact Ha
      isplitl [HT]; · iexact HT
      iexact Hrest
    isplitl [Hp]; · iexact Hp
    unfold Pipeline.Dat.owesAt Pipeline.owesWithin
    icases HO with ⟨%W, -, HO⟩; iexists W; iexact HO

end Cert.Kernel.Hand

end
-- ==== Proof.K.Run.lean ====
import proofs.«407368_j10496900071476_2_alg».proof.Proof.K.LaunchP
import proofs.«407368_j10496900071476_2_alg».proof.Proof.Gen.Kernel.Skeleton
import proofs.«407368_j10496900071476_2_alg».proof.Proof.K.Seg0
import proofs.«407368_j10496900071476_2_alg».proof.Proof.K.Seg1
import proofs.«407368_j10496900071476_2_alg».proof.Proof.K.Seg2
import proofs.«407368_j10496900071476_2_alg».proof.Proof.K.Seg3
import Idealize.ShloMosaic.Lib.Pipeline.Kit
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (hO : Oks m) (ρ : Dev nD → PrngReg)

abbrev endsAt (c : Dev nD) (μ : (ℓ : Loc nD τ sig) → Buf (Elt F) ℓ) : Prop :=
  μ ((c.tc : Thread nD τ).loc main_v58) = V9 m (outs m hO) c main_v58
      ∧ μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)

abbrev u0 := initOf (Pipeline.cells (Pipeline.pin (pcfgs (F := F)) (adm m hO)) (cellOf_inj (adm m hO))) (Pipeline.launchToks (Pipeline.pin (pcfgs (F := F)) (adm m hO)) (cellOf_inj (adm m hO)))

abbrev theSegs := segs m (outs m hO) Variants.none (fun _ => (∅ : Finset Unit)) (fun _ _ => (0 : ℕ)) (fun _ c => Rst c) () (adm m hO) (pdats m hO) (reg0 m hO) (reg1 m hO) (reg2 m hO) (reg3 m hO)

set_option backward.isDefEq.respectTransparency.types false in
theorem run_main : θ_run defs (onTc (τ := τ) (main (F := F))) ⟨m, fun _ => 0, ρ⟩ (fun r => ∀ c : Dev nD,
      endsAt m hO c r.2.mem) := by
  refine Pipeline.θ_run_regions_kit_dev (pcfgs (F := F)) (adm m hO) (pdats m hO) () (cellOf_inj (adm m hO)) emb₁ defs₀ Variants.none
    (fun _ => (∅ : Finset Unit)) (fun _ _ => (0 : ℕ)) m ρ main
    (theSegs m hO)
    (fun c Q => by
      rewrite [main_chain c, Seg.run_eq_chain,
        show (theSegs m hO c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [theSegs, segs, Seg.pipes_host, Seg.pipes_region, Seg.pipes_nil]; decide)
    (O₀ := 0) (hL := fun _ _ => rfl) (G := fun _ => iprop(emp))
    (u₀ := u0 m hO)
    (hu₀ := by
      iintro Hu; imodintro
      isplitl [Hu]
      · iapply (show (ownU (u0 m hO) : sProp 𝕄)
            ⊢ BI.own (emb₁ (u0 m hO)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V9 m (outs m hO) c))
    (hch := fun c => ⟨.rfl, .rfl, .rfl, .rfl, .rfl, .rfl, .rfl, .rfl, .rfl, sep_mono .rfl (by iintro ⟨-, H⟩; iexact H)⟩)
    (hinit := ?_)
    (QY := fun c s => endsAt m hO c s.mem)
    (hfin := fun c s' => ?_) (hQ := fun _ h => h)
  · refine Pipeline.initEach _ _ fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V9 m (outs m hO) c) s') $$ [Hh HSI]
    · isplitl [Hh] <;> iassumption
    icases Hr with ⟨%h, HSI⟩
    imodintro
    isplitr
    · ipureintro
      exact ⟨h (Proc.devRef .tc main_v58) (Finset.mem_filter.mpr ⟨StableHlo.devRef_mem_tcRefs main_v58, by decide⟩),
        (h (Proc.devRef .tc main_arg0) (Finset.mem_filter.mpr ⟨StableHlo.devRef_mem_tcRefs main_arg0, by decide⟩)).trans (V9_main_arg0 m (outs m hO) c),
        (h (Proc.devRef .tc main_arg1) (Finset.mem_filter.mpr ⟨StableHlo.devRef_mem_tcRefs main_arg1, by decide⟩)).trans (V9_main_arg1 m (outs m hO) c),
        (h (Proc.devRef .tc main_arg2) (Finset.mem_filter.mpr ⟨StableHlo.devRef_mem_tcRefs main_arg2, by decide⟩)).trans (V9_main_arg2 m (outs m hO) c),
        (h (Proc.devRef .tc main_arg3) (Finset.mem_filter.mpr ⟨StableHlo.devRef_mem_tcRefs main_arg3, by decide⟩)).trans (V9_main_arg3 m (outs m hO) c),
        (h (Proc.devRef .tc main_arg4) (Finset.mem_filter.mpr ⟨StableHlo.devRef_mem_tcRefs main_arg4, by decide⟩)).trans (V9_main_arg4 m (outs m hO) c),
        (h (Proc.devRef .tc main_arg5) (Finset.mem_filter.mpr ⟨StableHlo.devRef_mem_tcRefs main_arg5, by decide⟩)).trans (V9_main_arg5 m (outs m hO) c)⟩
    · iexact HSI

end Cert.Kernel.Hand

end
-- ==== Proof.K.Tables.lean ====
import proofs.«407368_j10496900071476_2_alg».proof.Proof.K.RegionsP
import proofs.«407368_j10496900071476_2_alg».proof.Proof.Spec
import Idealize.ShloMosaic.Lib.StableHlo.Run
import Idealize.ShloMosaic.Lib.ValueIdx
import Idealize.ShloMosaic.Lib.Pipeline.Value
import Idealize.ShloMosaic.Lib.ValueLayout
import proofs.«407368_j10496900071476_2_alg».proof.Proof.Gen.Kernel.Skeleton
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def featTable (x : FVec F S8x256x64x64 .f32) : FVec F S32768x1x256 .f32 :=
  shapeCast S32768x1x256 (transpose S8x64x64x256 [0, 2, 3, 1] x transposes_S8x256x64x64_S8x64x64x256_0_2_3_1)
    shapeCasts_S8x64x64x256_S32768x1x256

def rowTable (b : IVec S131072 32) (yx : IVec S131072x2 32) : IVec S131072 32 :=
  addi
    (addi (muli b (broadcastInDim S131072 ![] bcast_S_S131072 (constantI S_ 32 4096#32)))
          (muli (shapeCast S131072 (extractStridedSlice S131072x1 ![0, 0] yx slices_S131072x2_S131072x1_0_0) shapeCasts_S131072x1_S131072)
                (broadcastInDim S131072 ![] bcast_S_S131072 (constantI S_ 32 64#32))))
    (shapeCast S131072 (extractStridedSlice S131072x1 ![0, 1] yx slices_S131072x2_S131072x1_0_1) shapeCasts_S131072x1_S131072)

theorem V1_main_v1 (c : Dev nD) : V1 m c main_v1 = featTable (m ((c : Thread nD τ).loc main_arg0)) := by
  show StableHlo.after hostOps0 (fun b => m (c, b)) (Proc.devRef .tc main_v1) = _
  after_results
  rfl

theorem V1_main_v3 (c : Dev nD) : V1 m c main_v3 = featTable (m ((c : Thread nD τ).loc main_arg1)) := by
  show StableHlo.after hostOps0 (fun b => m (c, b)) (Proc.devRef .tc main_v3) = _
  after_results_simp
  rfl

theorem V1_main_v13 (c : Dev nD) :
    V1 m c main_v13 = rowTable (m ((c : Thread nD τ).loc main_arg2)) (m ((c : Thread nD τ).loc main_arg3)) := by
  show StableHlo.after hostOps0 (fun b => m (c, b)) (Proc.devRef .tc main_v13) = _
  after_results_simp
  rfl

theorem V1_main_v23 (c : Dev nD) :
    V1 m c main_v23 = rowTable (m ((c : Thread nD τ).loc main_arg2)) (m ((c : Thread nD τ).loc main_arg4)) := by
  show StableHlo.after hostOps0 (fun b => m (c, b)) (Proc.devRef .tc main_v23) = _
  after_results_simp
  rfl

theorem V1_main_v33 (c : Dev nD) :
    V1 m c main_v33 = rowTable (m ((c : Thread nD τ).loc main_arg2)) (m ((c : Thread nD τ).loc main_arg5)) := by
  show StableHlo.after hostOps0 (fun b => m (c, b)) (Proc.devRef .tc main_v33) = _
  after_results_simp
  rfl

theorem V1_main_v34 (c : Dev nD) :
    V1 m c main_v34 = extractStridedSlice S32768 ![0]
      (rowTable (m ((c : Thread nD τ).loc main_arg2)) (m ((c : Thread nD τ).loc main_arg3))) slices_S131072_S32768_0 := by
  show StableHlo.after hostOps0 (fun b => m (c, b)) (Proc.devRef .tc main_v34) = _
  after_results_simp
  rfl

theorem V1_main_v35 (c : Dev nD) :
    V1 m c main_v35 = extractStridedSlice S32768 ![0]
      (rowTable (m ((c : Thread nD τ).loc main_arg2)) (m ((c : Thread nD τ).loc main_arg4))) slices_S131072_S32768_0 := by
  show StableHlo.after hostOps0 (fun b => m (c, b)) (Proc.devRef .tc main_v35) = _
  after_results_simp
  rfl

theorem V1_main_v36 (c : Dev nD) :
    V1 m c main_v36 = extractStridedSlice S32768 ![0]
      (rowTable (m ((c : Thread nD τ).loc main_arg2)) (m ((c : Thread nD τ).loc main_arg5))) slices_S131072_S32768_0 := by
  show StableHlo.after hostOps0 (fun b => m (c, b)) (Proc.devRef .tc main_v36) = _
  after_results_simp
  rfl

theorem featTable_apply (x : FVec F S8x256x64x64 .f32) (b : Fin 8) (r q : Fin 64) (k : Fin 256) :
    featTable x (ValueIdx.ix3 ⟨b.val * 4096 + r.val * 64 + q.val, by omega⟩ 0 k) = x (ValueIdx.ix4 b k r q) := by
  unfold featTable
  refine (shapeCast_apply _ _ _ (ValueIdx.ix4 b r q k) ?_).trans ?_
  · rw [Shape.rowMajor_val_four, Shape.rowMajor_val_three]
    show ((b.val * 64 + r.val) * 64 + q.val) * 256 + k.val = ((b.val * 4096 + r.val * 64 + q.val) * 1 + 0) * 256 + k.val
    omega
  · exact transpose_apply _ _ _ _ _ fun a => match a with
      | ⟨0, _⟩ => rfl
      | ⟨1, _⟩ => rfl
      | ⟨2, _⟩ => rfl
      | ⟨3, _⟩ => rfl

theorem col0_apply (yx : IVec S131072x2 32) (i : Fin 131072) :
    shapeCast S131072 (extractStridedSlice S131072x1 ![0, 0] yx slices_S131072x2_S131072x1_0_0) shapeCasts_S131072x1_S131072 (ValueIdx.ix1 i)
      = yx (ValueIdx.ix2 i 0) := by
  refine (shapeCast_apply _ _ _ (ValueIdx.ix2 i 0) ?_).trans ?_
  · rw [Shape.rowMajor_val_two, Shape.rowMajor_val_one]
    show i.val * 1 + 0 = i.val
    omega
  · exact extractStridedSlice_apply _ _ _ _ _ fun a => match a with
      | ⟨0, _⟩ => by show i.val = 0 + i.val; omega
      | ⟨1, _⟩ => rfl

theorem col1_apply (yx : IVec S131072x2 32) (i : Fin 131072) :
    shapeCast S131072 (extractStridedSlice S131072x1 ![0, 1] yx slices_S131072x2_S131072x1_0_1) shapeCasts_S131072x1_S131072 (ValueIdx.ix1 i)
      = yx (ValueIdx.ix2 i 1) := by
  refine (shapeCast_apply _ _ _ (ValueIdx.ix2 i 0) ?_).trans ?_
  · rw [Shape.rowMajor_val_two, Shape.rowMajor_val_one]
    show i.val * 1 + 0 = i.val
    omega
  · exact extractStridedSlice_apply _ _ _ _ _ fun a => match a with
      | ⟨0, _⟩ => by show i.val = 0 + i.val; omega
      | ⟨1, _⟩ => rfl

theorem rowTable_apply (b : IVec S131072 32) (yx : IVec S131072x2 32) (i : Fin 131072) :
    rowTable b yx (ValueIdx.ix1 i) = b (ValueIdx.ix1 i) * 4096#32 + yx (ValueIdx.ix2 i 0) * 64#32 + yx (ValueIdx.ix2 i 1) := by
  rw [← col0_apply yx i, ← col1_apply yx i]
  rfl

theorem rowTable_toNat (b : IVec S131072 32) (yx : IVec S131072x2 32) (i : Fin 131072)
    (hb : (b (ValueIdx.ix1 i)).toNat < 8) (h0 : (yx (ValueIdx.ix2 i 0)).toNat < 64) (h1 : (yx (ValueIdx.ix2 i 1)).toNat < 64) :
    (rowTable b yx (ValueIdx.ix1 i)).toNat = (b (ValueIdx.ix1 i)).toNat * 4096 + (yx (ValueIdx.ix2 i 0)).toNat * 64 + (yx (ValueIdx.ix2 i 1)).toNat := by
  rw [rowTable_apply, BitVec.toNat_add, BitVec.toNat_add, BitVec.toNat_mul, BitVec.toNat_mul,
    show (4096#32 : BitVec 32).toNat = 4096 from rfl, show (64#32 : BitVec 32).toNat = 64 from rfl]
  omega

theorem slice_rowTable_0 (t : IVec S131072 32) (i : Fin 32768) :
    extractStridedSlice S32768 ![0] t slices_S131072_S32768_0 (ValueIdx.ix1 i) = t (ValueIdx.ix1 ⟨i.val, by omega⟩) :=
  extractStridedSlice_apply _ _ _ _ _ fun a => match a with
    | ⟨0, _⟩ => by show i.val = 0 + i.val; omega

theorem slice_rowTable_1 (t : IVec S131072 32) (i : Fin 32768) :
    extractStridedSlice S32768 ![32768] t slices_S131072_S32768_32768 (ValueIdx.ix1 i) = t (ValueIdx.ix1 ⟨32768 + i.val, by omega⟩) :=
  extractStridedSlice_apply _ _ _ _ _ fun a => match a with
    | ⟨0, _⟩ => rfl

theorem slice_rowTable_2 (t : IVec S131072 32) (i : Fin 32768) :
    extractStridedSlice S32768 ![65536] t slices_S131072_S32768_65536 (ValueIdx.ix1 i) = t (ValueIdx.ix1 ⟨65536 + i.val, by omega⟩) :=
  extractStridedSlice_apply _ _ _ _ _ fun a => match a with
    | ⟨0, _⟩ => rfl

theorem slice_rowTable_3 (t : IVec S131072 32) (i : Fin 32768) :
    extractStridedSlice S32768 ![98304] t slices_S131072_S32768_98304 (ValueIdx.ix1 i) = t (ValueIdx.ix1 ⟨98304 + i.val, by omega⟩) :=
  extractStridedSlice_apply _ _ _ _ _ fun a => match a with
    | ⟨0, _⟩ => rfl

end Cert.Kernel.Hand

end
-- ==== Proof.K.Ok0.lean ====
import proofs.«407368_j10496900071476_2_alg».proof.Proof.K.LaunchP
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at0 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k0_off1_eq i) 0))

theorem word0_0 (pf : pre0.Contents (Elt F)) (i : grid0.Coords) :
    cc0_transform_0 k0_off1_inb numel1_S1 pf i
      = ![((pf 0 : IVec S32768 32) (ValueIdx.ix1 ⟨(i 0).val, (i 0).isLt⟩)).toNat, 0, 0] :=
  congrArg (fun w : BitVec 32 => ![w.toNat, 0, 0]) (at0 (pf 0) i _ rfl)

theorem word0_1 (pf : pre0.Contents (Elt F)) (i : grid0.Coords) :
    cc0_transform_1 k0_off1_inb numel1_S1 pf i
      = ![((pf 1 : IVec S32768 32) (ValueIdx.ix1 ⟨(i 0).val, (i 0).isLt⟩)).toNat, 0, 0] :=
  congrArg (fun w : BitVec 32 => ![w.toNat, 0, 0]) (at0 (pf 1) i _ rfl)

theorem word0_2 (pf : pre0.Contents (Elt F)) (i : grid0.Coords) :
    cc0_transform_2 k0_off1_inb numel1_S1 pf i
      = ![((pf 2 : IVec S32768 32) (ValueIdx.ix1 ⟨(i 0).val, (i 0).isLt⟩)).toNat, 0, 0] :=
  congrArg (fun w : BitVec 32 => ![w.toNat, 0, 0]) (at0 (pf 2) i _ rfl)

/-- Row numbers below 32768 in all three tables name blocks that lie inside the feature tables. -/
theorem ok0_of (pf : pre0.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok0 (F := F) pf := by
  unfold ok0
  refine ⟨fun i => ⟨?_, .inl rfl⟩, fun i => ⟨?_, .inl rfl⟩, fun i => ⟨?_, .inl rfl⟩⟩
  · rw [word0_0]; exact inb_of _ (h0 ⟨(i 0).val, (i 0).isLt⟩)
  · rw [word0_1]; exact inb_of _ (h1 ⟨(i 0).val, (i 0).isLt⟩)
  · rw [word0_2]; exact inb_of _ (h2 ⟨(i 0).val, (i 0).isLt⟩)

end Cert.Kernel.Hand

end
-- ==== Proof.K.Ok1.lean ====
import proofs.«407368_j10496900071476_2_alg».proof.Proof.K.LaunchP
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at1 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k1_off1_eq i) 0))

theorem word1_0 (pf : pre1.Contents (Elt F)) (i : grid0.Coords) :
    cc1_transform_0 k1_off1_inb numel1_S1 pf i
      = ![((pf 0 : IVec S32768 32) (ValueIdx.ix1 ⟨(i 0).val, (i 0).isLt⟩)).toNat, 0, 0] :=
  congrArg (fun w : BitVec 32 => ![w.toNat, 0, 0]) (at1 (pf 0) i _ rfl)

theorem word1_1 (pf : pre1.Contents (Elt F)) (i : grid0.Coords) :
    cc1_transform_1 k1_off1_inb numel1_S1 pf i
      = ![((pf 1 : IVec S32768 32) (ValueIdx.ix1 ⟨(i 0).val, (i 0).isLt⟩)).toNat, 0, 0] :=
  congrArg (fun w : BitVec 32 => ![w.toNat, 0, 0]) (at1 (pf 1) i _ rfl)

theorem word1_2 (pf : pre1.Contents (Elt F)) (i : grid0.Coords) :
    cc1_transform_2 k1_off1_inb numel1_S1 pf i
      = ![((pf 2 : IVec S32768 32) (ValueIdx.ix1 ⟨(i 0).val, (i 0).isLt⟩)).toNat, 0, 0] :=
  congrArg (fun w : BitVec 32 => ![w.toNat, 0, 0]) (at1 (pf 2) i _ rfl)

/-- Row numbers below 32768 in all three tables name blocks that lie inside the feature tables. -/
theorem ok1_of (pf : pre1.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok1 (F := F) pf := by
  unfold ok1
  refine ⟨fun i => ⟨?_, .inl rfl⟩, fun i => ⟨?_, .inl rfl⟩, fun i => ⟨?_, .inl rfl⟩⟩
  · rw [word1_0]; exact inb_of _ (h0 ⟨(i 0).val, (i 0).isLt⟩)
  · rw [word1_1]; exact inb_of _ (h1 ⟨(i 0).val, (i 0).isLt⟩)
  · rw [word1_2]; exact inb_of _ (h2 ⟨(i 0).val, (i 0).isLt⟩)

end Cert.Kernel.Hand

end
-- ==== Proof.K.Ok2.lean ====
import proofs.«407368_j10496900071476_2_alg».proof.Proof.K.LaunchP
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at2 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k2_off1_eq i) 0))

theorem word2_0 (pf : pre2.Contents (Elt F)) (i : grid0.Coords) :
    cc2_transform_0 k2_off1_inb numel1_S1 pf i
      = ![((pf 0 : IVec S32768 32) (ValueIdx.ix1 ⟨(i 0).val, (i 0).isLt⟩)).toNat, 0, 0] :=
  congrArg (fun w : BitVec 32 => ![w.toNat, 0, 0]) (at2 (pf 0) i _ rfl)

theorem word2_1 (pf : pre2.Contents (Elt F)) (i : grid0.Coords) :
    cc2_transform_1 k2_off1_inb numel1_S1 pf i
      = ![((pf 1 : IVec S32768 32) (ValueIdx.ix1 ⟨(i 0).val, (i 0).isLt⟩)).toNat, 0, 0] :=
  congrArg (fun w : BitVec 32 => ![w.toNat, 0, 0]) (at2 (pf 1) i _ rfl)

theorem word2_2 (pf : pre2.Contents (Elt F)) (i : grid0.Coords) :
    cc2_transform_2 k2_off1_inb numel1_S1 pf i
      = ![((pf 2 : IVec S32768 32) (ValueIdx.ix1 ⟨(i 0).val, (i 0).isLt⟩)).toNat, 0, 0] :=
  congrArg (fun w : BitVec 32 => ![w.toNat, 0, 0]) (at2 (pf 2) i _ rfl)

/-- Row numbers below 32768 in all three tables name blocks that lie inside the feature tables. -/
theorem ok2_of (pf : pre2.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok2 (F := F) pf := by
  unfold ok2
  refine ⟨fun i => ⟨?_, .inl rfl⟩, fun i => ⟨?_, .inl rfl⟩, fun i => ⟨?_, .inl rfl⟩⟩
  · rw [word2_0]; exact inb_of _ (h0 ⟨(i 0).val, (i 0).isLt⟩)
  · rw [word2_1]; exact inb_of _ (h1 ⟨(i 0).val, (i 0).isLt⟩)
  · rw [word2_2]; exact inb_of _ (h2 ⟨(i 0).val, (i 0).isLt⟩)

end Cert.Kernel.Hand

end
-- ==== Proof.K.Ok3.lean ====
import proofs.«407368_j10496900071476_2_alg».proof.Proof.K.LaunchP
import proofs.«407368_j10496900071476_2_alg».proof.Proof.K.Body
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic
import Idealize.ShloMosaic.Lib.ValueIdx

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word an index map reads at a grid point is the table's entry at the point's number. -/
theorem at3 (g : IVec S32768 32) (i : grid0.Coords) (x : S32768.Idx)
    (hx : (x 0).val = (Scalar.indexCast (BitVec.ofNat 32 (i 0).val)).toNat + 1 * 0) :
    g x = g (ValueIdx.ix1 ⟨(i 0).val, (i 0).isLt⟩) := by
  congr 1; funext a
  match a with
  | ⟨0, _⟩ => exact Fin.ext (hx.trans (show _ + 1 * 0 = (i 0).val by rw [Nat.mul_zero, Nat.add_zero]; exact congrFun (k3_off1_eq i) 0))

theorem word3_0 (pf : pre3.Contents (Elt F)) (i : grid0.Coords) :
    cc3_transform_0 k3_off1_inb numel1_S1 pf i
      = ![((pf 0 : IVec S32768 32) (ValueIdx.ix1 ⟨(i 0).val, (i 0).isLt⟩)).toNat, 0, 0] :=
  congrArg (fun w : BitVec 32 => ![w.toNat, 0, 0]) (at3 (pf 0) i _ rfl)

theorem word3_1 (pf : pre3.Contents (Elt F)) (i : grid0.Coords) :
    cc3_transform_1 k3_off1_inb numel1_S1 pf i
      = ![((pf 1 : IVec S32768 32) (ValueIdx.ix1 ⟨(i 0).val, (i 0).isLt⟩)).toNat, 0, 0] :=
  congrArg (fun w : BitVec 32 => ![w.toNat, 0, 0]) (at3 (pf 1) i _ rfl)

theorem word3_2 (pf : pre3.Contents (Elt F)) (i : grid0.Coords) :
    cc3_transform_2 k3_off1_inb numel1_S1 pf i
      = ![((pf 2 : IVec S32768 32) (ValueIdx.ix1 ⟨(i 0).val, (i 0).isLt⟩)).toNat, 0, 0] :=
  congrArg (fun w : BitVec 32 => ![w.toNat, 0, 0]) (at3 (pf 2) i _ rfl)

/-- Row numbers below 32768 in all three tables name blocks that lie inside the feature tables. -/
theorem ok3_of (pf : pre3.Contents (Elt F))
    (h0 : ∀ i : Fin 32768, ((pf 0 : IVec S32768 32) (ValueIdx.ix1 i)).toNat < 32768)
    (h1 : ∀ i : Fin 32768, ((pf 1 : IVec S32768 32) (ValueIdx.ix1 i)).toNat < 32768)
    (h2 : ∀ i : Fin 32768, ((pf 2 : IVec S32768 32) (ValueIdx.ix1 i)).toNat < 32768) : ok3 (F := F) pf := by
  unfold ok3
  refine ⟨fun i => ⟨?_, .inl rfl⟩, fun i => ⟨?_, .inl rfl⟩, fun i => ⟨?_, .inl rfl⟩⟩
  · rw [word3_0]; exact inb_of _ (h0 ⟨(i 0).val, (i 0).isLt⟩)
  · rw [word3_1]; exact inb_of _ (h1 ⟨(i 0).val, (i 0).isLt⟩)
  · rw [word3_2]; exact inb_of _ (h2 ⟨(i 0).val, (i 0).isLt⟩)

end Cert.Kernel.Hand

end
-- ==== Proof.K.TblRows.lean ====
import proofs.«407368_j10496900071476_2_alg».proof.Proof.K.LaunchP
import proofs.«407368_j10496900071476_2_alg».proof.Proof.Gen.Kernel.Skeleton
import proofs.«407368_j10496900071476_2_alg».proof.Proof.K.Family
import proofs.«407368_j10496900071476_2_alg».proof.Proof.K.Tables
import proofs.«407368_j10496900071476_2_alg».proof.Proof.K.Cuts
import proofs.«407368_j10496900071476_2_alg».proof.Proof.K.Ok0
import proofs.«407368_j10496900071476_2_alg».proof.Proof.K.Ok1
import proofs.«407368_j10496900071476_2_alg».proof.Proof.K.Ok2
import proofs.«407368_j10496900071476_2_alg».proof.Proof.K.Ok3
import proofs.«407368_j10496900071476_2_alg».proof.Proof.Spec
import Idealize.ShloMosaic.Lib.StableHlo.Run
import Idealize.ShloMosaic.Lib.ValueIdx
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev bi : IVec S131072 32 := m (((0 : Dev nD) : Thread nD τ).loc main_arg2)

abbrev ayx : IVec S131072x2 32 := m (((0 : Dev nD) : Thread nD τ).loc main_arg3)

abbrev pyx : IVec S131072x2 32 := m (((0 : Dev nD) : Thread nD τ).loc main_arg4)

abbrev nyx : IVec S131072x2 32 := m (((0 : Dev nD) : Thread nD τ).loc main_arg5)

theorem rowTable_lt (b : IVec S131072 32) (yx : IVec S131072x2 32) (i : Fin 131072)
    (hb : (b (ValueIdx.ix1 i)).toNat < 8) (h0 : (yx (ValueIdx.ix2 i 0)).toNat < 64) (h1 : (yx (ValueIdx.ix2 i 1)).toNat < 64) :
    (rowTable b yx (ValueIdx.ix1 i)).toNat < 32768 := by
  rw [rowTable_toNat b yx i hb h0 h1]; omega

/-- Call K's table j is chunk K of the full row-number table j. -/
theorem tbl0_0 (i : Fin 32768) :
    (tbl0 m 0 : IVec S32768 32) (ValueIdx.ix1 i)
      = rowTable (bi m) (ayx m) (ValueIdx.ix1 ⟨32768 * 0 + i.val, by omega⟩) := by
  show (V1 m (0 : Dev nD) main_v34 : IVec S32768 32) (ValueIdx.ix1 i) = _
  rw [V1_main_v34, slice_rowTable_0]
  exact congrArg (fun k => rowTable (bi m) (ayx m) (ValueIdx.ix1 k)) (Fin.ext (by show i.val = 32768 * 0 + i.val; omega))

theorem tbl0_1 (i : Fin 32768) :
    (tbl0 m 1 : IVec S32768 32) (ValueIdx.ix1 i)
      = rowTable (bi m) (pyx m) (ValueIdx.ix1 ⟨32768 * 0 + i.val, by omega⟩) := by
  show (V1 m (0 : Dev nD) main_v35 : IVec S32768 32) (ValueIdx.ix1 i) = _
  rw [V1_main_v35, slice_rowTable_0]
  exact congrArg (fun k => rowTable (bi m) (pyx m) (ValueIdx.ix1 k)) (Fin.ext (by show i.val = 32768 * 0 + i.val; omega))

theorem tbl0_2 (i : Fin 32768) :
    (tbl0 m 2 : IVec S32768 32) (ValueIdx.ix1 i)
      = rowTable (bi m) (nyx m) (ValueIdx.ix1 ⟨32768 * 0 + i.val, by omega⟩) := by
  show (V1 m (0 : Dev nD) main_v36 : IVec S32768 32) (ValueIdx.ix1 i) = _
  rw [V1_main_v36, slice_rowTable_0]
  exact congrArg (fun k => rowTable (bi m) (nyx m) (ValueIdx.ix1 k)) (Fin.ext (by show i.val = 32768 * 0 + i.val; omega))

theorem tbl1_0 (i : Fin 32768) :
    (tbl1 m 0 : IVec S32768 32) (ValueIdx.ix1 i)
      = rowTable (bi m) (ayx m) (ValueIdx.ix1 ⟨32768 * 1 + i.val, by omega⟩) := by
  refine (congrFun (cut1_0 (V1 m (0 : Dev nD))) (ValueIdx.ix1 i)).trans ?_
  rw [V1_main_v13]
  exact slice_rowTable_1 _ i

theorem tbl1_1 (i : Fin 32768) :
    (tbl1 m 1 : IVec S32768 32) (ValueIdx.ix1 i)
      = rowTable (bi m) (pyx m) (ValueIdx.ix1 ⟨32768 * 1 + i.val, by omega⟩) := by
  refine (congrFun (cut1_1 (V1 m (0 : Dev nD))) (ValueIdx.ix1 i)).trans ?_
  rw [V1_main_v23]
  exact slice_rowTable_1 _ i

theorem tbl1_2 (i : Fin 32768) :
    (tbl1 m 2 : IVec S32768 32) (ValueIdx.ix1 i)
      = rowTable (bi m) (nyx m) (ValueIdx.ix1 ⟨32768 * 1 + i.val, by omega⟩) := by
  refine (congrFun (cut1_2 (V1 m (0 : Dev nD))) (ValueIdx.ix1 i)).trans ?_
  rw [V1_main_v33]
  exact slice_rowTable_1 _ i

theorem tbl2_0 (i : Fin 32768) :
    (tbl2 m 0 : IVec S32768 32) (ValueIdx.ix1 i)
      = rowTable (bi m) (ayx m) (ValueIdx.ix1 ⟨32768 * 2 + i.val, by omega⟩) := by
  refine (congrFun (cut2_0 (V1 m (0 : Dev nD))) (ValueIdx.ix1 i)).trans ?_
  rw [V1_main_v13]
  exact slice_rowTable_2 _ i

theorem tbl2_1 (i : Fin 32768) :
    (tbl2 m 1 : IVec S32768 32) (ValueIdx.ix1 i)
      = rowTable (bi m) (pyx m) (ValueIdx.ix1 ⟨32768 * 2 + i.val, by omega⟩) := by
  refine (congrFun (cut2_1 (V1 m (0 : Dev nD))) (ValueIdx.ix1 i)).trans ?_
  rw [V1_main_v23]
  exact slice_rowTable_2 _ i

theorem tbl2_2 (i : Fin 32768) :
    (tbl2 m 2 : IVec S32768 32) (ValueIdx.ix1 i)
      = rowTable (bi m) (nyx m) (ValueIdx.ix1 ⟨32768 * 2 + i.val, by omega⟩) := by
  refine (congrFun (cut2_2 (V1 m (0 : Dev nD))) (ValueIdx.ix1 i)).trans ?_
  rw [V1_main_v33]
  exact slice_rowTable_2 _ i

theorem tbl3_0 (i : Fin 32768) :
    (tbl3 m 0 : IVec S32768 32) (ValueIdx.ix1 i)
      = rowTable (bi m) (ayx m) (ValueIdx.ix1 ⟨32768 * 3 + i.val, by omega⟩) := by
  refine (congrFun (cut3_0 (V1 m (0 : Dev nD))) (ValueIdx.ix1 i)).trans ?_
  rw [V1_main_v13]
  exact slice_rowTable_3 _ i

theorem tbl3_1 (i : Fin 32768) :
    (tbl3 m 1 : IVec S32768 32) (ValueIdx.ix1 i)
      = rowTable (bi m) (pyx m) (ValueIdx.ix1 ⟨32768 * 3 + i.val, by omega⟩) := by
  refine (congrFun (cut3_1 (V1 m (0 : Dev nD))) (ValueIdx.ix1 i)).trans ?_
  rw [V1_main_v23]
  exact slice_rowTable_3 _ i

theorem tbl3_2 (i : Fin 32768) :
    (tbl3 m 2 : IVec S32768 32) (ValueIdx.ix1 i)
      = rowTable (bi m) (nyx m) (ValueIdx.ix1 ⟨32768 * 3 + i.val, by omega⟩) := by
  refine (congrFun (cut3_2 (V1 m (0 : Dev nD))) (ValueIdx.ix1 i)).trans ?_
  rw [V1_main_v33]
  exact slice_rowTable_3 _ i

theorem oks_of_inRange (h : Cert.Triplet.InRange (bi m) (ayx m) (pyx m) (nyx m)) : Oks m where
  o0 := ok0_of _ (fun i => by rw [tbl0_0]; exact rowTable_lt _ _ _ (h.b _) (h.a _ 0) (h.a _ 1))
    (fun i => by rw [tbl0_1]; exact rowTable_lt _ _ _ (h.b _) (h.p _ 0) (h.p _ 1))
    (fun i => by rw [tbl0_2]; exact rowTable_lt _ _ _ (h.b _) (h.n _ 0) (h.n _ 1))
  o1 := ok1_of _ (fun i => by rw [tbl1_0]; exact rowTable_lt _ _ _ (h.b _) (h.a _ 0) (h.a _ 1))
    (fun i => by rw [tbl1_1]; exact rowTable_lt _ _ _ (h.b _) (h.p _ 0) (h.p _ 1))
    (fun i => by rw [tbl1_2]; exact rowTable_lt _ _ _ (h.b _) (h.n _ 0) (h.n _ 1))
  o2 := ok2_of _ (fun i => by rw [tbl2_0]; exact rowTable_lt _ _ _ (h.b _) (h.a _ 0) (h.a _ 1))
    (fun i => by rw [tbl2_1]; exact rowTable_lt _ _ _ (h.b _) (h.p _ 0) (h.p _ 1))
    (fun i => by rw [tbl2_2]; exact rowTable_lt _ _ _ (h.b _) (h.n _ 0) (h.n _ 1))
  o3 := ok3_of _ (fun i => by rw [tbl3_0]; exact rowTable_lt _ _ _ (h.b _) (h.a _ 0) (h.a _ 1))
    (fun i => by rw [tbl3_1]; exact rowTable_lt _ _ _ (h.b _) (h.p _ 0) (h.p _ 1))
    (fun i => by rw [tbl3_2]; exact rowTable_lt _ _ _ (h.b _) (h.n _ 0) (h.n _ 1))

end Cert.Kernel.Hand

end
-- ==== Proof.lean ====
import proofs.«407368_j10496900071476_2_alg».proof.Defs
import proofs.«407368_j10496900071476_2_alg».proof.Proof.Gen.Kernel
import proofs.«407368_j10496900071476_2_alg».proof.Proof.Gen.KernelIdeal
import proofs.«407368_j10496900071476_2_alg».proof.Proof.Gen.ReferenceIdeal
import proofs.«407368_j10496900071476_2_alg».proof.Proof.Gen.Pre_finite_inputs
import proofs.«407368_j10496900071476_2_alg».proof.Proof.Gen.ReferenceIdeal.Run
import proofs.«407368_j10496900071476_2_alg».proof.Proof.Gen.ReferenceIdeal.Read
import proofs.«407368_j10496900071476_2_alg».proof.Proof.PreDecode
import proofs.«407368_j10496900071476_2_alg».proof.Proof.RefSide
import proofs.«407368_j10496900071476_2_alg».proof.Proof.KI.Run
import proofs.«407368_j10496900071476_2_alg».proof.Proof.KI.TblRows
import proofs.«407368_j10496900071476_2_alg».proof.Proof.KI.Total
import proofs.«407368_j10496900071476_2_alg».proof.Proof.K.Run
import proofs.«407368_j10496900071476_2_alg».proof.Proof.K.TblRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ hpre =>
  have hr := Cert.Triplet.Pre.inRange_of_pre _ _ _ _ _ _ (hpre 0)
  (θ_run (Cert.Kernel.defs (F := Bits)) _ _).mono (fun _ h c => (h c).2)
    (Cert.Kernel.Hand.run_main m (Cert.Kernel.Hand.oks_of_inRange m hr) ρ)

theorem frame_ki : Cert.frame_KernelIdeal := fun m ρ hpre =>
  have hr := Cert.Triplet.Pre.inRange_of_pre _ _ _ _ _ _ (hpre 0)
  (θ_run (Cert.KernelIdeal.defs (F := Ideal)) _ _).mono (fun _ h c => (h c).2)
    (Cert.KernelIdeal.Hand.run_main m (Cert.KernelIdeal.Hand.oks_of_inRange m hr) ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

theorem algebraic : Cert.algebraic_KernelIdeal_ReferenceIdeal := by
  intro m ρ m' ρ' hpre hagree
  have hr := Cert.Triplet.Pre.inRange_of_pre _ _ _ _ _ _ (hpre 0)
  have hO := Cert.KernelIdeal.Hand.oks_of_inRange m hr
  refine ⟨fun c => Cert.KernelIdeal.GenP.V9 m (Cert.KernelIdeal.Hand.outs m hO) c Cert.KernelIdeal.main_v58,
    Cert.KernelIdeal.Hand.run_main m hO ρ, ?_⟩
  refine (θ_run (Cert.ReferenceIdeal.defs (F := Ideal)) _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v83_eq, (hagree 0).1, (hagree 0).2.1, (hagree 0).2.2.1, (hagree 0).2.2.2.1, (hagree 0).2.2.2.2.1,
    (hagree 0).2.2.2.2.2, Cert.Triplet.Ref.ref_total _ _ _ _ _ _ hr]
  exact (Cert.KernelIdeal.Hand.kernel_total m hr hO 0).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
